-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v191)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x16 : Shape := ⟨2, ![600000, 16]⟩
abbrev S100000 : Shape := ⟨1, ![100000]⟩
abbrev S4096 : Shape := ⟨1, ![4096]⟩
abbrev S512 : Shape := ⟨1, ![512]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S3x16x128 : Shape := ⟨3, ![3, 16, 128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩
abbrev S1x600000 : Shape := ⟨2, ![1, 600000]⟩
abbrev S600000 : Shape := ⟨1, ![600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x16 : S_.BroadcastsInDim S600000x16 (![] : Fin 0 → Fin S600000x16.rank)
  reducesTo_S600000x16_S_d0_1 : S600000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x16x128 : S_.BroadcastsInDim S3x16x128 (![] : Fin 0 → Fin S3x16x128.rank)
  reducesTo_S3x16x128_S_d0_1_2 : S3x16x128.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part4 {F : FTy → Type} [FloatOps F] (main_arg1 : IVec S2x600000 32) (main_v63 : IVec S_ 1) (main_v67 : IVec S_ 1) : IVec S_ 1 :=
  let main_v68 : IVec S_ 1 := andi main_v63 main_v67
  let main_v69 : IVec S1x600000 32 := (extractStridedSlice S1x600000 ![0, 0] · slices_S2x600000_S1x600000_0_0) main_arg1
  let main_v70 : IVec S600000 32 := shapeCast S600000 main_v69 shapeCasts_S1x600000_S600000
  let main_c_26 : IVec S_ 32 := constantI S_ 32 0#32
  let main_v71 : IVec S600000 32 := broadcastInDim S600000 ![] bcast_S_S600000 main_c_26
  let main_v72 : IVec S600000 1 := cmpi .sge main_v70 main_v71
  let main_c_27 : IVec S_ 1 := constantI S_ 1 1#1
  let main_v73 : IVec S_ 1 := (fun x v => Host.reduce IntOp.andi x v reducesTo_S600000_S_d0 h_S_) main_v72 main_c_27
  let main_v74 : IVec S_ 1 := andi main_v68 main_v73
  let main_v75 : IVec S1x600000 32 := (extractStridedSlice S1x600000 ![0, 0] · slices_S2x600000_S1x600000_0_0) main_arg1
  let main_v76 : IVec S600000 32 := shapeCast S600000 main_v75 shapeCasts_S1x600000_S600000
  let main_c_28 : IVec S_ 32 := constantI S_ 32 100000#32
  let main_v77 : IVec S600000 32 := broadcastInDim S600000 ![] bcast_S_S600000 main_c_28
  let main_v78 : IVec S600000 1 := cmpi .slt main_v76 main_v77
  let main_c_29 : IVec S_ 1 := constantI S_ 1 1#1
  let main_v79 : IVec S_ 1 := (fun x v => Host.reduce IntOp.andi x v reducesTo_S600000_S_d0 h_S_) main_v78 main_c_29
  let main_v80 : IVec S_ 1 := andi main_v74 main_v79
  main_v80

def fn_part3 {F : FTy → Type} [FloatOps F] (main_arg1 : IVec S2x600000 32) (main_arg16 : FVec F S256 .f32) (main_arg17 : FVec F S256x10 .f32) (main_arg18 : FVec F S10 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg16
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x10 .f32 := Host.absf main_arg17
  let main_cst_22 : FVec F S_ .f32 := constant S_ .f32 0x7F800000#32
  let main_v60 : FVec F S256x10 .f32 := broadcastInDim S256x10 ![] bcast_S_S256x10 main_cst_22
  let main_v61 : IVec S256x10 1 := cmpf .olt main_v59 main_v60
  let main_c_23 : IVec S_ 1 := constantI S_ 1 1#1
  let main_v62 : IVec S_ 1 := (fun x v => Host.reduce IntOp.andi x v reducesTo_S256x10_S_d0_1 h_S_) main_v61 main_c_23
  let main_v63 : IVec S_ 1 := andi main_v58 main_v62
  let main_v64 : FVec F S10 .f32 := Host.absf main_arg18
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_arg1 main_v63 main_v67

def fn_part2 {F : FTy → Type} [FloatOps F] (main_arg1 : IVec S2x600000 32) (main_arg12 : FVec F S3x16x128 .f32) (main_arg13 : FVec F S3x128 .f32) (main_arg14 : FVec F S3x128 .f32) (main_arg15 : FVec F S128x256 .f32) (main_arg16 : FVec F S256 .f32) (main_arg17 : FVec F S256x10 .f32) (main_arg18 : FVec F S10 .f32) (main_v33 : IVec S_ 1) : IVec S_ 1 :=
  let main_v34 : FVec F S3x16x128 .f32 := Host.absf main_arg12
  let main_cst_12 : FVec F S_ .f32 := constant S_ .f32 0x7F800000#32
  let main_v35 : FVec F S3x16x128 .f32 := broadcastInDim S3x16x128 ![] bcast_S_S3x16x128 main_cst_12
  let main_v36 : IVec S3x16x128 1 := cmpf .olt main_v34 main_v35
  let main_c_13 : IVec S_ 1 := constantI S_ 1 1#1
  let main_v37 : IVec S_ 1 := (fun x v => Host.reduce IntOp.andi x v reducesTo_S3x16x128_S_d0_1_2 h_S_) main_v36 main_c_13
  let main_v38 : IVec S_ 1 := andi main_v33 main_v37
  let main_v39 : FVec F S3x128 .f32 := Host.absf main_arg13
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg14
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S128x256 .f32 := Host.absf main_arg15
  let main_cst_18 : FVec F S_ .f32 := constant S_ .f32 0x7F800000#32
  let main_v50 : FVec F S128x256 .f32 := broadcastInDim S128x256 ![] bcast_S_S128x256 main_cst_18
  fn_part3 (F := F) main_arg1 main_arg16 main_arg17 main_arg18 main_v48 main_v49 main_v50

def fn_part1 {F : FTy → Type} [FloatOps F] (main_arg1 : IVec S2x600000 32) (main_arg9 : FVec F S3x128x128 .f32) (main_arg10 : FVec F S3x128 .f32) (main_arg11 : FVec F S3x128x128 .f32) (main_arg12 : FVec F S3x16x128 .f32) (main_arg13 : FVec F S3x128 .f32) (main_arg14 : FVec F S3x128 .f32) (main_arg15 : FVec F S128x256 .f32) (main_arg16 : FVec F S256 .f32) (main_arg17 : FVec F S256x10 .f32) (main_arg18 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg9
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg10
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg11
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg1 main_arg12 main_arg13 main_arg14 main_arg15 main_arg16 main_arg17 main_arg18 main_v33

def fn {F : FTy → Type} [FloatOps F] (main_arg0 : FVec F S100000x128 .f32) (main_arg1 : IVec S2x600000 32) (main_arg2 : FVec F S600000x16 .f32) (main_arg3 : IVec S100000 32) (main_arg4 : IVec S100000 32) (main_arg5 : IVec S4096 32) (main_arg6 : IVec S512 32) (main_arg7 : FVec F S128x128 .f32) (main_arg8 : FVec F S128 .f32) (main_arg9 : FVec F S3x128x128 .f32) (main_arg10 : FVec F S3x128 .f32) (main_arg11 : FVec F S3x128x128 .f32) (main_arg12 : FVec F S3x16x128 .f32) (main_arg13 : FVec F S3x128 .f32) (main_arg14 : FVec F S3x128 .f32) (main_arg15 : FVec F S128x256 .f32) (main_arg16 : FVec F S256 .f32) (main_arg17 : FVec F S256x10 .f32) (main_arg18 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x16 .f32 := Host.absf main_arg2
  let main_cst_0 : FVec F S_ .f32 := constant S_ .f32 0x7F800000#32
  let main_v5 : FVec F S600000x16 .f32 := broadcastInDim S600000x16 ![] bcast_S_S600000x16 main_cst_0
  let main_v6 : IVec S600000x16 1 := cmpf .olt main_v4 main_v5
  let main_c_1 : IVec S_ 1 := constantI S_ 1 1#1
  let main_v7 : IVec S_ 1 := (fun x v => Host.reduce IntOp.andi x v reducesTo_S600000x16_S_d0_1 h_S_) main_v6 main_c_1
  let main_v8 : IVec S_ 1 := andi main_v3 main_v7
  let main_v9 : FVec F S128x128 .f32 := Host.absf main_arg7
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg8
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x600000 : Shape := ⟨2, ![2, 600000]⟩
abbrev S600000x16 : Shape := ⟨2, ![600000, 16]⟩
abbrev S100000 : Shape := ⟨1, ![100000]⟩
abbrev S4096 : Shape := ⟨1, ![4096]⟩
abbrev S512 : Shape := ⟨1, ![512]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S3x16x128 : Shape := ⟨3, ![3, 16, 128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S1x600000 : Shape := ⟨2, ![1, 600000]⟩
abbrev S600000 : Shape := ⟨1, ![600000]⟩
abbrev S1x128 : Shape := ⟨2, ![1, 128]⟩
abbrev S5000x128 : Shape := ⟨2, ![5000, 128]⟩
abbrev S_ : Shape := ⟨0, ![]⟩
abbrev S100000x16 : Shape := ⟨2, ![100000, 16]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S1x128x128 : Shape := ⟨3, ![1, 128, 128]⟩
abbrev S1x16x128 : Shape := ⟨3, ![1, 16, 128]⟩
abbrev S16x128 : Shape := ⟨2, ![16, 128]⟩
abbrev S160x128 : Shape := ⟨2, ![160, 128]⟩
abbrev S5000x16 : Shape := ⟨2, ![5000, 16]⟩
abbrev S8x128 : Shape := ⟨2, ![8, 128]⟩
abbrev S20x8x128 : Shape := ⟨3, ![20, 8, 128]⟩
abbrev S20x1x128 : Shape := ⟨3, ![20, 1, 128]⟩
abbrev S20x128 : Shape := ⟨2, ![20, 128]⟩
abbrev S513 : Shape := ⟨1, ![513]⟩
abbrev S100000x1 : Shape := ⟨2, ![100000, 1]⟩
abbrev S4096x128 : Shape := ⟨2, ![4096, 128]⟩
abbrev S4096x1 : Shape := ⟨2, ![4096, 1]⟩
abbrev S512x128 : Shape := ⟨2, ![512, 128]⟩
abbrev S512x1 : Shape := ⟨2, ![512, 1]⟩
abbrev S1x256 : Shape := ⟨2, ![1, 256]⟩
abbrev S1x10 : Shape := ⟨2, ![1, 10]⟩
abbrev S512x10 : Shape := ⟨2, ![512, 10]⟩
abbrev S512x256 : Shape := ⟨2, ![512, 256]⟩

abbrev nBuf : Space → Nat
  | .hbm => 321
  | .vmem => 54
  | .smem => 0
  | _ => 0

abbrev hbmTy0_0 (i : Nat) : BufTy := match i % 128 with
  | 0 => ⟨S100000x128, .f32⟩
  | 1 => ⟨S2x600000, .i32⟩
  | 2 => ⟨S600000x16, .f32⟩
  | 3 => ⟨S100000, .i32⟩
  | 4 => ⟨S100000, .i32⟩
  | 5 => ⟨S4096, .i32⟩
  | 6 => ⟨S512, .i32⟩
  | 7 => ⟨S128x128, .f32⟩
  | 8 => ⟨S128, .f32⟩
  | 9 => ⟨S3x128x128, .f32⟩
  | 10 => ⟨S3x128, .f32⟩
  | 11 => ⟨S3x128x128, .f32⟩
  | 12 => ⟨S3x16x128, .f32⟩
  | 13 => ⟨S3x128, .f32⟩
  | 14 => ⟨S3x128, .f32⟩
  | 15 => ⟨S128x256, .f32⟩
  | 16 => ⟨S256, .f32⟩
  | 17 => ⟨S256x10, .f32⟩
  | 18 => ⟨S10, .f32⟩
  | 19 => ⟨S1x600000, .i32⟩
  | 20 => ⟨S600000, .i32⟩
  | 21 => ⟨S1x600000, .i32⟩
  | 22 => ⟨S600000, .i32⟩
  | 23 => ⟨S1x128, .f32⟩
  | 24 => ⟨S100000x128, .f32⟩
  | 25 => ⟨S_, .f32⟩
  | 26 => ⟨S100000x16, .f32⟩
  | 27 => ⟨S600000x1, .i32⟩
  | 28 => ⟨S100000x16, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S1, .i32⟩
  | 38 => ⟨S_, .i32⟩
  | 39 => ⟨S600000x1, .i32⟩
  | 40 => ⟨S600000x1, .i1⟩
  | 41 => ⟨S1x1, .i32⟩
  | 42 => ⟨S600000x1, .i32⟩
  | 43 => ⟨S600000x1, .i1⟩
  | 44 => ⟨S600000x1, .i1⟩
  | 45 => ⟨S_, .i1⟩
  | 46 => ⟨S600000, .i1⟩
  | 47 => ⟨S600000x128, .f32⟩
  | 48 => ⟨S600000x128, .i1⟩
  | 49 => ⟨S_, .f32⟩
  | 50 => ⟨S600000x128, .f32⟩
  | 51 => ⟨S600000x128, .f32⟩
  | 52 => ⟨S_, .f32⟩
  | 53 => ⟨S100000x128, .f32⟩
  | 54 => ⟨S600000x1, .i32⟩
  | 55 => ⟨S100000x128, .f32⟩
  | 56 => ⟨S1x128x128, .f32⟩
  | 57 => ⟨S128x128, .f32⟩
  | 58 => ⟨S1x128x128, .f32⟩
  | 59 => ⟨S128x128, .f32⟩
  | 60 => ⟨S1x16x128, .f32⟩
  | 61 => ⟨S16x128, .f32⟩
  | 62 => ⟨S1x128, .f32⟩
  | 63 => ⟨S128, .f32⟩
  | 64 => ⟨S1x128, .f32⟩
  | 65 => ⟨S100000x128, .f32⟩
  | 66 => ⟨S160x128, .f32⟩
  | 67 => ⟨S20x8x128, .f32⟩
  | 68 => ⟨S20x1x128, .f32⟩
  | 69 => ⟨S20x128, .f32⟩
  | 70 => ⟨S_, .f32⟩
  | 71 => ⟨S128, .f32⟩
  | 72 => ⟨S20x1x128, .f32⟩
  | 73 => ⟨S20x128, .f32⟩
  | 74 => ⟨S_, .f32⟩
  | 75 => ⟨S128, .f32⟩
  | 76 => ⟨S_, .f32⟩
  | 77 => ⟨S128, .f32⟩
  | 78 => ⟨S128, .f32⟩
  | 79 => ⟨S_, .f32⟩
  | 80 => ⟨S128, .f32⟩
  | 81 => ⟨S128, .f32⟩
  | 82 => ⟨S128, .f32⟩
  | 83 => ⟨S128, .f32⟩
  | 84 => ⟨S_, .f32⟩
  | 85 => ⟨S128, .f32⟩
  | 86 => ⟨S128, .f32⟩
  | 87 => ⟨S1x128, .f32⟩
  | 88 => ⟨S100000x128, .f32⟩
  | 89 => ⟨S100000x128, .f32⟩
  | 90 => ⟨S_, .f32⟩
  | 91 => ⟨S128, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S128, .f32⟩
  | 99 => ⟨S1x128, .f32⟩
  | 100 => ⟨S100000x128, .f32⟩
  | 101 => ⟨S100000x128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S1, .i32⟩
  | 119 => ⟨S_, .i32⟩
  | 120 => ⟨S600000x1, .i32⟩
  | 121 => ⟨S600000x1, .i1⟩
  | 122 => ⟨S1x1, .i32⟩
  | 123 => ⟨S600000x1, .i32⟩
  | 124 => ⟨S600000x1, .i1⟩
  | 125 => ⟨S600000x1, .i1⟩
  | 126 => ⟨S_, .i1⟩
  | 127 => ⟨S600000, .i1⟩
  | _ => ⟨S100000x128, .f32⟩

abbrev hbmTy0_1 (i : Nat) : BufTy := match i % 128 with
  | 0 => ⟨S600000x128, .f32⟩
  | 1 => ⟨S600000x128, .i1⟩
  | 2 => ⟨S_, .f32⟩
  | 3 => ⟨S600000x128, .f32⟩
  | 4 => ⟨S600000x128, .f32⟩
  | 5 => ⟨S_, .f32⟩
  | 6 => ⟨S100000x128, .f32⟩
  | 7 => ⟨S600000x1, .i32⟩
  | 8 => ⟨S100000x128, .f32⟩
  | 9 => ⟨S1x128x128, .f32⟩
  | 10 => ⟨S128x128, .f32⟩
  | 11 => ⟨S1x128x128, .f32⟩
  | 12 => ⟨S128x128, .f32⟩
  | 13 => ⟨S1x16x128, .f32⟩
  | 14 => ⟨S16x128, .f32⟩
  | 15 => ⟨S1x128, .f32⟩
  | 16 => ⟨S128, .f32⟩
  | 17 => ⟨S1x128, .f32⟩
  | 18 => ⟨S100000x128, .f32⟩
  | 19 => ⟨S160x128, .f32⟩
  | 20 => ⟨S20x8x128, .f32⟩
  | 21 => ⟨S20x1x128, .f32⟩
  | 22 => ⟨S20x128, .f32⟩
  | 23 => ⟨S_, .f32⟩
  | 24 => ⟨S128, .f32⟩
  | 25 => ⟨S20x1x128, .f32⟩
  | 26 => ⟨S20x128, .f32⟩
  | 27 => ⟨S_, .f32⟩
  | 28 => ⟨S128, .f32⟩
  | 29 => ⟨S_, .f32⟩
  | 30 => ⟨S128, .f32⟩
  | 31 => ⟨S128, .f32⟩
  | 32 => ⟨S_, .f32⟩
  | 33 => ⟨S128, .f32⟩
  | 34 => ⟨S128, .f32⟩
  | 35 => ⟨S128, .f32⟩
  | 36 => ⟨S128, .f32⟩
  | 37 => ⟨S_, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S_, .f32⟩
  | 44 => ⟨S128, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S1, .i32⟩
  | 72 => ⟨S_, .i32⟩
  | 73 => ⟨S600000x1, .i32⟩
  | 74 => ⟨S600000x1, .i1⟩
  | 75 => ⟨S1x1, .i32⟩
  | 76 => ⟨S600000x1, .i32⟩
  | 77 => ⟨S600000x1, .i1⟩
  | 78 => ⟨S600000x1, .i1⟩
  | 79 => ⟨S_, .i1⟩
  | 80 => ⟨S600000, .i1⟩
  | 81 => ⟨S600000x128, .f32⟩
  | 82 => ⟨S600000x128, .i1⟩
  | 83 => ⟨S_, .f32⟩
  | 84 => ⟨S600000x128, .f32⟩
  | 85 => ⟨S600000x128, .f32⟩
  | 86 => ⟨S_, .f32⟩
  | 87 => ⟨S100000x128, .f32⟩
  | 88 => ⟨S600000x1, .i32⟩
  | 89 => ⟨S100000x128, .f32⟩
  | 90 => ⟨S1x128x128, .f32⟩
  | 91 => ⟨S128x128, .f32⟩
  | 92 => ⟨S1x128x128, .f32⟩
  | 93 => ⟨S128x128, .f32⟩
  | 94 => ⟨S1x16x128, .f32⟩
  | 95 => ⟨S16x128, .f32⟩
  | 96 => ⟨S1x128, .f32⟩
  | 97 => ⟨S128, .f32⟩
  | 98 => ⟨S1x128, .f32⟩
  | 99 => ⟨S100000x128, .f32⟩
  | 100 => ⟨S160x128, .f32⟩
  | 101 => ⟨S20x8x128, .f32⟩
  | 102 => ⟨S20x1x128, .f32⟩
  | 103 => ⟨S20x128, .f32⟩
  | 104 => ⟨S_, .f32⟩
  | 105 => ⟨S128, .f32⟩
  | 106 => ⟨S20x1x128, .f32⟩
  | 107 => ⟨S20x128, .f32⟩
  | 108 => ⟨S_, .f32⟩
  | 109 => ⟨S128, .f32⟩
  | 110 => ⟨S_, .f32⟩
  | 111 => ⟨S128, .f32⟩
  | 112 => ⟨S128, .f32⟩
  | 113 => ⟨S_, .f32⟩
  | 114 => ⟨S128, .f32⟩
  | 115 => ⟨S128, .f32⟩
  | 116 => ⟨S128, .f32⟩
  | 117 => ⟨S128, .f32⟩
  | 118 => ⟨S_, .f32⟩
  | 119 => ⟨S128, .f32⟩
  | 120 => ⟨S128, .f32⟩
  | 121 => ⟨S1x128, .f32⟩
  | 122 => ⟨S100000x128, .f32⟩
  | 123 => ⟨S100000x128, .f32⟩
  | 124 => ⟨S_, .f32⟩
  | 125 => ⟨S128, .f32⟩
  | 126 => ⟨S128, .f32⟩
  | 127 => ⟨S128, .f32⟩
  | _ => ⟨S100000x128, .f32⟩

abbrev hbmTy0_2 (i : Nat) : BufTy := match i % 128 with
  | 0 => ⟨S1x128, .f32⟩
  | 1 => ⟨S100000x128, .f32⟩
  | 2 => ⟨S100000x128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S1x128, .f32⟩
  | 9 => ⟨S128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S_, .i32⟩
  | 17 => ⟨S1, .i32⟩
  | 18 => ⟨S_, .i32⟩
  | 19 => ⟨S_, .i32⟩
  | 20 => ⟨S512, .i32⟩
  | 21 => ⟨S513, .i32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S100000, .i32⟩
  | 31 => ⟨S100000, .i32⟩
  | 32 => ⟨S_, .f32⟩
  | 33 => ⟨S4096x128, .f32⟩
  | 34 => ⟨S100000x1, .i32⟩
  | 35 => ⟨S4096x128, .f32⟩
  | 36 => ⟨S_, .f32⟩
  | 37 => ⟨S100000x1, .f32⟩
  | 38 => ⟨S_, .f32⟩
  | 39 => ⟨S4096x1, .f32⟩
  | 40 => ⟨S100000x1, .i32⟩
  | 41 => ⟨S4096x1, .f32⟩
  | 42 => ⟨S_, .f32⟩
  | 43 => ⟨S4096x1, .f32⟩
  | 44 => ⟨S4096x1, .f32⟩
  | 45 => ⟨S4096x128, .f32⟩
  | 46 => ⟨S4096x128, .f32⟩
  | 47 => ⟨S_, .f32⟩
  | 48 => ⟨S512x128, .f32⟩
  | 49 => ⟨S4096x1, .i32⟩
  | 50 => ⟨S512x128, .f32⟩
  | 51 => ⟨S_, .f32⟩
  | 52 => ⟨S4096x1, .f32⟩
  | 53 => ⟨S_, .f32⟩
  | 54 => ⟨S512x1, .f32⟩
  | 55 => ⟨S4096x1, .i32⟩
  | 56 => ⟨S512x1, .f32⟩
  | 57 => ⟨S_, .f32⟩
  | 58 => ⟨S512x1, .f32⟩
  | 59 => ⟨S512x1, .f32⟩
  | 60 => ⟨S512x128, .f32⟩
  | 61 => ⟨S512x128, .f32⟩
  | 62 => ⟨S1x256, .f32⟩
  | 63 => ⟨S1x10, .f32⟩
  | 64 => ⟨S512x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x16, .f32⟩
  | .local _ .vmem, ⟨11, _⟩ => ⟨S5000x16, .f32⟩
  | .local _ .vmem, ⟨12, _⟩ => ⟨S128x128, .f32⟩
  | .local _ .vmem, ⟨13, _⟩ => ⟨S128x128, .f32⟩
  | .local _ .vmem, ⟨14, _⟩ => ⟨S16x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S8x128, .f32⟩
  | .local _ .vmem, ⟨19, _⟩ => ⟨S8x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x16, .f32⟩
  | .local _ .vmem, ⟨25, _⟩ => ⟨S5000x16, .f32⟩
  | .local _ .vmem, ⟨26, _⟩ => ⟨S128x128, .f32⟩
  | .local _ .vmem, ⟨27, _⟩ => ⟨S128x128, .f32⟩
  | .local _ .vmem, ⟨28, _⟩ => ⟨S16x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S8x128, .f32⟩
  | .local _ .vmem, ⟨33, _⟩ => ⟨S8x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x16, .f32⟩
  | .local _ .vmem, ⟨39, _⟩ => ⟨S5000x16, .f32⟩
  | .local _ .vmem, ⟨40, _⟩ => ⟨S128x128, .f32⟩
  | .local _ .vmem, ⟨41, _⟩ => ⟨S128x128, .f32⟩
  | .local _ .vmem, ⟨42, _⟩ => ⟨S16x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S8x128, .f32⟩
  | .local _ .vmem, ⟨47, _⟩ => ⟨S8x128, .f32⟩
  | .local _ .vmem, ⟨48, _⟩ => ⟨S512x128, .f32⟩
  | .local _ .vmem, ⟨49, _⟩ => ⟨S128x256, .f32⟩
  | .local _ .vmem, ⟨50, _⟩ => ⟨S1x256, .f32⟩
  | .local _ .vmem, ⟨51, _⟩ => ⟨S256x10, .f32⟩
  | .local _ .vmem, ⟨52, _⟩ => ⟨S1x10, .f32⟩
  | .local _ .vmem, ⟨53, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v9 : Ref sig .tc := ⟨.hbm, 51, rfl⟩
abbrev main_cst_0 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22_0 : Ref sig .tc := ⟨.hbm, 65, rfl⟩
abbrev main_v22_1 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_1 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst_2 : Ref sig .tc := ⟨.hbm, 74, rfl⟩
abbrev main_v29 : Ref sig .tc := ⟨.hbm, 75, rfl⟩
abbrev main_cst_3 : Ref sig .tc := ⟨.hbm, 76, rfl⟩
abbrev main_v30 : Ref sig .tc := ⟨.hbm, 77, rfl⟩
abbrev main_v31 : Ref sig .tc := ⟨.hbm, 78, rfl⟩
abbrev main_cst_4 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_5 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_6 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_call1_cst : Ref sig .tc := ⟨.hbm, 107, rfl⟩
abbrev main_call1_v0 : Ref sig .tc := ⟨.hbm, 108, rfl⟩
abbrev main_v57 : Ref sig .tc := ⟨.hbm, 109, rfl⟩
abbrev main_call2_c : Ref sig .tc := ⟨.hbm, 110, rfl⟩
abbrev main_call2_v0 : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_c_1 : Ref sig .tc := ⟨.hbm, 118, rfl⟩
abbrev main_call2_c_2 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_3 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_call2_cst : Ref sig .tc := ⟨.hbm, 130, rfl⟩
abbrev main_call2_v15 : Ref sig .tc := ⟨.hbm, 131, rfl⟩
abbrev main_v58 : Ref sig .tc := ⟨.hbm, 132, rfl⟩
abbrev main_cst_7 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71_0 : Ref sig .tc := ⟨.hbm, 146, rfl⟩
abbrev main_v71_1 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_cst_8 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_cst_9 : Ref sig .tc := ⟨.hbm, 155, rfl⟩
abbrev main_v78 : Ref sig .tc := ⟨.hbm, 156, rfl⟩
abbrev main_cst_10 : Ref sig .tc := ⟨.hbm, 157, rfl⟩
abbrev main_v79 : Ref sig .tc := ⟨.hbm, 158, rfl⟩
abbrev main_v80 : Ref sig .tc := ⟨.hbm, 159, rfl⟩
abbrev main_cst_11 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_cst_12 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_cst_13 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_call3_cst : Ref sig .tc := ⟨.hbm, 188, rfl⟩
abbrev main_call3_v0 : Ref sig .tc := ⟨.hbm, 189, rfl⟩
abbrev main_v106 : Ref sig .tc := ⟨.hbm, 190, rfl⟩
abbrev main_call4_c : Ref sig .tc := ⟨.hbm, 191, rfl⟩
abbrev main_call4_v0 : Ref sig .tc := ⟨.hbm, 192, rfl⟩
abbrev main_call4_v1 : Ref sig .tc := ⟨.hbm, 193, rfl⟩
abbrev main_call4_c_0 : Ref sig .tc := ⟨.hbm, 194, rfl⟩
abbrev main_call4_v2 : Ref sig .tc := ⟨.hbm, 195, rfl⟩
abbrev main_call4_v3 : Ref sig .tc := ⟨.hbm, 196, rfl⟩
abbrev main_call4_v4 : Ref sig .tc := ⟨.hbm, 197, rfl⟩
abbrev main_call4_v5 : Ref sig .tc := ⟨.hbm, 198, rfl⟩
abbrev main_call4_c_1 : Ref sig .tc := ⟨.hbm, 199, rfl⟩
abbrev main_call4_c_2 : Ref sig .tc := ⟨.hbm, 200, rfl⟩
abbrev main_call4_v6 : Ref sig .tc := ⟨.hbm, 201, rfl⟩
abbrev main_call4_v7 : Ref sig .tc := ⟨.hbm, 202, rfl⟩
abbrev main_call4_v8 : Ref sig .tc := ⟨.hbm, 203, rfl⟩
abbrev main_call4_v9 : Ref sig .tc := ⟨.hbm, 204, rfl⟩
abbrev main_call4_v10 : Ref sig .tc := ⟨.hbm, 205, rfl⟩
abbrev main_call4_v11 : Ref sig .tc := ⟨.hbm, 206, rfl⟩
abbrev main_call4_c_3 : Ref sig .tc := ⟨.hbm, 207, rfl⟩
abbrev main_call4_v12 : Ref sig .tc := ⟨.hbm, 208, rfl⟩
abbrev main_call4_v13 : Ref sig .tc := ⟨.hbm, 209, rfl⟩
abbrev main_call4_v14 : Ref sig .tc := ⟨.hbm, 210, rfl⟩
abbrev main_call4_cst : Ref sig .tc := ⟨.hbm, 211, rfl⟩
abbrev main_call4_v15 : Ref sig .tc := ⟨.hbm, 212, rfl⟩
abbrev main_v107 : Ref sig .tc := ⟨.hbm, 213, rfl⟩
abbrev main_cst_14 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120_0 : Ref sig .tc := ⟨.hbm, 227, rfl⟩
abbrev main_v120_1 : Ref sig .tc := ⟨.hbm, 228, rfl⟩
abbrev main_v121 : Ref sig .tc := ⟨.hbm, 229, rfl⟩
abbrev main_v122 : Ref sig .tc := ⟨.hbm, 230, rfl⟩
abbrev main_v123 : Ref sig .tc := ⟨.hbm, 231, rfl⟩
abbrev main_cst_15 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_cst_16 : Ref sig .tc := ⟨.hbm, 236, rfl⟩
abbrev main_v127 : Ref sig .tc := ⟨.hbm, 237, rfl⟩
abbrev main_cst_17 : Ref sig .tc := ⟨.hbm, 238, rfl⟩
abbrev main_v128 : Ref sig .tc := ⟨.hbm, 239, rfl⟩
abbrev main_v129 : Ref sig .tc := ⟨.hbm, 240, rfl⟩
abbrev main_cst_18 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_cst_19 : Ref sig .tc := ⟨.hbm, 246, rfl⟩
abbrev main_v134 : Ref sig .tc := ⟨.hbm, 247, rfl⟩
abbrev main_v135 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_cst_20 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_call5_cst : Ref sig .tc := ⟨.hbm, 269, rfl⟩
abbrev main_call5_v0 : Ref sig .tc := ⟨.hbm, 270, rfl⟩
abbrev main_v155 : Ref sig .tc := ⟨.hbm, 271, rfl⟩
abbrev main_c : Ref sig .tc := ⟨.hbm, 272, rfl⟩
abbrev main_v156 : Ref sig .tc := ⟨.hbm, 273, rfl⟩
abbrev main_call6_call0_c : Ref sig .tc := ⟨.hbm, 274, rfl⟩
abbrev main_call6_call0_v0 : Ref sig .tc := ⟨.hbm, 275, rfl⟩
abbrev main_v157 : Ref sig .tc := ⟨.hbm, 276, rfl⟩
abbrev main_v158 : Ref sig .tc := ⟨.hbm, 277, rfl⟩
abbrev main_c_21 : Ref sig .tc := ⟨.hbm, 278, rfl⟩
abbrev main_v159 : Ref sig .tc := ⟨.hbm, 279, rfl⟩
abbrev main_v160 : Ref sig .tc := ⟨.hbm, 280, rfl⟩
abbrev main_c_22 : Ref sig .tc := ⟨.hbm, 281, rfl⟩
abbrev main_v161 : Ref sig .tc := ⟨.hbm, 282, rfl⟩
abbrev main_v162 : Ref sig .tc := ⟨.hbm, 283, rfl⟩
abbrev main_v163 : Ref sig .tc := ⟨.hbm, 284, rfl⟩
abbrev main_v164 : Ref sig .tc := ⟨.hbm, 285, rfl⟩
abbrev main_v165 : Ref sig .tc := ⟨.hbm, 286, rfl⟩
abbrev main_v166 : Ref sig .tc := ⟨.hbm, 287, rfl⟩
abbrev main_cst_23 : Ref sig .tc := ⟨.hbm, 288, rfl⟩
abbrev main_v167 : Ref sig .tc := ⟨.hbm, 289, rfl⟩
abbrev main_v168 : Ref sig .tc := ⟨.hbm, 290, rfl⟩
abbrev main_v169 : Ref sig .tc := ⟨.hbm, 291, rfl⟩
abbrev main_cst_24 : Ref sig .tc := ⟨.hbm, 292, rfl⟩
abbrev main_v170 : Ref sig .tc := ⟨.hbm, 293, rfl⟩
abbrev main_cst_25 : Ref sig .tc := ⟨.hbm, 294, rfl⟩
abbrev main_v171 : Ref sig .tc := ⟨.hbm, 295, rfl⟩
abbrev main_v172 : Ref sig .tc := ⟨.hbm, 296, rfl⟩
abbrev main_v173 : Ref sig .tc := ⟨.hbm, 297, rfl⟩
abbrev main_cst_26 : Ref sig .tc := ⟨.hbm, 298, rfl⟩
abbrev main_v174 : Ref sig .tc := ⟨.hbm, 299, rfl⟩
abbrev main_v175 : Ref sig .tc := ⟨.hbm, 300, rfl⟩
abbrev main_v176 : Ref sig .tc := ⟨.hbm, 301, rfl⟩
abbrev main_v177 : Ref sig .tc := ⟨.hbm, 302, rfl⟩
abbrev main_cst_27 : Ref sig .tc := ⟨.hbm, 303, rfl⟩
abbrev main_v178 : Ref sig .tc := ⟨.hbm, 304, rfl⟩
abbrev main_v179 : Ref sig .tc := ⟨.hbm, 305, rfl⟩
abbrev main_v180 : Ref sig .tc := ⟨.hbm, 306, rfl⟩
abbrev main_cst_28 : Ref sig .tc := ⟨.hbm, 307, rfl⟩
abbrev main_v181 : Ref sig .tc := ⟨.hbm, 308, rfl⟩
abbrev main_cst_29 : Ref sig .tc := ⟨.hbm, 309, rfl⟩
abbrev main_v182 : Ref sig .tc := ⟨.hbm, 310, rfl⟩
abbrev main_v183 : Ref sig .tc := ⟨.hbm, 311, rfl⟩
abbrev main_v184 : Ref sig .tc := ⟨.hbm, 312, rfl⟩
abbrev main_cst_30 : Ref sig .tc := ⟨.hbm, 313, rfl⟩
abbrev main_v185 : Ref sig .tc := ⟨.hbm, 314, rfl⟩
abbrev main_v186 : Ref sig .tc := ⟨.hbm, 315, rfl⟩
abbrev main_v187 : Ref sig .tc := ⟨.hbm, 316, rfl⟩
abbrev main_v188 : Ref sig .tc := ⟨.hbm, 317, rfl⟩
abbrev main_v189 : Ref sig .tc := ⟨.hbm, 318, rfl⟩
abbrev main_v190 : Ref sig .tc := ⟨.hbm, 319, rfl⟩
abbrev main_v191 : Ref sig .tc := ⟨.hbm, 320, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg7_1 : Ref sig .tc := ⟨.vmem, 45, rfl⟩
abbrev cc3_stg8_0 : Ref sig .tc := ⟨.vmem, 46, rfl⟩
abbrev cc3_stg8_1 : Ref sig .tc := ⟨.vmem, 47, rfl⟩
abbrev cc4_stg0_0 : Ref sig .tc := ⟨.vmem, 48, rfl⟩
abbrev cc4_stg1_0 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc2_sem8_0 : DmaSem sig := 32
abbrev cc2_sem8_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem7_1 : DmaSem sig := 45
abbrev cc3_sem8_0 : DmaSem sig := 46
abbrev cc3_sem8_1 : DmaSem sig := 47
abbrev cc4_sem0_0 : DmaSem sig := 48
abbrev cc4_sem1_0 : DmaSem sig := 49
abbrev cc4_sem2_0 : DmaSem sig := 50
abbrev cc4_sem3_0 : DmaSem sig := 51
abbrev cc4_sem4_0 : DmaSem sig := 52
abbrev cc4_sem5_0 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S8x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S8x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x16 : S_.BroadcastsInDim S100000x16 (![] : Fin 0 → Fin S100000x16.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x16x128_S1x16x128_0_0_0 : S3x16x128.Slices ![0, 0, 0] S1x16x128
  shapeCasts_S1x16x128_S16x128 : S1x16x128.ShapeCasts S16x128
  slices_S3x128_S1x128_0_0 : S3x128.Slices ![0, 0] S1x128
  shapeCasts_S1x128_S128 : S1x128.ShapeCasts S128
  shapeCasts_S5000x128_S5000x128 : S5000x128.ShapeCasts S5000x128
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  reduces_S5000x128_S128 : S5000x128.Reduces [0] S128
  inb_S8x128_S8x128_0_0 : ∀ a, (![0, 0] : Fin 2 → Nat) a + S8x128.size a ≤ S8x128.size a
  h_S8x128 : 0 < S8x128.numel
  inb_S8x128_S1x128_0_0 : ∀ a, (![0, 0] : Fin 2 → Nat) a + S1x128.size a ≤ S8x128.size a
  inb_S8x128_S1x128_1_0 : ∀ a, (![1, 0] : Fin 2 → Nat) a + S1x128.size a ≤ S8x128.size a
  shapeCasts_S160x128_S20x8x128 : S160x128.ShapeCasts S20x8x128
  slices_S20x8x128_S20x1x128_0_0_0 : S20x8x128.Slices ![0, 0, 0] S20x1x128
  shapeCasts_S20x1x128_S20x128 : S20x1x128.ShapeCasts S20x128
  reducesTo_S20x128_S128_d0 : S20x128.ReducesTo [0] S128
  slices_S20x8x128_S20x1x128_0_1_0 : S20x8x128.Slices ![0, 1, 0] S20x1x128
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x16x128_S1x16x128_1_0_0 : S3x16x128.Slices ![1, 0, 0] S1x16x128
  slices_S3x128_S1x128_1_0 : S3x128.Slices ![1, 0] S1x128
  slices_S3x128x128_S1x128x128_2_0_0 : S3x128x128.Slices ![2, 0, 0] S1x128x128
  slices_S3x16x128_S1x16x128_2_0_0 : S3x16x128.Slices ![2, 0, 0] S1x16x128
  slices_S3x128_S1x128_2_0 : S3x128.Slices ![2, 0] S1x128
  bcast_S_S1 : S_.BroadcastsInDim S1 (![] : Fin 0 → Fin S1.rank)
  bcast_S_S_ : S_.BroadcastsInDim S_ (![] : Fin 0 → Fin S_.rank)
  reduceWindows_S512_S512_w512s1p511_0 : S512.ReduceWindows (![512] : Fin 1 → Nat) ![1] ![511] ![0] S512
  concatenates_S1_S512_S513_d0 : Shape.Concatenates [S1, S512] S513 0
  bcast_S_S100000 : S_.BroadcastsInDim S100000 (![] : Fin 0 → Fin S100000.rank)
  bcast_S100000_S100000x1_0 : S100000.BroadcastsInDim S100000x1 (![0] : Fin 1 → Fin S100000x1.rank)
  bcast_S_S4096x128 : S_.BroadcastsInDim S4096x128 (![] : Fin 0 → Fin S4096x128.rank)
  bcast_S_S100000x1 : S_.BroadcastsInDim S100000x1 (![] : Fin 0 → Fin S100000x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  bcast_S_S512x128 : S_.BroadcastsInDim S512x128 (![] : Fin 0 → Fin S512x128.rank)
  bcast_S4096_S4096x1_0 : S4096.BroadcastsInDim S4096x1 (![0] : Fin 1 → Fin S4096x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  shapeCasts_S256_S1x256 : S256.ShapeCasts S1x256
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  dot_S5000x128_S128x128_S5000x128_1_0_0_1_n_n_wf : DotDims.WF S5000x128 S128x128 S5000x128 [1] [0] [0] [1] [] []
  scatter_S100000x16_S600000x1_S600000x16_1_0_0_1_wf : ScatterDims.WF S100000x16 S600000x1 S600000x16 [1] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x16_S16x128_S5000x128_1_0_0_1_n_n_wf : DotDims.WF S5000x16 S16x128 S5000x128 [1] [0] [0] [1] [] []
  gather_S513_S100000x1_S100000_n_0_n_n_0_1_1_wf : GatherDims.WF S513 S100000x1 S100000 [] [0] [] [0] [] 1 ![1]
  scatter_S4096x128_S100000x1_S100000x128_1_0_0_1_wf : ScatterDims.WF S4096x128 S100000x1 S100000x128 [1] [0] [0] 1
  scatter_S4096x1_S100000x1_S100000x1_1_0_0_1_wf : ScatterDims.WF S4096x1 S100000x1 S100000x1 [1] [0] [0] 1
  scatter_S512x128_S4096x1_S4096x128_1_0_0_1_wf : ScatterDims.WF S512x128 S4096x1 S4096x128 [1] [0] [0] 1
  scatter_S512x1_S4096x1_S4096x1_1_0_0_1_wf : ScatterDims.WF S512x1 S4096x1 S4096x1 [1] [0] [0] 1
  dot_S512x128_S128x256_S512x256_1_0_0_1_n_n_wf : DotDims.WF S512x128 S128x256 S512x256 [1] [0] [0] [1] [] []
  dot_S512x256_S256x10_S512x10_1_0_0_1_n_n_wf : DotDims.WF S512x256 S256x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x128.size a ≤ S16x128.size a
  hwx1_5 : ∀ i : grid1.Coords, EltTy.bits .f32 = 32 ∨ (Rect.block (s := S16x128) S16x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x128.size a ≤ S160x128.size a
  hwx1_8 : ∀ i : grid1.Coords, EltTy.bits .f32 = 32 ∨ (Rect.block (s := S160x128) S8x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x128.size a ≤ S16x128.size a
  hwx2_5 : ∀ i : grid2.Coords, EltTy.bits .f32 = 32 ∨ (Rect.block (s := S16x128) S16x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8x128.size a ≤ S160x128.size a
  hwx2_8 : ∀ i : grid2.Coords, EltTy.bits .f32 = 32 ∨ (Rect.block (s := S160x128) S8x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x128.size a ≤ S16x128.size a
  hwx3_5 : ∀ i : grid3.Coords, EltTy.bits .f32 = 32 ∨ (Rect.block (s := S16x128) S16x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S8x128.size a ≤ S160x128.size a
  hwx3_8 : ∀ i : grid3.Coords, EltTy.bits .f32 = 32 ∨ (Rect.block (s := S160x128) S8x128.size (cc3_transform_8 i) (hinb3_8 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x10.size a ≤ S256x10.size a
  hwx4_3 : ∀ i : grid4.Coords, EltTy.bits .f32 = 32 ∨ (Rect.block (s := S256x10) S256x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x10.size a ≤ S512x10.size a
  hwx4_5 : ∀ i : grid4.Coords, EltTy.bits .f32 = 32 ∨ (Rect.block (s := S512x10) S512x10.size (cc4_transform_5 i) (hinb4_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x16_S600000x1_S600000x16_1_0_0_1 : ScatterDims S100000x16 S600000x1 S600000x16 where
  updateWindowDims := [1]
  insertedWindowDims := [0]
  scatterDimsToOperandDims := [0]
  indexVectorDim := 1
  wf := scatter_S100000x16_S600000x1_S600000x16_1_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S513_S100000x1_S100000_n_0_n_n_0_1_1 : GatherDims S513 S100000x1 S100000 where
  offsetDims := []
  collapsedSliceDims := [0]
  operandBatchingDims := []
  startIndicesBatchingDims := []
  startIndexMap := [0]
  indexVectorDim := 1
  sliceSizes := ![1]
  wf := gather_S513_S100000x1_S100000_n_0_n_n_0_1_1_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def scatter_S4096x1_S100000x1_S100000x1_1_0_0_1 : ScatterDims S4096x1 S100000x1 S100000x1 where
  updateWindowDims := [1]
  insertedWindowDims := [0]
  scatterDimsToOperandDims := [0]
  indexVectorDim := 1
  wf := scatter_S4096x1_S100000x1_S100000x1_1_0_0_1_wf
def scatter_S512x128_S4096x1_S4096x128_1_0_0_1 : ScatterDims S512x128 S4096x1 S4096x128 where
  updateWindowDims := [1]
  insertedWindowDims := [0]
  scatterDimsToOperandDims := [0]
  indexVectorDim := 1
  wf := scatter_S512x128_S4096x1_S4096x128_1_0_0_1_wf
def scatter_S512x1_S4096x1_S4096x1_1_0_0_1 : ScatterDims S512x1 S4096x1 S4096x1 where
  updateWindowDims := [1]
  insertedWindowDims := [0]
  scatterDimsToOperandDims := [0]
  indexVectorDim := 1
  wf := scatter_S512x1_S4096x1_S4096x1_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x10_S512x10_1_0_0_1_n_n : DotDims S512x256 S256x10 S512x10 where
  lhsContracting := [1]
  rhsContracting := [0]
  lhsNonContracting := [0]
  rhsNonContracting := [1]
  lhsBatch := []
  rhsBatch := []
  wf := dot_S512x256_S256x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S16x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v22_1) S8x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v63) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S16x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v71_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v71_1) S8x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v106) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v110) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S5000x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v112) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v114) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v116) S16x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v119) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v120_0) S5000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v120_1) S8x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v188) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v189) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg17) S256x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v190) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v191) S512x10.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x16 : Shape := ⟨2, ![600000, 16]⟩
abbrev S100000 : Shape := ⟨1, ![100000]⟩
abbrev S4096 : Shape := ⟨1, ![4096]⟩
abbrev S512 : Shape := ⟨1, ![512]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S3x16x128 : Shape := ⟨3, ![3, 16, 128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S1x600000 : Shape := ⟨2, ![1, 600000]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S1x16x128 : Shape := ⟨3, ![1, 16, 128]⟩
abbrev S16x128 : Shape := ⟨2, ![16, 128]⟩
abbrev S1 : Shape := ⟨1, ![1]⟩
abbrev S513 : Shape := ⟨1, ![513]⟩
abbrev S100000x1 : Shape := ⟨2, ![100000, 1]⟩
abbrev S4096x128 : Shape := ⟨2, ![4096, 128]⟩
abbrev S4096x1 : Shape := ⟨2, ![4096, 1]⟩
abbrev S512x128 : Shape := ⟨2, ![512, 128]⟩
abbrev S512x1 : Shape := ⟨2, ![512, 1]⟩
abbrev S512x256 : Shape := ⟨2, ![512, 256]⟩
abbrev S1x256 : Shape := ⟨2, ![1, 256]⟩
abbrev S512x10 : Shape := ⟨2, ![512, 10]⟩
abbrev S1x10 : Shape := ⟨2, ![1, 10]⟩

abbrev nBuf : Space → Nat
  | .hbm => 282
  | .vmem => 0
  | .smem => 0
  | _ => 0

abbrev hbmTy0_0 (i : Nat) : BufTy := match i % 128 with
  | 0 => ⟨S100000x128, .f32⟩
  | 1 => ⟨S2x600000, .i32⟩
  | 2 => ⟨S600000x16, .f32⟩
  | 3 => ⟨S100000, .i32⟩
  | 4 => ⟨S100000, .i32⟩
  | 5 => ⟨S4096, .i32⟩
  | 6 => ⟨S512, .i32⟩
  | 7 => ⟨S128x128, .f32⟩
  | 8 => ⟨S128, .f32⟩
  | 9 => ⟨S3x128x128, .f32⟩
  | 10 => ⟨S3x128, .f32⟩
  | 11 => ⟨S3x128x128, .f32⟩
  | 12 => ⟨S3x16x128, .f32⟩
  | 13 => ⟨S3x128, .f32⟩
  | 14 => ⟨S3x128, .f32⟩
  | 15 => ⟨S128x256, .f32⟩
  | 16 => ⟨S256, .f32⟩
  | 17 => ⟨S256x10, .f32⟩
  | 18 => ⟨S10, .f32⟩
  | 19 => ⟨S1x600000, .i32⟩
  | 20 => ⟨S600000, .i32⟩
  | 21 => ⟨S1x600000, .i32⟩
  | 22 => ⟨S600000, .i32⟩
  | 23 => ⟨S100000x128, .f32⟩
  | 24 => ⟨S1x128, .f32⟩
  | 25 => ⟨S100000x128, .f32⟩
  | 26 => ⟨S100000x128, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x128, .f32⟩
  | 36 => ⟨S1x128x128, .f32⟩
  | 37 => ⟨S128x128, .f32⟩
  | 38 => ⟨S600000x128, .f32⟩
  | 39 => ⟨S1x16x128, .f32⟩
  | 40 => ⟨S16x128, .f32⟩
  | 41 => ⟨S600000x128, .f32⟩
  | 42 => ⟨S600000x128, .f32⟩
  | 43 => ⟨S_, .f32⟩
  | 44 => ⟨S100000x128, .f32⟩
  | 45 => ⟨S600000x1, .i32⟩
  | 46 => ⟨S100000x128, .f32⟩
  | 47 => ⟨S1x128x128, .f32⟩
  | 48 => ⟨S128x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S100000x128, .f32⟩
  | 56 => ⟨S_, .f32⟩
  | 57 => ⟨S128, .f32⟩
  | 58 => ⟨S_, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S_, .f32⟩
  | 74 => ⟨S128, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S1x128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S600000x128, .f32⟩
  | 102 => ⟨S1x128x128, .f32⟩
  | 103 => ⟨S128x128, .f32⟩
  | 104 => ⟨S600000x128, .f32⟩
  | 105 => ⟨S1x16x128, .f32⟩
  | 106 => ⟨S16x128, .f32⟩
  | 107 => ⟨S600000x128, .f32⟩
  | 108 => ⟨S600000x128, .f32⟩
  | 109 => ⟨S_, .f32⟩
  | 110 => ⟨S100000x128, .f32⟩
  | 111 => ⟨S600000x1, .i32⟩
  | 112 => ⟨S100000x128, .f32⟩
  | 113 => ⟨S1x128x128, .f32⟩
  | 114 => ⟨S128x128, .f32⟩
  | 115 => ⟨S100000x128, .f32⟩
  | 116 => ⟨S1x128, .f32⟩
  | 117 => ⟨S128, .f32⟩
  | 118 => ⟨S1x128, .f32⟩
  | 119 => ⟨S100000x128, .f32⟩
  | 120 => ⟨S100000x128, .f32⟩
  | 121 => ⟨S100000x128, .f32⟩
  | 122 => ⟨S_, .f32⟩
  | 123 => ⟨S128, .f32⟩
  | 124 => ⟨S_, .f32⟩
  | 125 => ⟨S128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .f32⟩
  | 4 => ⟨S128, .f32⟩
  | 5 => ⟨S_, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S_, .f32⟩
  | 12 => ⟨S128, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S1x128, .f32⟩
  | 19 => ⟨S128, .f32⟩
  | 20 => ⟨S1x128, .f32⟩
  | 21 => ⟨S100000x128, .f32⟩
  | 22 => ⟨S100000x128, .f32⟩
  | 23 => ⟨S1x128, .f32⟩
  | 24 => ⟨S128, .f32⟩
  | 25 => ⟨S1x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S1x128x128, .f32⟩
  | 41 => ⟨S128x128, .f32⟩
  | 42 => ⟨S600000x128, .f32⟩
  | 43 => ⟨S1x16x128, .f32⟩
  | 44 => ⟨S16x128, .f32⟩
  | 45 => ⟨S600000x128, .f32⟩
  | 46 => ⟨S600000x128, .f32⟩
  | 47 => ⟨S_, .f32⟩
  | 48 => ⟨S100000x128, .f32⟩
  | 49 => ⟨S600000x1, .i32⟩
  | 50 => ⟨S100000x128, .f32⟩
  | 51 => ⟨S1x128x128, .f32⟩
  | 52 => ⟨S128x128, .f32⟩
  | 53 => ⟨S100000x128, .f32⟩
  | 54 => ⟨S1x128, .f32⟩
  | 55 => ⟨S128, .f32⟩
  | 56 => ⟨S1x128, .f32⟩
  | 57 => ⟨S100000x128, .f32⟩
  | 58 => ⟨S100000x128, .f32⟩
  | 59 => ⟨S100000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S100000x128, .f32⟩
  | 69 => ⟨S_, .f32⟩
  | 70 => ⟨S128, .f32⟩
  | 71 => ⟨S_, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .i32⟩
  | 98 => ⟨S1, .i32⟩
  | 99 => ⟨S_, .i32⟩
  | 100 => ⟨S_, .i32⟩
  | 101 => ⟨S512, .i32⟩
  | 102 => ⟨S513, .i32⟩
  | 103 => ⟨S_, .i32⟩
  | 104 => ⟨S100000, .i32⟩
  | 105 => ⟨S100000, .i1⟩
  | 106 => ⟨S_, .i32⟩
  | 107 => ⟨S100000, .i32⟩
  | 108 => ⟨S100000, .i32⟩
  | 109 => ⟨S100000, .i32⟩
  | 110 => ⟨S100000x1, .i32⟩
  | 111 => ⟨S100000, .i32⟩
  | 112 => ⟨S100000, .i32⟩
  | 113 => ⟨S_, .f32⟩
  | 114 => ⟨S4096x128, .f32⟩
  | 115 => ⟨S100000x1, .i32⟩
  | 116 => ⟨S4096x128, .f32⟩
  | 117 => ⟨S_, .f32⟩
  | 118 => ⟨S100000x1, .f32⟩
  | 119 => ⟨S_, .f32⟩
  | 120 => ⟨S4096x1, .f32⟩
  | 121 => ⟨S100000x1, .i32⟩
  | 122 => ⟨S4096x1, .f32⟩
  | 123 => ⟨S_, .f32⟩
  | 124 => ⟨S4096x1, .f32⟩
  | 125 => ⟨S4096x1, .f32⟩
  | 126 => ⟨S4096x128, .f32⟩
  | 127 => ⟨S4096x128, .f32⟩
  | _ => ⟨S100000x128, .f32⟩

abbrev hbmTy0_2 (i : Nat) : BufTy := match i % 128 with
  | 0 => ⟨S_, .f32⟩
  | 1 => ⟨S512x128, .f32⟩
  | 2 => ⟨S4096x1, .i32⟩
  | 3 => ⟨S512x128, .f32⟩
  | 4 => ⟨S_, .f32⟩
  | 5 => ⟨S4096x1, .f32⟩
  | 6 => ⟨S_, .f32⟩
  | 7 => ⟨S512x1, .f32⟩
  | 8 => ⟨S4096x1, .i32⟩
  | 9 => ⟨S512x1, .f32⟩
  | 10 => ⟨S_, .f32⟩
  | 11 => ⟨S512x1, .f32⟩
  | 12 => ⟨S512x1, .f32⟩
  | 13 => ⟨S512x128, .f32⟩
  | 14 => ⟨S512x128, .f32⟩
  | 15 => ⟨S512x256, .f32⟩
  | 16 => ⟨S1x256, .f32⟩
  | 17 => ⟨S512x256, .f32⟩
  | 18 => ⟨S512x256, .f32⟩
  | 19 => ⟨S_, .f32⟩
  | 20 => ⟨S512x256, .f32⟩
  | 21 => ⟨S512x256, .f32⟩
  | 22 => ⟨S512x10, .f32⟩
  | 23 => ⟨S1x10, .f32⟩
  | 24 => ⟨S512x10, .f32⟩
  | 25 => ⟨S512x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_1 : Ref sig .tc := ⟨.hbm, 56, rfl⟩
abbrev main_v34 : Ref sig .tc := ⟨.hbm, 57, rfl⟩
abbrev main_cst_2 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call0_cst : Ref sig .tc := ⟨.hbm, 90, rfl⟩
abbrev main_call0_v0 : Ref sig .tc := ⟨.hbm, 91, rfl⟩
abbrev main_v63 : Ref sig .tc := ⟨.hbm, 92, rfl⟩
abbrev main_c_6 : Ref sig .tc := ⟨.hbm, 93, rfl⟩
abbrev main_v64 : Ref sig .tc := ⟨.hbm, 94, rfl⟩
abbrev main_v65 : Ref sig .tc := ⟨.hbm, 95, rfl⟩
abbrev main_c_7 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_8 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_9 : Ref sig .tc := ⟨.hbm, 122, rfl⟩
abbrev main_v90 : Ref sig .tc := ⟨.hbm, 123, rfl⟩
abbrev main_cst_10 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_11 : Ref sig .tc := ⟨.hbm, 131, rfl⟩
abbrev main_v97 : Ref sig .tc := ⟨.hbm, 132, rfl⟩
abbrev main_cst_12 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_13 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_call1_cst : Ref sig .tc := ⟨.hbm, 156, rfl⟩
abbrev main_call1_v0 : Ref sig .tc := ⟨.hbm, 157, rfl⟩
abbrev main_v119 : Ref sig .tc := ⟨.hbm, 158, rfl⟩
abbrev main_c_14 : Ref sig .tc := ⟨.hbm, 159, rfl⟩
abbrev main_v120 : Ref sig .tc := ⟨.hbm, 160, rfl⟩
abbrev main_v121 : Ref sig .tc := ⟨.hbm, 161, rfl⟩
abbrev main_c_15 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_16 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_17 : Ref sig .tc := ⟨.hbm, 188, rfl⟩
abbrev main_v146 : Ref sig .tc := ⟨.hbm, 189, rfl⟩
abbrev main_cst_18 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_19 : Ref sig .tc := ⟨.hbm, 197, rfl⟩
abbrev main_v153 : Ref sig .tc := ⟨.hbm, 198, rfl⟩
abbrev main_cst_20 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_cst_21 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_call2_cst : Ref sig .tc := ⟨.hbm, 222, rfl⟩
abbrev main_call2_v0 : Ref sig .tc := ⟨.hbm, 223, rfl⟩
abbrev main_v175 : Ref sig .tc := ⟨.hbm, 224, rfl⟩
abbrev main_c_22 : Ref sig .tc := ⟨.hbm, 225, rfl⟩
abbrev main_v176 : Ref sig .tc := ⟨.hbm, 226, rfl⟩
abbrev main_call3_call0_c : Ref sig .tc := ⟨.hbm, 227, rfl⟩
abbrev main_call3_call0_v0 : Ref sig .tc := ⟨.hbm, 228, rfl⟩
abbrev main_v177 : Ref sig .tc := ⟨.hbm, 229, rfl⟩
abbrev main_v178 : Ref sig .tc := ⟨.hbm, 230, rfl⟩
abbrev main_c_23 : Ref sig .tc := ⟨.hbm, 231, rfl⟩
abbrev main_v179 : Ref sig .tc := ⟨.hbm, 232, rfl⟩
abbrev main_v180 : Ref sig .tc := ⟨.hbm, 233, rfl⟩
abbrev main_c_24 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_cst_25 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_cst_26 : Ref sig .tc := ⟨.hbm, 245, rfl⟩
abbrev main_v190 : Ref sig .tc := ⟨.hbm, 246, rfl⟩
abbrev main_cst_27 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_cst_28 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_cst_29 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_cst_30 : Ref sig .tc := ⟨.hbm, 260, rfl⟩
abbrev main_v201 : Ref sig .tc := ⟨.hbm, 261, rfl⟩
abbrev main_cst_31 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_cst_32 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_call4_cst : Ref sig .tc := ⟨.hbm, 275, rfl⟩
abbrev main_call4_v0 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  slices_S3x128x128_S1x128x128_0_0_0 : S3x128x128.Slices ![0, 0, 0] S1x128x128
  shapeCasts_S1x128x128_S128x128 : S1x128x128.ShapeCasts S128x128
  slices_S3x16x128_S1x16x128_0_0_0 : S3x16x128.Slices ![0, 0, 0] S1x16x128
  shapeCasts_S1x16x128_S16x128 : S1x16x128.ShapeCasts S16x128
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  reducesTo_S100000x128_S128_d0 : S100000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x16x128_S1x16x128_1_0_0 : S3x16x128.Slices ![1, 0, 0] S1x16x128
  slices_S3x128_S1x128_1_0 : S3x128.Slices ![1, 0] S1x128
  slices_S3x128x128_S1x128x128_2_0_0 : S3x128x128.Slices ![2, 0, 0] S1x128x128
  slices_S3x16x128_S1x16x128_2_0_0 : S3x16x128.Slices ![2, 0, 0] S1x16x128
  slices_S3x128_S1x128_2_0 : S3x128.Slices ![2, 0] S1x128
  bcast_S_S1 : S_.BroadcastsInDim S1 (![] : Fin 0 → Fin S1.rank)
  bcast_S_S_ : S_.BroadcastsInDim S_ (![] : Fin 0 → Fin S_.rank)
  reduceWindows_S512_S512_w512s1p511_0 : S512.ReduceWindows (![512] : Fin 1 → Nat) ![1] ![511] ![0] S512
  concatenates_S1_S512_S513_d0 : Shape.Concatenates [S1, S512] S513 0
  bcast_S_S100000 : S_.BroadcastsInDim S100000 (![] : Fin 0 → Fin S100000.rank)
  bcast_S100000_S100000x1_0 : S100000.BroadcastsInDim S100000x1 (![0] : Fin 1 → Fin S100000x1.rank)
  bcast_S_S4096x128 : S_.BroadcastsInDim S4096x128 (![] : Fin 0 → Fin S4096x128.rank)
  bcast_S_S100000x1 : S_.BroadcastsInDim S100000x1 (![] : Fin 0 → Fin S100000x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  bcast_S_S512x128 : S_.BroadcastsInDim S512x128 (![] : Fin 0 → Fin S512x128.rank)
  bcast_S4096_S4096x1_0 : S4096.BroadcastsInDim S4096x1 (![0] : Fin 1 → Fin S4096x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []
  dot_S600000x16_S16x128_S600000x128_1_0_0_1_n_n_wf : DotDims.WF S600000x16 S16x128 S600000x128 [1] [0] [0] [1] [] []
  scatter_S100000x128_S600000x1_S600000x128_1_0_0_1_wf : ScatterDims.WF S100000x128 S600000x1 S600000x128 [1] [0] [0] 1
  gather_S513_S100000x1_S100000_n_0_n_n_0_1_1_wf : GatherDims.WF S513 S100000x1 S100000 [] [0] [] [0] [] 1 ![1]
  scatter_S4096x128_S100000x1_S100000x128_1_0_0_1_wf : ScatterDims.WF S4096x128 S100000x1 S100000x128 [1] [0] [0] 1
  scatter_S4096x1_S100000x1_S100000x1_1_0_0_1_wf : ScatterDims.WF S4096x1 S100000x1 S100000x1 [1] [0] [0] 1
  scatter_S512x128_S4096x1_S4096x128_1_0_0_1_wf : ScatterDims.WF S512x128 S4096x1 S4096x128 [1] [0] [0] 1
  scatter_S512x1_S4096x1_S4096x1_1_0_0_1_wf : ScatterDims.WF S512x1 S4096x1 S4096x1 [1] [0] [0] 1
  dot_S512x128_S128x256_S512x256_1_0_0_1_n_n_wf : DotDims.WF S512x128 S128x256 S512x256 [1] [0] [0] [1] [] []
  dot_S512x256_S256x10_S512x10_1_0_0_1_n_n_wf : DotDims.WF S512x256 S256x10 S512x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S600000x16_S16x128_S600000x128_1_0_0_1_n_n : DotDims S600000x16 S16x128 S600000x128 where
  lhsContracting := [1]
  rhsContracting := [0]
  lhsNonContracting := [0]
  rhsNonContracting := [1]
  lhsBatch := []
  rhsBatch := []
  wf := dot_S600000x16_S16x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S513_S100000x1_S100000_n_0_n_n_0_1_1 : GatherDims S513 S100000x1 S100000 where
  offsetDims := []
  collapsedSliceDims := [0]
  operandBatchingDims := []
  startIndicesBatchingDims := []
  startIndexMap := [0]
  indexVectorDim := 1
  sliceSizes := ![1]
  wf := gather_S513_S100000x1_S100000_n_0_n_n_0_1_1_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def scatter_S4096x1_S100000x1_S100000x1_1_0_0_1 : ScatterDims S4096x1 S100000x1 S100000x1 where
  updateWindowDims := [1]
  insertedWindowDims := [0]
  scatterDimsToOperandDims := [0]
  indexVectorDim := 1
  wf := scatter_S4096x1_S100000x1_S100000x1_1_0_0_1_wf
def scatter_S512x128_S4096x1_S4096x128_1_0_0_1 : ScatterDims S512x128 S4096x1 S4096x128 where
  updateWindowDims := [1]
  insertedWindowDims := [0]
  scatterDimsToOperandDims := [0]
  indexVectorDim := 1
  wf := scatter_S512x128_S4096x1_S4096x128_1_0_0_1_wf
def scatter_S512x1_S4096x1_S4096x1_1_0_0_1 : ScatterDims S512x1 S4096x1 S4096x1 where
  updateWindowDims := [1]
  insertedWindowDims := [0]
  scatterDimsToOperandDims := [0]
  indexVectorDim := 1
  wf := scatter_S512x1_S4096x1_S4096x1_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x10_S512x10_1_0_0_1_n_n : DotDims S512x256 S256x10 S512x10 where
  lhsContracting := [1]
  rhsContracting := [0]
  lhsNonContracting := [0]
  rhsNonContracting := [1]
  lhsBatch := []
  rhsBatch := []
  wf := dot_S512x256_S256x10_S512x10_1_0_0_1_n_n_wf

class Facts : Prop extends Facts₀ where

variable [Facts]
-- ==== Proof.RefOps.lean ====
import proofs.«425797_j7249904796358_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- @main's operations, callees inlined at their calls, in five consecutive windows.
abbrev ops0 : List (HloOp τ sig (Elt F)) :=
  [ unary main_arg1 main_v0 (extractStridedSlice S1x600000 ![0, 0] · slices_S2x600000_S1x600000_0_0),
    reshape main_v0 main_v1 rfl shapeCasts_S1x600000_S600000,
    unary main_arg1 main_v2 (extractStridedSlice S1x600000 ![1, 0] · slices_S2x600000_S1x600000_1_0),
    reshape main_v2 main_v3 rfl shapeCasts_S1x600000_S600000,
    binary main_arg0 main_arg7 main_v4 (Host.dotGeneral dot_S100000x128_S128x128_S100000x128_1_0_0_1_n_n none),
    unary main_arg8 main_v5 (broadcastInDim S1x128 ![1] bcast_S128_S1x128_1),
    unary main_v5 main_v6 (broadcastInDim S100000x128 ![0, 1] bcast_S1x128_S100000x128_0_1),
    binary main_v4 main_v6 main_v7 addf,
    nullary main_c (constantI S_ 32 0#32),
    unary main_c main_v8 (broadcastInDim S600000 ![] bcast_S_S600000),
    binary main_v1 main_v8 main_v9 (cmpi .slt),
    nullary main_c_0 (constantI S_ 32 100000#32),
    unary main_c_0 main_v10 (broadcastInDim S600000 ![] bcast_S_S600000),
    binary main_v1 main_v10 main_v11 addi,
    ternary main_v9 main_v11 main_v1 main_v12 select,
    unary main_v12 main_v13 (broadcastInDim S600000x1 ![0] bcast_S600000_S600000x1_0),
    binary main_v7 main_v13 main_v14 (Host.gather gather_S100000x128_S600000x1_S600000x128_1_0_n_n_0_1_1128),
    unary main_arg11 main_v15 (extractStridedSlice S1x128x128 ![0, 0, 0] · slices_S3x128x128_S1x128x128_0_0_0),
    reshape main_v15 main_v16 rfl shapeCasts_S1x128x128_S128x128,
    binary main_v14 main_v16 main_v17 (Host.dotGeneral dot_S600000x128_S128x128_S600000x128_1_0_0_1_n_n none),
    unary main_arg12 main_v18 (extractStridedSlice S1x16x128 ![0, 0, 0] · slices_S3x16x128_S1x16x128_0_0_0),
    reshape main_v18 main_v19 rfl shapeCasts_S1x16x128_S16x128,
    binary main_arg2 main_v19 main_v20 (Host.dotGeneral dot_S600000x16_S16x128_S600000x128_1_0_0_1_n_n none),
    binary main_v17 main_v20 main_v21 addf,
    nullary main_cst (constant S_ .f32 0x00000000#32),
    unary main_cst main_v22 (broadcastInDim S100000x128 ![] bcast_S_S100000x128),
    unary main_v3 main_v23 (broadcastInDim S600000x1 ![0] bcast_S600000_S600000x1_0),
    ternary main_v22 main_v23 main_v21 main_v24 (Host.scatterAdd scatter_S100000x128_S600000x1_S600000x128_1_0_0_1),
    unary main_arg9 main_v25 (extractStridedSlice S1x128x128 ![0, 0, 0] · slices_S3x128x128_S1x128x128_0_0_0),
    reshape main_v25 main_v26 rfl shapeCasts_S1x128x128_S128x128,
    binary main_v7 main_v26 main_v27 (Host.dotGeneral dot_S100000x128_S128x128_S100000x128_1_0_0_1_n_n none),
    unary main_arg10 main_v28 (extractStridedSlice S1x128 ![0, 0] · slices_S3x128_S1x128_0_0),
    reshape main_v28 main_v29 rfl shapeCasts_S1x128_S128,
    unary main_v29 main_v30 (broadcastInDim S1x128 ![1] bcast_S128_S1x128_1),
    unary main_v30 main_v31 (broadcastInDim S100000x128 ![0, 1] bcast_S1x128_S100000x128_0_1),
    binary main_v27 main_v31 main_v32 addf,
    binary main_v32 main_v24 main_v33 addf,
    nullary main_cst_1 (constant S_ .f32 0x00000000#32),
    binary main_v33 main_cst_1 main_v34 (fun x v => Host.reduceAdd x v reducesTo_S100000x128_S128_d0 h_S_),
    nullary main_cst_2 (constant S_ .f32 0x47C35000#32),
    unary main_cst_2 main_v35 (broadcastInDim S128 ![] bcast_S_S128),
    binary main_v34 main_v35 main_v36 Host.divf,
    unary main_v36 main_v37 (broadcastInDim S1x128 ![1] bcast_S128_S1x128_1),
    unary main_v37 main_v38 (broadcastInDim S100000x128 ![0, 1] bcast_S1x128_S100000x128_0_1),
    binary main_v33 main_v38 main_v39 subf,
    binary main_v39 main_v39 main_v40 mulf,
    nullary main_cst_3 (constant S_ .f32 0x00000000#32),
    binary main_v40 main_cst_3 main_v41 (fun x v => Host.reduceAdd x v reducesTo_S100000x128_S128_d0 h_S_),
    nullary main_cst_4 (constant S_ .f32 0x47C35000#32),
    unary main_cst_4 main_v42 (broadcastInDim S128 ![] bcast_S_S128),
    binary main_v41 main_v42 main_v43 Host.divf,
    unary main_v36 main_v44 (broadcastInDim S1x128 ![1] bcast_S128_S1x128_1),
    unary main_v44 main_v45 (broadcastInDim S100000x128 ![0, 1] bcast_S1x128_S100000x128_0_1),
    binary main_v33 main_v45 main_v46 subf,
    nullary main_cst_5 (constant S_ .f32 0x3727C5AC#32),
    unary main_cst_5 main_v47 (broadcastInDim S128 ![] bcast_S_S128),
    binary main_v43 main_v47 main_v48 addf,
    unary main_v48 main_v49 Host.rsqrt,
    unary main_v49 main_v50 (broadcastInDim S1x128 ![1] bcast_S128_S1x128_1),
    unary main_v50 main_v51 (broadcastInDim S100000x128 ![0, 1] bcast_S1x128_S100000x128_0_1) ]

abbrev ops1 : List (HloOp τ sig (Elt F)) :=
  [ binary main_v46 main_v51 main_v52 mulf,
    unary main_arg13 main_v53 (extractStridedSlice S1x128 ![0, 0] · slices_S3x128_S1x128_0_0),
    reshape main_v53 main_v54 rfl shapeCasts_S1x128_S128,
    unary main_v54 main_v55 (broadcastInDim S1x128 ![1] bcast_S128_S1x128_1),
    unary main_v55 main_v56 (broadcastInDim S100000x128 ![0, 1] bcast_S1x128_S100000x128_0_1),
    binary main_v52 main_v56 main_v57 mulf,
    unary main_arg14 main_v58 (extractStridedSlice S1x128 ![0, 0] · slices_S3x128_S1x128_0_0),
    reshape main_v58 main_v59 rfl shapeCasts_S1x128_S128,
    unary main_v59 main_v60 (broadcastInDim S1x128 ![1] bcast_S128_S1x128_1),
    unary main_v60 main_v61 (broadcastInDim S100000x128 ![0, 1] bcast_S1x128_S100000x128_0_1),
    binary main_v57 main_v61 main_v62 addf,
    TRef.nullary main_call0.cst (constant S_ .f32 0x00000000#32),
    TRef.unary main_call0.cst main_call0.v0 (broadcastInDim S100000x128 ![] bcast_S_S100000x128),
    TRef.binary (.of main_v62 : TRef sig ⟨S100000x128, .f32⟩) main_call0.v0 main_call0.v1 maximumf,
    nullary main_c_6 (constantI S_ 32 0#32),
    unary main_c_6 main_v64 (broadcastInDim S600000 ![] bcast_S_S600000),
    binary main_v1 main_v64 main_v65 (cmpi .slt),
    nullary main_c_7 (constantI S_ 32 100000#32),
    unary main_c_7 main_v66 (broadcastInDim S600000 ![] bcast_S_S600000),
    binary main_v1 main_v66 main_v67 addi,
    ternary main_v65 main_v67 main_v1 main_v68 select,
    unary main_v68 main_v69 (broadcastInDim S600000x1 ![0] bcast_S600000_S600000x1_0),
    binary main_v63 main_v69 main_v70 (Host.gather gather_S100000x128_S600000x1_S600000x128_1_0_n_n_0_1_1128),
    unary main_arg11 main_v71 (extractStridedSlice S1x128x128 ![1, 0, 0] · slices_S3x128x128_S1x128x128_1_0_0),
    reshape main_v71 main_v72 rfl shapeCasts_S1x128x128_S128x128,
    binary main_v70 main_v72 main_v73 (Host.dotGeneral dot_S600000x128_S128x128_S600000x128_1_0_0_1_n_n none),
    unary main_arg12 main_v74 (extractStridedSlice S1x16x128 ![1, 0, 0] · slices_S3x16x128_S1x16x128_1_0_0),
    reshape main_v74 main_v75 rfl shapeCasts_S1x16x128_S16x128,
    binary main_arg2 main_v75 main_v76 (Host.dotGeneral dot_S600000x16_S16x128_S600000x128_1_0_0_1_n_n none),
    binary main_v73 main_v76 main_v77 addf,
    nullary main_cst_8 (constant S_ .f32 0x00000000#32),
    unary main_cst_8 main_v78 (broadcastInDim S100000x128 ![] bcast_S_S100000x128),
    unary main_v3 main_v79 (broadcastInDim S600000x1 ![0] bcast_S600000_S600000x1_0),
    ternary main_v78 main_v79 main_v77 main_v80 (Host.scatterAdd scatter_S100000x128_S600000x1_S600000x128_1_0_0_1),
    unary main_arg9 main_v81 (extractStridedSlice S1x128x128 ![1, 0, 0] · slices_S3x128x128_S1x128x128_1_0_0),
    reshape main_v81 main_v82 rfl shapeCasts_S1x128x128_S128x128,
    binary main_v63 main_v82 main_v83 (Host.dotGeneral dot_S100000x128_S128x128_S100000x128_1_0_0_1_n_n none),
    unary main_arg10 main_v84 (extractStridedSlice S1x128 ![1, 0] · slices_S3x128_S1x128_1_0),
    reshape main_v84 main_v85 rfl shapeCasts_S1x128_S128,
    unary main_v85 main_v86 (broadcastInDim S1x128 ![1] bcast_S128_S1x128_1),
    unary main_v86 main_v87 (broadcastInDim S100000x128 ![0, 1] bcast_S1x128_S100000x128_0_1),
    binary main_v83 main_v87 main_v88 addf,
    binary main_v88 main_v80 main_v89 addf,
    nullary main_cst_9 (constant S_ .f32 0x00000000#32),
    binary main_v89 main_cst_9 main_v90 (fun x v => Host.reduceAdd x v reducesTo_S100000x128_S128_d0 h_S_),
    nullary main_cst_10 (constant S_ .f32 0x47C35000#32),
    unary main_cst_10 main_v91 (broadcastInDim S128 ![] bcast_S_S128),
    binary main_v90 main_v91 main_v92 Host.divf,
    unary main_v92 main_v93 (broadcastInDim S1x128 ![1] bcast_S128_S1x128_1),
    unary main_v93 main_v94 (broadcastInDim S100000x128 ![0, 1] bcast_S1x128_S100000x128_0_1),
    binary main_v89 main_v94 main_v95 subf,
    binary main_v95 main_v95 main_v96 mulf,
    nullary main_cst_11 (constant S_ .f32 0x00000000#32),
    binary main_v96 main_cst_11 main_v97 (fun x v => Host.reduceAdd x v reducesTo_S100000x128_S128_d0 h_S_),
    nullary main_cst_12 (constant S_ .f32 0x47C35000#32),
    unary main_cst_12 main_v98 (broadcastInDim S128 ![] bcast_S_S128),
    binary main_v97 main_v98 main_v99 Host.divf,
    unary main_v92 main_v100 (broadcastInDim S1x128 ![1] bcast_S128_S1x128_1),
    unary main_v100 main_v101 (broadcastInDim S100000x128 ![0, 1] bcast_S1x128_S100000x128_0_1),
    binary main_v89 main_v101 main_v102 subf,
    nullary main_cst_13 (constant S_ .f32 0x3727C5AC#32),
    unary main_cst_13 main_v103 (broadcastInDim S128 ![] bcast_S_S128) ]

abbrev ops2 : List (HloOp τ sig (Elt F)) :=
  [ binary main_v99 main_v103 main_v104 addf,
    unary main_v104 main_v105 Host.rsqrt,
    unary main_v105 main_v106 (broadcastInDim S1x128 ![1] bcast_S128_S1x128_1),
    unary main_v106 main_v107 (broadcastInDim S100000x128 ![0, 1] bcast_S1x128_S100000x128_0_1),
    binary main_v102 main_v107 main_v108 mulf,
    unary main_arg13 main_v109 (extractStridedSlice S1x128 ![1, 0] · slices_S3x128_S1x128_1_0),
    reshape main_v109 main_v110 rfl shapeCasts_S1x128_S128,
    unary main_v110 main_v111 (broadcastInDim S1x128 ![1] bcast_S128_S1x128_1),
    unary main_v111 main_v112 (broadcastInDim S100000x128 ![0, 1] bcast_S1x128_S100000x128_0_1),
    binary main_v108 main_v112 main_v113 mulf,
    unary main_arg14 main_v114 (extractStridedSlice S1x128 ![1, 0] · slices_S3x128_S1x128_1_0),
    reshape main_v114 main_v115 rfl shapeCasts_S1x128_S128,
    unary main_v115 main_v116 (broadcastInDim S1x128 ![1] bcast_S128_S1x128_1),
    unary main_v116 main_v117 (broadcastInDim S100000x128 ![0, 1] bcast_S1x128_S100000x128_0_1),
    binary main_v113 main_v117 main_v118 addf,
    TRef.nullary main_call1.cst (constant S_ .f32 0x00000000#32),
    TRef.unary main_call1.cst main_call1.v0 (broadcastInDim S100000x128 ![] bcast_S_S100000x128),
    TRef.binary (.of main_v118 : TRef sig ⟨S100000x128, .f32⟩) main_call1.v0 main_call1.v1 maximumf,
    nullary main_c_14 (constantI S_ 32 0#32),
    unary main_c_14 main_v120 (broadcastInDim S600000 ![] bcast_S_S600000),
    binary main_v1 main_v120 main_v121 (cmpi .slt),
    nullary main_c_15 (constantI S_ 32 100000#32),
    unary main_c_15 main_v122 (broadcastInDim S600000 ![] bcast_S_S600000),
    binary main_v1 main_v122 main_v123 addi,
    ternary main_v121 main_v123 main_v1 main_v124 select,
    unary main_v124 main_v125 (broadcastInDim S600000x1 ![0] bcast_S600000_S600000x1_0),
    binary main_v119 main_v125 main_v126 (Host.gather gather_S100000x128_S600000x1_S600000x128_1_0_n_n_0_1_1128),
    unary main_arg11 main_v127 (extractStridedSlice S1x128x128 ![2, 0, 0] · slices_S3x128x128_S1x128x128_2_0_0),
    reshape main_v127 main_v128 rfl shapeCasts_S1x128x128_S128x128,
    binary main_v126 main_v128 main_v129 (Host.dotGeneral dot_S600000x128_S128x128_S600000x128_1_0_0_1_n_n none),
    unary main_arg12 main_v130 (extractStridedSlice S1x16x128 ![2, 0, 0] · slices_S3x16x128_S1x16x128_2_0_0),
    reshape main_v130 main_v131 rfl shapeCasts_S1x16x128_S16x128,
    binary main_arg2 main_v131 main_v132 (Host.dotGeneral dot_S600000x16_S16x128_S600000x128_1_0_0_1_n_n none),
    binary main_v129 main_v132 main_v133 addf,
    nullary main_cst_16 (constant S_ .f32 0x00000000#32),
    unary main_cst_16 main_v134 (broadcastInDim S100000x128 ![] bcast_S_S100000x128),
    unary main_v3 main_v135 (broadcastInDim S600000x1 ![0] bcast_S600000_S600000x1_0),
    ternary main_v134 main_v135 main_v133 main_v136 (Host.scatterAdd scatter_S100000x128_S600000x1_S600000x128_1_0_0_1),
    unary main_arg9 main_v137 (extractStridedSlice S1x128x128 ![2, 0, 0] · slices_S3x128x128_S1x128x128_2_0_0),
    reshape main_v137 main_v138 rfl shapeCasts_S1x128x128_S128x128,
    binary main_v119 main_v138 main_v139 (Host.dotGeneral dot_S100000x128_S128x128_S100000x128_1_0_0_1_n_n none),
    unary main_arg10 main_v140 (extractStridedSlice S1x128 ![2, 0] · slices_S3x128_S1x128_2_0),
    reshape main_v140 main_v141 rfl shapeCasts_S1x128_S128,
    unary main_v141 main_v142 (broadcastInDim S1x128 ![1] bcast_S128_S1x128_1),
    unary main_v142 main_v143 (broadcastInDim S100000x128 ![0, 1] bcast_S1x128_S100000x128_0_1),
    binary main_v139 main_v143 main_v144 addf,
    binary main_v144 main_v136 main_v145 addf,
    nullary main_cst_17 (constant S_ .f32 0x00000000#32),
    binary main_v145 main_cst_17 main_v146 (fun x v => Host.reduceAdd x v reducesTo_S100000x128_S128_d0 h_S_),
    nullary main_cst_18 (constant S_ .f32 0x47C35000#32),
    unary main_cst_18 main_v147 (broadcastInDim S128 ![] bcast_S_S128),
    binary main_v146 main_v147 main_v148 Host.divf,
    unary main_v148 main_v149 (broadcastInDim S1x128 ![1] bcast_S128_S1x128_1),
    unary main_v149 main_v150 (broadcastInDim S100000x128 ![0, 1] bcast_S1x128_S100000x128_0_1),
    binary main_v145 main_v150 main_v151 subf,
    binary main_v151 main_v151 main_v152 mulf,
    nullary main_cst_19 (constant S_ .f32 0x00000000#32),
    binary main_v152 main_cst_19 main_v153 (fun x v => Host.reduceAdd x v reducesTo_S100000x128_S128_d0 h_S_),
    nullary main_cst_20 (constant S_ .f32 0x47C35000#32),
    unary main_cst_20 main_v154 (broadcastInDim S128 ![] bcast_S_S128),
    binary main_v153 main_v154 main_v155 Host.divf,
    unary main_v148 main_v156 (broadcastInDim S1x128 ![1] bcast_S128_S1x128_1) ]

abbrev ops3 : List (HloOp τ sig (Elt F)) :=
  [ unary main_v156 main_v157 (broadcastInDim S100000x128 ![0, 1] bcast_S1x128_S100000x128_0_1),
    binary main_v145 main_v157 main_v158 subf,
    nullary main_cst_21 (constant S_ .f32 0x3727C5AC#32),
    unary main_cst_21 main_v159 (broadcastInDim S128 ![] bcast_S_S128),
    binary main_v155 main_v159 main_v160 addf,
    unary main_v160 main_v161 Host.rsqrt,
    unary main_v161 main_v162 (broadcastInDim S1x128 ![1] bcast_S128_S1x128_1),
    unary main_v162 main_v163 (broadcastInDim S100000x128 ![0, 1] bcast_S1x128_S100000x128_0_1),
    binary main_v158 main_v163 main_v164 mulf,
    unary main_arg13 main_v165 (extractStridedSlice S1x128 ![2, 0] · slices_S3x128_S1x128_2_0),
    reshape main_v165 main_v166 rfl shapeCasts_S1x128_S128,
    unary main_v166 main_v167 (broadcastInDim S1x128 ![1] bcast_S128_S1x128_1),
    unary main_v167 main_v168 (broadcastInDim S100000x128 ![0, 1] bcast_S1x128_S100000x128_0_1),
    binary main_v164 main_v168 main_v169 mulf,
    unary main_arg14 main_v170 (extractStridedSlice S1x128 ![2, 0] · slices_S3x128_S1x128_2_0),
    reshape main_v170 main_v171 rfl shapeCasts_S1x128_S128,
    unary main_v171 main_v172 (broadcastInDim S1x128 ![1] bcast_S128_S1x128_1),
    unary main_v172 main_v173 (broadcastInDim S100000x128 ![0, 1] bcast_S1x128_S100000x128_0_1),
    binary main_v169 main_v173 main_v174 addf,
    TRef.nullary main_call2.cst (constant S_ .f32 0x00000000#32),
    TRef.unary main_call2.cst main_call2.v0 (broadcastInDim S100000x128 ![] bcast_S_S100000x128),
    TRef.binary (.of main_v174 : TRef sig ⟨S100000x128, .f32⟩) main_call2.v0 main_call2.v1 maximumf,
    nullary main_c_22 (constantI S_ 32 0#32),
    unary main_c_22 main_v176 (broadcastInDim S1 ![] bcast_S_S1),
    TRef.nullary main_call3.call0.c (constantI S_ 32 0#32),
    TRef.unary main_call3.call0.c main_call3.call0.v0 (broadcastInDim S_ ![] bcast_S_S_),
    TRef.binary (.of main_arg6 : TRef sig ⟨S512, .i32⟩) main_call3.call0.v0 main_call3.call0.v1 (fun x v => Host.reduceWindow IntOp.addi ![512] ![1] ![511] ![0] x v reduceWindows_S512_S512_w512s1p511_0 h_S_),
    binary main_v176 main_v177 main_v178 (fun a b => concatenate S513 0 [⟨S1, a⟩, ⟨S512, b⟩] concatenates_S1_S512_S513_d0),
    nullary main_c_23 (constantI S_ 32 0#32),
    unary main_c_23 main_v179 (broadcastInDim S100000 ![] bcast_S_S100000),
    binary main_arg3 main_v179 main_v180 (cmpi .slt),
    nullary main_c_24 (constantI S_ 32 513#32),
    unary main_c_24 main_v181 (broadcastInDim S100000 ![] bcast_S_S100000),
    binary main_arg3 main_v181 main_v182 addi,
    ternary main_v180 main_v182 main_arg3 main_v183 select,
    unary main_v183 main_v184 (broadcastInDim S100000x1 ![0] bcast_S100000_S100000x1_0),
    binary main_v178 main_v184 main_v185 (Host.gather gather_S513_S100000x1_S100000_n_0_n_n_0_1_1),
    binary main_arg4 main_v185 main_v186 addi,
    nullary main_cst_25 (constant S_ .f32 0x00000000#32),
    unary main_cst_25 main_v187 (broadcastInDim S4096x128 ![] bcast_S_S4096x128),
    unary main_v186 main_v188 (broadcastInDim S100000x1 ![0] bcast_S100000_S100000x1_0),
    ternary main_v187 main_v188 main_v175 main_v189 (Host.scatterAdd scatter_S4096x128_S100000x1_S100000x128_1_0_0_1),
    nullary main_cst_26 (constant S_ .f32 0x3F800000#32),
    unary main_cst_26 main_v190 (broadcastInDim S100000x1 ![] bcast_S_S100000x1),
    nullary main_cst_27 (constant S_ .f32 0x00000000#32),
    unary main_cst_27 main_v191 (broadcastInDim S4096x1 ![] bcast_S_S4096x1),
    unary main_v186 main_v192 (broadcastInDim S100000x1 ![0] bcast_S100000_S100000x1_0),
    ternary main_v191 main_v192 main_v190 main_v193 (Host.scatterAdd scatter_S4096x1_S100000x1_S100000x1_1_0_0_1),
    nullary main_cst_28 (constant S_ .f32 0x3F800000#32),
    unary main_cst_28 main_v194 (broadcastInDim S4096x1 ![] bcast_S_S4096x1),
    binary main_v193 main_v194 main_v195 maximumf,
    unary main_v195 main_v196 (broadcastInDim S4096x128 ![0, 1] bcast_S4096x1_S4096x128_0_1),
    binary main_v189 main_v196 main_v197 Host.divf,
    nullary main_cst_29 (constant S_ .f32 0x00000000#32),
    unary main_cst_29 main_v198 (broadcastInDim S512x128 ![] bcast_S_S512x128),
    unary main_arg5 main_v199 (broadcastInDim S4096x1 ![0] bcast_S4096_S4096x1_0),
    ternary main_v198 main_v199 main_v197 main_v200 (Host.scatterAdd scatter_S512x128_S4096x1_S4096x128_1_0_0_1),
    nullary main_cst_30 (constant S_ .f32 0x3F800000#32),
    unary main_cst_30 main_v201 (broadcastInDim S4096x1 ![] bcast_S_S4096x1),
    nullary main_cst_31 (constant S_ .f32 0x00000000#32),
    unary main_cst_31 main_v202 (broadcastInDim S512x1 ![] bcast_S_S512x1),
    unary main_arg5 main_v203 (broadcastInDim S4096x1 ![0] bcast_S4096_S4096x1_0),
    ternary main_v202 main_v203 main_v201 main_v204 (Host.scatterAdd scatter_S512x1_S4096x1_S4096x1_1_0_0_1),
    nullary main_cst_32 (constant S_ .f32 0x3F800000#32) ]

abbrev ops4 : List (HloOp τ sig (Elt F)) :=
  [ unary main_cst_32 main_v205 (broadcastInDim S512x1 ![] bcast_S_S512x1),
    binary main_v204 main_v205 main_v206 maximumf,
    unary main_v206 main_v207 (broadcastInDim S512x128 ![0, 1] bcast_S512x1_S512x128_0_1),
    binary main_v200 main_v207 main_v208 Host.divf,
    binary main_v208 main_arg15 main_v209 (Host.dotGeneral dot_S512x128_S128x256_S512x256_1_0_0_1_n_n none),
    unary main_arg16 main_v210 (broadcastInDim S1x256 ![1] bcast_S256_S1x256_1),
    unary main_v210 main_v211 (broadcastInDim S512x256 ![0, 1] bcast_S1x256_S512x256_0_1),
    binary main_v209 main_v211 main_v212 addf,
    TRef.nullary main_call4.cst (constant S_ .f32 0x00000000#32),
    TRef.unary main_call4.cst main_call4.v0 (broadcastInDim S512x256 ![] bcast_S_S512x256),
    TRef.binary (.of main_v212 : TRef sig ⟨S512x256, .f32⟩) main_call4.v0 main_call4.v1 maximumf,
    binary main_v213 main_arg17 main_v214 (Host.dotGeneral dot_S512x256_S256x10_S512x10_1_0_0_1_n_n none),
    unary main_arg18 main_v215 (broadcastInDim S1x10 ![1] bcast_S10_S1x10_1),
    unary main_v215 main_v216 (broadcastInDim S512x10 ![0, 1] bcast_S1x10_S512x10_0_1),
    binary main_v214 main_v216 main_v217 addf ]

abbrev ops : List (HloOp τ sig (Elt F)) := ops0 ++ ops1 ++ ops2 ++ ops3 ++ ops4

end Cert.ReferenceIdeal.Hand

end
-- ==== Proof.RefRun.lean ====
import proofs.«425797_j7249904796358_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) :
    after ops V = after ops4 (after ops3 (after ops2 (after ops1 (after ops0 V)))) := by
  simp only [ops, after_append]

theorem part0_eq (c : Dev nD) : main_part0 (F := F) c = seq ops0 := rfl
theorem part1_eq (c : Dev nD) : main_part1 (F := F) c = seq ops1 := rfl
theorem part2_eq (c : Dev nD) : main_part2 (F := F) c = seq ops2 := rfl
theorem part3_eq (c : Dev nD) : main_part3 (F := F) c = seq ops3 := rfl
theorem part4_eq (c : Dev nD) : main_part4 (F := F) c = seq ops4 := rfl

theorem main_eq (c : Dev nD) : main (F := F) c = seq ops :=
  calc main (F := F) c
      = (main_part0 c >>= fun _ => main_part1 c >>= fun _ => main_part2 c >>= fun _ => main_part3 c >>= fun _ =>
          main_part4 c) := rfl
    _ = (seq ops0 >>= fun _ => seq ops1 >>= fun _ => seq ops2 >>= fun _ => seq ops3 >>= fun _ => seq ops4) := by
        rw [part0_eq c, part1_eq c, part2_eq c, part3_eq c, part4_eq c]
    _ = seq ops := by simp only [ops, seq_append, bind_assoc]

theorem parts_sub :
    ((ops0 : List (HloOp τ sig (Elt F))).Forall fun op => op.bufs ⊆ tcRefs τ sig)
    ∧ ((ops1 : List (HloOp τ sig (Elt F))).Forall fun op => op.bufs ⊆ tcRefs τ sig)
    ∧ ((ops2 : List (HloOp τ sig (Elt F))).Forall fun op => op.bufs ⊆ tcRefs τ sig)
    ∧ ((ops3 : List (HloOp τ sig (Elt F))).Forall fun op => op.bufs ⊆ tcRefs τ sig)
    ∧ ((ops4 : List (HloOp τ sig (Elt F))).Forall fun op => op.bufs ⊆ tcRefs τ sig) := by
  refine ⟨?_, ?_, ?_, ?_, ?_⟩ <;> simp only [List.Forall, nullary_bufs_sub, unary_bufs_sub, binary_bufs_sub, ternary_bufs_sub, reshape_bufs_sub, and_self]

theorem ops_sub : (ops : List (HloOp τ sig (Elt F))).Forall fun op => op.bufs ⊆ tcRefs τ sig :=
  List.forall_append.mpr ⟨List.forall_append.mpr ⟨List.forall_append.mpr ⟨List.forall_append.mpr
    ⟨parts_sub.1, parts_sub.2.1⟩, parts_sub.2.2.1⟩, parts_sub.2.2.2.1⟩, parts_sub.2.2.2.2⟩

theorem parts_fresh :
    (∀ op ∈ (ops0 : List (HloOp τ sig (Elt F))), op.fresh = ∅)
    ∧ (∀ op ∈ (ops1 : List (HloOp τ sig (Elt F))), op.fresh = ∅)
    ∧ (∀ op ∈ (ops2 : List (HloOp τ sig (Elt F))), op.fresh = ∅)
    ∧ (∀ op ∈ (ops3 : List (HloOp τ sig (Elt F))), op.fresh = ∅)
    ∧ (∀ op ∈ (ops4 : List (HloOp τ sig (Elt F))), op.fresh = ∅) := by
  refine ⟨?_, ?_, ?_, ?_, ?_⟩ <;> (intro _ h; (repeat (cases h with | head => rfl | tail _ h => ?_)); exact nomatch h)

theorem ops_fresh : ∀ op ∈ (ops : List (HloOp τ sig (Elt F))), op.fresh = ∅ := by
  intro op h
  rcases List.mem_append.mp h with h | h4
  · rcases List.mem_append.mp h with h | h3
    · rcases List.mem_append.mp h with h | h2
      · rcases List.mem_append.mp h with h0 | h1
        · exact parts_fresh.1 op h0
        · exact parts_fresh.2.1 op h1
      · exact parts_fresh.2.2.1 op h2
    · exact parts_fresh.2.2.2.1 op h3
  · exact parts_fresh.2.2.2.2 op h4

set_option maxRecDepth 4096 in
theorem scopedRefs_eq : (Finset.univ.filter fun b : Ref sig .tc => b.isScoped) = ∅ := by decide
theorem scopedSems_eq : (Finset.univ.filter fun sm : SemLoc sig => sm.isScoped .tc) = ∅ := by decide

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

def computed : Finset (DevRef τ sig) :=
  (Finset.univ.filter fun r : Ref sig .tc => 19 ≤ r.idx.val).map
    ⟨Proc.devRef (sig := sig) (.tc : Proc τ), Proc.devRef_injective _⟩

theorem single_sub_computed {y : Ref sig .tc} (h : 19 ≤ y.idx.val) :
    ({Proc.devRef .tc y} : Finset (DevRef τ sig)) ⊆ computed :=
  Finset.singleton_subset_iff.mpr (Finset.mem_map_of_mem _ (Finset.mem_filter.mpr ⟨Finset.mem_univ _, h⟩))

theorem not_mem_computed {r : Ref sig .tc} (h : r.idx.val < 19) : Proc.devRef (τ := τ) .tc r ∉ computed := by
  intro hm
  obtain ⟨y, hy, he⟩ := Finset.mem_map.mp hm
  have hyr : y = r := Proc.devRef_injective _ he
  subst hyr
  exact absurd (Finset.mem_filter.mp hy).2 (Nat.not_le.mpr h)

theorem parts_writes :
    ((ops0 : List (HloOp τ sig (Elt F))).Forall fun op => op.writes ⊆ computed)
    ∧ ((ops1 : List (HloOp τ sig (Elt F))).Forall fun op => op.writes ⊆ computed)
    ∧ ((ops2 : List (HloOp τ sig (Elt F))).Forall fun op => op.writes ⊆ computed)
    ∧ ((ops3 : List (HloOp τ sig (Elt F))).Forall fun op => op.writes ⊆ computed)
    ∧ ((ops4 : List (HloOp τ sig (Elt F))).Forall fun op => op.writes ⊆ computed) := by
  refine ⟨?_, ?_, ?_, ?_, ?_⟩ <;> (simp only [List.Forall]; and_intros <;> exact single_sub_computed (by decide))

theorem ops_writes : (ops : List (HloOp τ sig (Elt F))).Forall fun op => op.writes ⊆ computed :=
  List.forall_append.mpr ⟨List.forall_append.mpr ⟨List.forall_append.mpr ⟨List.forall_append.mpr
    ⟨parts_writes.1, parts_writes.2.1⟩, parts_writes.2.2.1⟩, parts_writes.2.2.2.1⟩, parts_writes.2.2.2.2⟩

-- A line whose operations write only computed buffers leaves every argument as it was.
theorem kept_of {l : List (HloOp τ sig (Elt F))} (hl : l.Forall fun op => op.writes ⊆ computed) {r : Ref sig .tc} (h : r.idx.val < 19)
    (V : Valuation τ sig (Elt F)) : after l V (Proc.devRef .tc r) = V (Proc.devRef .tc r) :=
  after_of_forall_not_mem l V fun op hop hb => not_mem_computed h (List.forall_iff_forall_mem.mp hl op hop hb)

theorem kept_of_lt {r : Ref sig .tc} (h : r.idx.val < 19) (V : Valuation τ sig (Elt F)) :
    after ops V (Proc.devRef .tc r) = V (Proc.devRef .tc r) := kept_of ops_writes h V

-- The run with the result at the fold of the operations and every argument as launched (no operation writes one).
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v217) = after ops (launchContents m c) (main_v217 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c =>
    ⟨h c main_v217, (h c main_arg0).trans (kept_of_lt (by decide) _), (h c main_arg1).trans (kept_of_lt (by decide) _), (h c main_arg2).trans (kept_of_lt (by decide) _), (h c main_arg3).trans (kept_of_lt (by decide) _), (h c main_arg4).trans (kept_of_lt (by decide) _),
      (h c main_arg5).trans (kept_of_lt (by decide) _), (h c main_arg6).trans (kept_of_lt (by decide) _), (h c main_arg7).trans (kept_of_lt (by decide) _), (h c main_arg8).trans (kept_of_lt (by decide) _), (h c main_arg9).trans (kept_of_lt (by decide) _),
      (h c main_arg10).trans (kept_of_lt (by decide) _), (h c main_arg11).trans (kept_of_lt (by decide) _), (h c main_arg12).trans (kept_of_lt (by decide) _), (h c main_arg13).trans (kept_of_lt (by decide) _), (h c main_arg14).trans (kept_of_lt (by decide) _),
      (h c main_arg15).trans (kept_of_lt (by decide) _), (h c main_arg16).trans (kept_of_lt (by decide) _), (h c main_arg17).trans (kept_of_lt (by decide) _), (h c main_arg18).trans (kept_of_lt (by decide) _)⟩)
    (run m ρ)

end Cert.ReferenceIdeal.Hand

end
-- ==== Proof.Stage.lean ====
import proofs.«425797_j7249904796358_2_alg».proof.ReferenceIdeal
import Idealize.ShloMosaic.PureOps.Ideal

noncomputable section

namespace Cert.Stage

open Idealize.ShloMosaic
open Cert.ReferenceIdeal

variable [Facts]
open Facts₀ Facts

def SRC (ei : IVec S2x600000 32) : IVec S600000 32 :=
  shapeCast S600000 (extractStridedSlice S1x600000 ![0, 0] ei slices_S2x600000_S1x600000_0_0)
    shapeCasts_S1x600000_S600000

def DST (ei : IVec S2x600000 32) : IVec S600000 32 :=
  shapeCast S600000 (extractStridedSlice S1x600000 ![1, 0] ei slices_S2x600000_S1x600000_1_0)
    shapeCasts_S1x600000_S600000

def ENC (x : FVec Ideal S100000x128 .f32) (w : FVec Ideal S128x128 .f32) (b : FVec Ideal S128 .f32) :
    FVec Ideal S100000x128 .f32 :=
  addf (F := Ideal)
    (Host.dotGeneral (F := Ideal) dot_S100000x128_S128x128_S100000x128_1_0_0_1_n_n none x w)
    (broadcastInDim S100000x128 ![0, 1] bcast_S1x128_S100000x128_0_1
      (broadcastInDim S1x128 ![1] bcast_S128_S1x128_1 b))

def H1 (h : FVec Ideal S100000x128 .f32) (src dst : IVec S600000 32) (ea : FVec Ideal S600000x16 .f32)
    (wr wn : FVec Ideal S128x128 .f32) (we : FVec Ideal S16x128 .f32) (b : FVec Ideal S128 .f32) :
    FVec Ideal S100000x128 .f32 :=

  let neg : IVec S600000 1 := cmpi .slt src (broadcastInDim S600000 ![] bcast_S_S600000 (constantI S_ 32 0#32))
  let wrapped : IVec S600000 32 :=
    select neg (addi src (broadcastInDim S600000 ![] bcast_S_S600000 (constantI S_ 32 100000#32))) src

  let rows : FVec Ideal S600000x128 .f32 :=
    Host.gather gather_S100000x128_S600000x1_S600000x128_1_0_n_n_0_1_1128 h
      (broadcastInDim S600000x1 ![0] bcast_S600000_S600000x1_0 wrapped)

  let msg : FVec Ideal S600000x128 .f32 :=
    addf (F := Ideal)
      (Host.dotGeneral (F := Ideal) dot_S600000x128_S128x128_S600000x128_1_0_0_1_n_n none rows wn)
      (Host.dotGeneral (F := Ideal) dot_S600000x16_S16x128_S600000x128_1_0_0_1_n_n none ea we)

  let agg : FVec Ideal S100000x128 .f32 :=
    Host.scatterAdd (F := Ideal) scatter_S100000x128_S600000x1_S600000x128_1_0_0_1
      (broadcastInDim S100000x128 ![] bcast_S_S100000x128 (constant (F := Ideal) S_ .f32 0x00000000#32))
      (broadcastInDim S600000x1 ![0] bcast_S600000_S600000x1_0 dst) msg
  addf (F := Ideal)
    (addf (F := Ideal)
      (Host.dotGeneral (F := Ideal) dot_S100000x128_S128x128_S100000x128_1_0_0_1_n_n none h wr)
      (broadcastInDim S100000x128 ![0, 1] bcast_S1x128_S100000x128_0_1
        (broadcastInDim S1x128 ![1] bcast_S128_S1x128_1 b)))
    agg

def MU (h1 : FVec Ideal S100000x128 .f32) : FVec Ideal S128 .f32 :=
  Host.divf (F := Ideal)
    (Host.reduceAdd (F := Ideal) h1 (constant (F := Ideal) S_ .f32 0x00000000#32) reducesTo_S100000x128_S128_d0 h_S_)
    (broadcastInDim S128 ![] bcast_S_S128 (constant (F := Ideal) S_ .f32 0x47C35000#32))

def VAR (h1 : FVec Ideal S100000x128 .f32) : FVec Ideal S128 .f32 :=
  let dev : FVec Ideal S100000x128 .f32 :=
    subf (F := Ideal) h1
      (broadcastInDim S100000x128 ![0, 1] bcast_S1x128_S100000x128_0_1
        (broadcastInDim S1x128 ![1] bcast_S128_S1x128_1 (MU h1)))
  Host.divf (F := Ideal)
    (Host.reduceAdd (F := Ideal) (mulf (F := Ideal) dev dev) (constant (F := Ideal) S_ .f32 0x00000000#32)
      reducesTo_S100000x128_S128_d0 h_S_)
    (broadcastInDim S128 ![] bcast_S_S128 (constant (F := Ideal) S_ .f32 0x47C35000#32))

def TAIL (h1 : FVec Ideal S100000x128 .f32) (mu var g be : FVec Ideal S128 .f32) : FVec Ideal S100000x128 .f32 :=
  let rows (v : FVec Ideal S128 .f32) : FVec Ideal S100000x128 .f32 :=
    broadcastInDim S100000x128 ![0, 1] bcast_S1x128_S100000x128_0_1 (broadcastInDim S1x128 ![1] bcast_S128_S1x128_1 v)
  let inv : FVec Ideal S128 .f32 :=
    Host.rsqrt (F := Ideal)
      (addf (F := Ideal) var (broadcastInDim S128 ![] bcast_S_S128 (constant (F := Ideal) S_ .f32 0x3727C5AC#32)))
  maximumf (F := Ideal)
    (addf (F := Ideal)
      (mulf (F := Ideal) (mulf (F := Ideal) (subf (F := Ideal) h1 (rows mu)) (rows inv)) (rows g))
      (rows be))
    (broadcastInDim S100000x128 ![] bcast_S_S100000x128 (constant (F := Ideal) S_ .f32 0x00000000#32))

def WS0 (w : FVec Ideal S3x128x128 .f32) : FVec Ideal S128x128 .f32 :=
  shapeCast S128x128 (extractStridedSlice S1x128x128 ![0, 0, 0] w slices_S3x128x128_S1x128x128_0_0_0) shapeCasts_S1x128x128_S128x128
def WS1 (w : FVec Ideal S3x128x128 .f32) : FVec Ideal S128x128 .f32 :=
  shapeCast S128x128 (extractStridedSlice S1x128x128 ![1, 0, 0] w slices_S3x128x128_S1x128x128_1_0_0) shapeCasts_S1x128x128_S128x128
def WS2 (w : FVec Ideal S3x128x128 .f32) : FVec Ideal S128x128 .f32 :=
  shapeCast S128x128 (extractStridedSlice S1x128x128 ![2, 0, 0] w slices_S3x128x128_S1x128x128_2_0_0) shapeCasts_S1x128x128_S128x128

def ES0 (w : FVec Ideal S3x16x128 .f32) : FVec Ideal S16x128 .f32 :=
  shapeCast S16x128 (extractStridedSlice S1x16x128 ![0, 0, 0] w slices_S3x16x128_S1x16x128_0_0_0) shapeCasts_S1x16x128_S16x128
def ES1 (w : FVec Ideal S3x16x128 .f32) : FVec Ideal S16x128 .f32 :=
  shapeCast S16x128 (extractStridedSlice S1x16x128 ![1, 0, 0] w slices_S3x16x128_S1x16x128_1_0_0) shapeCasts_S1x16x128_S16x128
def ES2 (w : FVec Ideal S3x16x128 .f32) : FVec Ideal S16x128 .f32 :=
  shapeCast S16x128 (extractStridedSlice S1x16x128 ![2, 0, 0] w slices_S3x16x128_S1x16x128_2_0_0) shapeCasts_S1x16x128_S16x128

def VS0 (v : FVec Ideal S3x128 .f32) : FVec Ideal S128 .f32 :=
  shapeCast S128 (extractStridedSlice S1x128 ![0, 0] v slices_S3x128_S1x128_0_0) shapeCasts_S1x128_S128
def VS1 (v : FVec Ideal S3x128 .f32) : FVec Ideal S128 .f32 :=
  shapeCast S128 (extractStridedSlice S1x128 ![1, 0] v slices_S3x128_S1x128_1_0) shapeCasts_S1x128_S128
def VS2 (v : FVec Ideal S3x128 .f32) : FVec Ideal S128 .f32 :=
  shapeCast S128 (extractStridedSlice S1x128 ![2, 0] v slices_S3x128_S1x128_2_0) shapeCasts_S1x128_S128

def LAYER0 (h : FVec Ideal S100000x128 .f32) (ei : IVec S2x600000 32) (ea : FVec Ideal S600000x16 .f32)
    (W_root : FVec Ideal S3x128x128 .f32) (b_root : FVec Ideal S3x128 .f32) (W_nbr : FVec Ideal S3x128x128 .f32)
    (W_edge : FVec Ideal S3x16x128 .f32) (gamma beta : FVec Ideal S3x128 .f32) : FVec Ideal S100000x128 .f32 :=
  let h1 := H1 h (SRC ei) (DST ei) ea (WS0 W_root) (WS0 W_nbr) (ES0 W_edge) (VS0 b_root)
  TAIL h1 (MU h1) (VAR h1) (VS0 gamma) (VS0 beta)

def LAYER1 (h : FVec Ideal S100000x128 .f32) (ei : IVec S2x600000 32) (ea : FVec Ideal S600000x16 .f32)
    (W_root : FVec Ideal S3x128x128 .f32) (b_root : FVec Ideal S3x128 .f32) (W_nbr : FVec Ideal S3x128x128 .f32)
    (W_edge : FVec Ideal S3x16x128 .f32) (gamma beta : FVec Ideal S3x128 .f32) : FVec Ideal S100000x128 .f32 :=
  let h1 := H1 h (SRC ei) (DST ei) ea (WS1 W_root) (WS1 W_nbr) (ES1 W_edge) (VS1 b_root)
  TAIL h1 (MU h1) (VAR h1) (VS1 gamma) (VS1 beta)

def LAYER2 (h : FVec Ideal S100000x128 .f32) (ei : IVec S2x600000 32) (ea : FVec Ideal S600000x16 .f32)
    (W_root : FVec Ideal S3x128x128 .f32) (b_root : FVec Ideal S3x128 .f32) (W_nbr : FVec Ideal S3x128x128 .f32)
    (W_edge : FVec Ideal S3x16x128 .f32) (gamma beta : FVec Ideal S3x128 .f32) : FVec Ideal S100000x128 .f32 :=
  let h1 := H1 h (SRC ei) (DST ei) ea (WS2 W_root) (WS2 W_nbr) (ES2 W_edge) (VS2 b_root)
  TAIL h1 (MU h1) (VAR h1) (VS2 gamma) (VS2 beta)

def POOL (h : FVec Ideal S100000x128 .f32) (batch sb : IVec S100000 32) (sib : IVec S4096 32) (ns : IVec S512 32) :
    FVec Ideal S512x128 .f32 :=

  let run : IVec S512 32 :=
    Host.reduceWindow IntOp.addi ![512] ![1] ![511] ![0] ns
      (broadcastInDim S_ ![] bcast_S_S_ (constantI S_ 32 0#32)) reduceWindows_S512_S512_w512s1p511_0 h_S_
  let tmp : IVec S513 32 :=
    concatenate S513 0 [⟨S1, broadcastInDim S1 ![] bcast_S_S1 (constantI S_ 32 0#32)⟩, ⟨S512, run⟩]
      concatenates_S1_S512_S513_d0

  let neg : IVec S100000 1 := cmpi .slt batch (broadcastInDim S100000 ![] bcast_S_S100000 (constantI S_ 32 0#32))
  let wrapped : IVec S100000 32 :=
    select neg (addi batch (broadcastInDim S100000 ![] bcast_S_S100000 (constantI S_ 32 513#32))) batch
  let sid : IVec S100000 32 :=
    addi sb (Host.gather gather_S513_S100000x1_S100000_n_0_n_n_0_1_1 tmp
      (broadcastInDim S100000x1 ![0] bcast_S100000_S100000x1_0 wrapped))

  let sum1 : FVec Ideal S4096x128 .f32 :=
    Host.scatterAdd (F := Ideal) scatter_S4096x128_S100000x1_S100000x128_1_0_0_1
      (broadcastInDim S4096x128 ![] bcast_S_S4096x128 (constant (F := Ideal) S_ .f32 0x00000000#32))
      (broadcastInDim S100000x1 ![0] bcast_S100000_S100000x1_0 sid) h
  let cnt1 : FVec Ideal S4096x1 .f32 :=
    Host.scatterAdd (F := Ideal) scatter_S4096x1_S100000x1_S100000x1_1_0_0_1
      (broadcastInDim S4096x1 ![] bcast_S_S4096x1 (constant (F := Ideal) S_ .f32 0x00000000#32))
      (broadcastInDim S100000x1 ![0] bcast_S100000_S100000x1_0 sid)
      (broadcastInDim S100000x1 ![] bcast_S_S100000x1 (constant (F := Ideal) S_ .f32 0x3F800000#32))
  let mean1 : FVec Ideal S4096x128 .f32 :=
    Host.divf (F := Ideal) sum1
      (broadcastInDim S4096x128 ![0, 1] bcast_S4096x1_S4096x128_0_1
        (maximumf (F := Ideal) cnt1
          (broadcastInDim S4096x1 ![] bcast_S_S4096x1 (constant (F := Ideal) S_ .f32 0x3F800000#32))))

  let sum2 : FVec Ideal S512x128 .f32 :=
    Host.scatterAdd (F := Ideal) scatter_S512x128_S4096x1_S4096x128_1_0_0_1
      (broadcastInDim S512x128 ![] bcast_S_S512x128 (constant (F := Ideal) S_ .f32 0x00000000#32))
      (broadcastInDim S4096x1 ![0] bcast_S4096_S4096x1_0 sib) mean1
  let cnt2 : FVec Ideal S512x1 .f32 :=
    Host.scatterAdd (F := Ideal) scatter_S512x1_S4096x1_S4096x1_1_0_0_1
      (broadcastInDim S512x1 ![] bcast_S_S512x1 (constant (F := Ideal) S_ .f32 0x00000000#32))
      (broadcastInDim S4096x1 ![0] bcast_S4096_S4096x1_0 sib)
      (broadcastInDim S4096x1 ![] bcast_S_S4096x1 (constant (F := Ideal) S_ .f32 0x3F800000#32))
  Host.divf (F := Ideal) sum2
    (broadcastInDim S512x128 ![0, 1] bcast_S512x1_S512x128_0_1
      (maximumf (F := Ideal) cnt2
        (broadcastInDim S512x1 ![] bcast_S_S512x1 (constant (F := Ideal) S_ .f32 0x3F800000#32))))

def MLP (hg : FVec Ideal S512x128 .f32) (w1 : FVec Ideal S128x256 .f32) (b1 : FVec Ideal S256 .f32)
    (w2 : FVec Ideal S256x10 .f32) (b2 : FVec Ideal S10 .f32) : FVec Ideal S512x10 .f32 :=
  let hid : FVec Ideal S512x256 .f32 :=
    maximumf (F := Ideal)
      (addf (F := Ideal)
        (Host.dotGeneral (F := Ideal) dot_S512x128_S128x256_S512x256_1_0_0_1_n_n none hg w1)
        (broadcastInDim S512x256 ![0, 1] bcast_S1x256_S512x256_0_1 (broadcastInDim S1x256 ![1] bcast_S256_S1x256_1 b1)))
      (broadcastInDim S512x256 ![] bcast_S_S512x256 (constant (F := Ideal) S_ .f32 0x00000000#32))
  addf (F := Ideal)
    (Host.dotGeneral (F := Ideal) dot_S512x256_S256x10_S512x10_1_0_0_1_n_n none hid w2)
    (broadcastInDim S512x10 ![0, 1] bcast_S1x10_S512x10_0_1 (broadcastInDim S1x10 ![1] bcast_S10_S1x10_1 b2))

def OUT (a0 : FVec Ideal S100000x128 .f32) (a1 : IVec S2x600000 32) (a2 : FVec Ideal S600000x16 .f32)
    (a3 a4 : IVec S100000 32) (a5 : IVec S4096 32) (a6 : IVec S512 32)
    (a7 : FVec Ideal S128x128 .f32) (a8 : FVec Ideal S128 .f32)
    (a9 : FVec Ideal S3x128x128 .f32) (a10 : FVec Ideal S3x128 .f32) (a11 : FVec Ideal S3x128x128 .f32)
    (a12 : FVec Ideal S3x16x128 .f32) (a13 a14 : FVec Ideal S3x128 .f32)
    (a15 : FVec Ideal S128x256 .f32) (a16 : FVec Ideal S256 .f32) (a17 : FVec Ideal S256x10 .f32)
    (a18 : FVec Ideal S10 .f32) : FVec Ideal S512x10 .f32 :=
  MLP
    (POOL
      (LAYER2 (LAYER1 (LAYER0 (ENC a0 a7 a8) a1 a2 a9 a10 a11 a12 a13 a14) a1 a2 a9 a10 a11 a12 a13 a14)
        a1 a2 a9 a10 a11 a12 a13 a14)
      a3 a4 a5 a6)
    a15 a16 a17 a18

end Cert.Stage

end
-- ==== Proof.RefValue.lean ====
import proofs.«425797_j7249904796358_2_alg».proof.Proof.Stage
import proofs.«425797_j7249904796358_2_alg».proof.Proof.RefRun

noncomputable section

namespace Cert.RefValue

open Idealize.ShloMosaic Idealize.ShloMosaic.StableHlo Idealize.ShloMosaic.TcCoe Idealize.SL.Sem
open Cert.ReferenceIdeal Cert.ReferenceIdeal.Gen Cert.ReferenceIdeal.Hand Cert.Stage

abbrev St : Type := Valuation τ sig (Elt Ideal)

def ROWS (v : FVec Ideal S128 .f32) : FVec Ideal S100000x128 .f32 :=
  broadcastInDim S100000x128 ![0, 1] bcast_S1x128_S100000x128_0_1 (broadcastInDim S1x128 ![1] bcast_S128_S1x128_1 v)

def EPSV : FVec Ideal S128 .f32 :=
  broadcastInDim S128 ![] bcast_S_S128 (constant (F := Ideal) S_ .f32 0x3727C5AC#32)

def CEN (h1 : FVec Ideal S100000x128 .f32) (mu : FVec Ideal S128 .f32) : FVec Ideal S100000x128 .f32 :=
  subf (F := Ideal) h1 (ROWS mu)

def INV (var : FVec Ideal S128 .f32) : FVec Ideal S100000x128 .f32 :=
  ROWS (Host.rsqrt (F := Ideal) (addf (F := Ideal) var EPSV))

def TAILB (cen inv : FVec Ideal S100000x128 .f32) (g be : FVec Ideal S128 .f32) : FVec Ideal S100000x128 .f32 :=
  maximumf (F := Ideal)
    (addf (F := Ideal) (mulf (F := Ideal) (mulf (F := Ideal) cen inv) (ROWS g)) (ROWS be))
    (broadcastInDim S100000x128 ![] bcast_S_S100000x128 (constant (F := Ideal) S_ .f32 0x00000000#32))

def SUM2 (h : FVec Ideal S100000x128 .f32) (batch sb : IVec S100000 32) (sib : IVec S4096 32) (ns : IVec S512 32) :
    FVec Ideal S512x128 .f32 :=
  let run : IVec S512 32 :=
    Host.reduceWindow IntOp.addi ![512] ![1] ![511] ![0] ns
      (broadcastInDim S_ ![] bcast_S_S_ (constantI S_ 32 0#32)) reduceWindows_S512_S512_w512s1p511_0 h_S_
  let tmp : IVec S513 32 :=
    concatenate S513 0 [⟨S1, broadcastInDim S1 ![] bcast_S_S1 (constantI S_ 32 0#32)⟩, ⟨S512, run⟩]
      concatenates_S1_S512_S513_d0
  let neg : IVec S100000 1 := cmpi .slt batch (broadcastInDim S100000 ![] bcast_S_S100000 (constantI S_ 32 0#32))
  let wrapped : IVec S100000 32 :=
    select neg (addi batch (broadcastInDim S100000 ![] bcast_S_S100000 (constantI S_ 32 513#32))) batch
  let sid : IVec S100000 32 :=
    addi sb (Host.gather gather_S513_S100000x1_S100000_n_0_n_n_0_1_1 tmp
      (broadcastInDim S100000x1 ![0] bcast_S100000_S100000x1_0 wrapped))
  let sum1 : FVec Ideal S4096x128 .f32 :=
    Host.scatterAdd (F := Ideal) scatter_S4096x128_S100000x1_S100000x128_1_0_0_1
      (broadcastInDim S4096x128 ![] bcast_S_S4096x128 (constant (F := Ideal) S_ .f32 0x00000000#32))
      (broadcastInDim S100000x1 ![0] bcast_S100000_S100000x1_0 sid) h
  let cnt1 : FVec Ideal S4096x1 .f32 :=
    Host.scatterAdd (F := Ideal) scatter_S4096x1_S100000x1_S100000x1_1_0_0_1
      (broadcastInDim S4096x1 ![] bcast_S_S4096x1 (constant (F := Ideal) S_ .f32 0x00000000#32))
      (broadcastInDim S100000x1 ![0] bcast_S100000_S100000x1_0 sid)
      (broadcastInDim S100000x1 ![] bcast_S_S100000x1 (constant (F := Ideal) S_ .f32 0x3F800000#32))
  let mean1 : FVec Ideal S4096x128 .f32 :=
    Host.divf (F := Ideal) sum1
      (broadcastInDim S4096x128 ![0, 1] bcast_S4096x1_S4096x128_0_1
        (maximumf (F := Ideal) cnt1
          (broadcastInDim S4096x1 ![] bcast_S_S4096x1 (constant (F := Ideal) S_ .f32 0x3F800000#32))))
  Host.scatterAdd (F := Ideal) scatter_S512x128_S4096x1_S4096x128_1_0_0_1
    (broadcastInDim S512x128 ![] bcast_S_S512x128 (constant (F := Ideal) S_ .f32 0x00000000#32))
    (broadcastInDim S4096x1 ![0] bcast_S4096_S4096x1_0 sib) mean1

def CNT2 (sib : IVec S4096 32) : FVec Ideal S512x1 .f32 :=
  Host.scatterAdd (F := Ideal) scatter_S512x1_S4096x1_S4096x1_1_0_0_1
    (broadcastInDim S512x1 ![] bcast_S_S512x1 (constant (F := Ideal) S_ .f32 0x00000000#32))
    (broadcastInDim S4096x1 ![0] bcast_S4096_S4096x1_0 sib)
    (broadcastInDim S4096x1 ![] bcast_S_S4096x1 (constant (F := Ideal) S_ .f32 0x3F800000#32))

def QUOT (sum2 : FVec Ideal S512x128 .f32) (cnt2 : FVec Ideal S512x1 .f32) (one : FVec Ideal S_ .f32) :
    FVec Ideal S512x128 .f32 :=
  Host.divf (F := Ideal) sum2
    (broadcastInDim S512x128 ![0, 1] bcast_S512x1_S512x128_0_1
      (maximumf (F := Ideal) cnt2 (broadcastInDim S512x1 ![] bcast_S_S512x1 one)))

theorem POOL_eq (h : FVec Ideal S100000x128 .f32) (batch sb : IVec S100000 32) (sib : IVec S4096 32) (ns : IVec S512 32) :
    POOL h batch sb sib ns
      = QUOT (SUM2 h batch sb sib ns) (CNT2 sib) (constant (F := Ideal) S_ .f32 0x3F800000#32) := rfl

theorem kept0 {r : Ref sig .tc} (h : r.idx.val < 19) (W : St) :
    after (ops0 (F := Ideal)) W (Proc.devRef .tc r) = W (Proc.devRef .tc r) := kept_of parts_writes.1 h W
theorem kept1 {r : Ref sig .tc} (h : r.idx.val < 19) (W : St) :
    after (ops1 (F := Ideal)) W (Proc.devRef .tc r) = W (Proc.devRef .tc r) := kept_of parts_writes.2.1 h W
theorem kept2 {r : Ref sig .tc} (h : r.idx.val < 19) (W : St) :
    after (ops2 (F := Ideal)) W (Proc.devRef .tc r) = W (Proc.devRef .tc r) := kept_of parts_writes.2.2.1 h W
theorem kept3 {r : Ref sig .tc} (h : r.idx.val < 19) (W : St) :
    after (ops3 (F := Ideal)) W (Proc.devRef .tc r) = W (Proc.devRef .tc r) := kept_of parts_writes.2.2.2.1 h W

def A0 (W : St) : FVec Ideal S100000x128 .f32 :=
  H1 (ENC (W main_arg0) (W main_arg7) (W main_arg8)) (SRC (W main_arg1)) (DST (W main_arg1)) (W main_arg2)
    (WS0 (W main_arg9)) (WS0 (W main_arg11)) (ES0 (W main_arg12)) (VS0 (W main_arg10))

set_option maxHeartbeats 4000000 in
theorem w0_v1 (W : St) : after (ops0 (F := Ideal)) W (main_v1 : DevRef τ sig) = SRC (W main_arg1) := by
  after_results_simp <;> rfl
set_option maxHeartbeats 4000000 in
theorem w0_v3 (W : St) : after (ops0 (F := Ideal)) W (main_v3 : DevRef τ sig) = DST (W main_arg1) := by
  after_results_simp <;> rfl
set_option maxHeartbeats 4000000 in
theorem w0_v46 (W : St) : after (ops0 (F := Ideal)) W (main_v46 : DevRef τ sig) = CEN (A0 W) (MU (A0 W)) := by
  after_results_simp <;> rfl
set_option maxHeartbeats 4000000 in
theorem w0_v51 (W : St) : after (ops0 (F := Ideal)) W (main_v51 : DevRef τ sig) = INV (VAR (A0 W)) := by
  after_results_simp <;> rfl

def X1 (W : St) : FVec Ideal S100000x128 .f32 :=
  TAILB (W main_v46) (W main_v51) (VS0 (W main_arg13)) (VS0 (W main_arg14))

def A1 (W : St) : FVec Ideal S100000x128 .f32 :=
  H1 (X1 W) (W main_v1) (W main_v3) (W main_arg2)
    (WS1 (W main_arg9)) (WS1 (W main_arg11)) (ES1 (W main_arg12)) (VS1 (W main_arg10))

set_option maxHeartbeats 4000000 in
theorem w1_v1 (W : St) : after (ops1 (F := Ideal)) W (main_v1 : DevRef τ sig) = W main_v1 := by
  after_results_simp <;> rfl
set_option maxHeartbeats 4000000 in
theorem w1_v3 (W : St) : after (ops1 (F := Ideal)) W (main_v3 : DevRef τ sig) = W main_v3 := by
  after_results_simp <;> rfl
set_option maxHeartbeats 4000000 in
theorem w1_v99 (W : St) : after (ops1 (F := Ideal)) W (main_v99 : DevRef τ sig) = VAR (A1 W) := by
  after_results_simp <;> rfl
set_option maxHeartbeats 4000000 in
theorem w1_v102 (W : St) : after (ops1 (F := Ideal)) W (main_v102 : DevRef τ sig) = CEN (A1 W) (MU (A1 W)) := by
  after_results_simp <;> rfl
set_option maxHeartbeats 4000000 in
theorem w1_v103 (W : St) : after (ops1 (F := Ideal)) W (main_v103 : DevRef τ sig) = EPSV := by
  after_results_simp <;> rfl

def X2 (W : St) : FVec Ideal S100000x128 .f32 :=
  TAILB (W main_v102) (ROWS (Host.rsqrt (F := Ideal) (addf (F := Ideal) (W main_v99) (W main_v103))))
    (VS1 (W main_arg13)) (VS1 (W main_arg14))

def A2 (W : St) : FVec Ideal S100000x128 .f32 :=
  H1 (X2 W) (W main_v1) (W main_v3) (W main_arg2)
    (WS2 (W main_arg9)) (WS2 (W main_arg11)) (ES2 (W main_arg12)) (VS2 (W main_arg10))

set_option maxHeartbeats 4000000 in
theorem w2_v145 (W : St) : after (ops2 (F := Ideal)) W (main_v145 : DevRef τ sig) = A2 W := by
  after_results_simp <;> rfl
set_option maxHeartbeats 4000000 in
theorem w2_v155 (W : St) : after (ops2 (F := Ideal)) W (main_v155 : DevRef τ sig) = VAR (A2 W) := by
  after_results_simp <;> rfl
set_option maxHeartbeats 4000000 in
theorem w2_v156 (W : St) : after (ops2 (F := Ideal)) W (main_v156 : DevRef τ sig)
    = broadcastInDim S1x128 ![1] bcast_S128_S1x128_1 (MU (A2 W)) := by
  after_results_simp <;> rfl

def X3 (W : St) : FVec Ideal S100000x128 .f32 :=
  TAILB (subf (F := Ideal) (W main_v145) (broadcastInDim S100000x128 ![0, 1] bcast_S1x128_S100000x128_0_1 (W main_v156)))
    (INV (W main_v155)) (VS2 (W main_arg13)) (VS2 (W main_arg14))

set_option maxHeartbeats 4000000 in
theorem w3_v200 (W : St) : after (ops3 (F := Ideal)) W (main_v200 : DevRef τ sig)
    = SUM2 (X3 W) (W main_arg3) (W main_arg4) (W main_arg5) (W main_arg6) := by
  after_results_simp <;> rfl
set_option maxHeartbeats 4000000 in
theorem w3_v204 (W : St) : after (ops3 (F := Ideal)) W (main_v204 : DevRef τ sig) = CNT2 (W main_arg5) := by
  after_results_simp <;> rfl
set_option maxHeartbeats 4000000 in
theorem w3_cst32 (W : St) : after (ops3 (F := Ideal)) W (main_cst_32 : DevRef τ sig)
    = constant (F := Ideal) S_ .f32 0x3F800000#32 := by
  after_results_simp <;> rfl

set_option maxHeartbeats 4000000 in
theorem w4_v217 (W : St) : after (ops4 (F := Ideal)) W (main_v217 : DevRef τ sig)
    = MLP (QUOT (W main_v200) (W main_v204) (W main_cst_32)) (W main_arg15) (W main_arg16) (W main_arg17) (W main_arg18) := by
  after_results_simp <;> rfl

def L0 (V : St) : FVec Ideal S100000x128 .f32 :=
  LAYER0 (ENC (V main_arg0) (V main_arg7) (V main_arg8)) (V main_arg1) (V main_arg2) (V main_arg9) (V main_arg10)
    (V main_arg11) (V main_arg12) (V main_arg13) (V main_arg14)
def L1 (V : St) : FVec Ideal S100000x128 .f32 :=
  LAYER1 (L0 V) (V main_arg1) (V main_arg2) (V main_arg9) (V main_arg10)
    (V main_arg11) (V main_arg12) (V main_arg13) (V main_arg14)
def L2 (V : St) : FVec Ideal S100000x128 .f32 :=
  LAYER2 (L1 V) (V main_arg1) (V main_arg2) (V main_arg9) (V main_arg10)
    (V main_arg11) (V main_arg12) (V main_arg13) (V main_arg14)

def B1 (V : St) : FVec Ideal S100000x128 .f32 :=
  H1 (L0 V) (SRC (V main_arg1)) (DST (V main_arg1)) (V main_arg2)
    (WS1 (V main_arg9)) (WS1 (V main_arg11)) (ES1 (V main_arg12)) (VS1 (V main_arg10))
def B2 (V : St) : FVec Ideal S100000x128 .f32 :=
  H1 (L1 V) (SRC (V main_arg1)) (DST (V main_arg1)) (V main_arg2)
    (WS2 (V main_arg9)) (WS2 (V main_arg11)) (ES2 (V main_arg12)) (VS2 (V main_arg10))

theorem x1_eq (V : St) : X1 (after (ops0 (F := Ideal)) V) = L0 V := by
  unfold X1
  rw [w0_v46, w0_v51, kept0 (r := main_arg13) (by decide), kept0 (r := main_arg14) (by decide)]
  rfl

theorem a1_eq (V : St) : A1 (after (ops0 (F := Ideal)) V) = B1 V := by
  unfold A1 B1
  rw [x1_eq, w0_v1, w0_v3, kept0 (r := main_arg2) (by decide), kept0 (r := main_arg9) (by decide), kept0 (r := main_arg11) (by decide), kept0 (r := main_arg12) (by decide), kept0 (r := main_arg10) (by decide)]

theorem x2_eq (V : St) : X2 (after (ops1 (F := Ideal)) (after (ops0 (F := Ideal)) V)) = L1 V := by
  unfold X2
  rw [w1_v102, w1_v99, w1_v103, a1_eq, kept1 (r := main_arg13) (by decide), kept0 (r := main_arg13) (by decide), kept1 (r := main_arg14) (by decide), kept0 (r := main_arg14) (by decide)]
  rfl

theorem a2_eq (V : St) : A2 (after (ops1 (F := Ideal)) (after (ops0 (F := Ideal)) V)) = B2 V := by
  unfold A2 B2
  rw [x2_eq, w1_v1, w1_v3, w0_v1, w0_v3, kept1 (r := main_arg2) (by decide), kept0 (r := main_arg2) (by decide), kept1 (r := main_arg9) (by decide), kept0 (r := main_arg9) (by decide), kept1 (r := main_arg11) (by decide), kept0 (r := main_arg11) (by decide), kept1 (r := main_arg12) (by decide), kept0 (r := main_arg12) (by decide), kept1 (r := main_arg10) (by decide), kept0 (r := main_arg10) (by decide)]

theorem x3_eq (V : St) :
    X3 (after (ops2 (F := Ideal)) (after (ops1 (F := Ideal)) (after (ops0 (F := Ideal)) V))) = L2 V := by
  unfold X3
  rw [w2_v145, w2_v156, w2_v155, a2_eq, kept2 (r := main_arg13) (by decide), kept1 (r := main_arg13) (by decide), kept0 (r := main_arg13) (by decide), kept2 (r := main_arg14) (by decide), kept1 (r := main_arg14) (by decide), kept0 (r := main_arg14) (by decide)]
  rfl

theorem ref_value (V : St) :
    after (ops (F := Ideal)) V (main_v217 : DevRef τ sig)
      = OUT (V main_arg0) (V main_arg1) (V main_arg2) (V main_arg3) (V main_arg4) (V main_arg5) (V main_arg6)
          (V main_arg7) (V main_arg8) (V main_arg9) (V main_arg10) (V main_arg11) (V main_arg12) (V main_arg13)
          (V main_arg14) (V main_arg15) (V main_arg16) (V main_arg17) (V main_arg18) := by
  rw [after_ops, w4_v217, w3_v200, w3_v204, w3_cst32, x3_eq,
    kept3 (r := main_arg15) (by decide), kept2 (r := main_arg15) (by decide), kept1 (r := main_arg15) (by decide), kept0 (r := main_arg15) (by decide),
    kept3 (r := main_arg16) (by decide), kept2 (r := main_arg16) (by decide), kept1 (r := main_arg16) (by decide), kept0 (r := main_arg16) (by decide),
    kept3 (r := main_arg17) (by decide), kept2 (r := main_arg17) (by decide), kept1 (r := main_arg17) (by decide), kept0 (r := main_arg17) (by decide),
    kept3 (r := main_arg18) (by decide), kept2 (r := main_arg18) (by decide), kept1 (r := main_arg18) (by decide), kept0 (r := main_arg18) (by decide),
    kept2 (r := main_arg3) (by decide), kept1 (r := main_arg3) (by decide), kept0 (r := main_arg3) (by decide),
    kept2 (r := main_arg4) (by decide), kept1 (r := main_arg4) (by decide), kept0 (r := main_arg4) (by decide),
    kept2 (r := main_arg5) (by decide), kept1 (r := main_arg5) (by decide), kept0 (r := main_arg5) (by decide),
    kept2 (r := main_arg6) (by decide), kept1 (r := main_arg6) (by decide), kept0 (r := main_arg6) (by decide),
    ← POOL_eq]
  rfl

end Cert.RefValue

end
-- ==== Proof.LayerSpec.lean ====
import Idealize.ShloMosaic.PureOps.Ideal
import Mathlib.Algebra.BigOperators.Group.Finset.Basic

noncomputable section

open scoped BigOperators

namespace Cert.LayerSpec

open Idealize.ShloMosaic

variable {P E C D : Nat}

def into (d : Fin E → Int) (i : Fin P) : Finset (Fin E) := Finset.univ.filter fun e => d e = (i.val : Int)

def seg {K : Nat} (d : Fin E → Int) (u : Fin E → Fin K → EReal) (i : Fin P) (k : Fin K) : EReal :=
  0 + ∑ e ∈ into d i, u e k

def mm {M K N : Nat} (x : Fin M → Fin K → EReal) (w : Fin K → Fin N → EReal) (i : Fin M) (j : Fin N) : EReal :=
  ∑ k, x i k * w k j

def h1R (h : Fin P → Fin C → EReal) (s : Fin E → Fin P) (d : Fin E → Int) (ea : Fin E → Fin D → EReal)
    (wr wn : Fin C → Fin C → EReal) (we : Fin D → Fin C → EReal) (b : Fin C → EReal) (i : Fin P) (j : Fin C) : EReal :=
  (mm h wr i j + b j) + seg d (fun e j' => mm (fun e' k => h (s e') k) wn e j' + mm ea we e j') i j

def h1K (h : Fin P → Fin C → EReal) (s : Fin E → Fin P) (d : Fin E → Int) (ea : Fin E → Fin D → EReal)
    (wr wn : Fin C → Fin C → EReal) (we : Fin D → Fin C → EReal) (b : Fin C → EReal) (i : Fin P) (j : Fin C) : EReal :=
  ((mm h wr i j + mm (seg (P := P) d fun e k => h (s e) k) wn i j) + mm (seg (P := P) d ea) we i j) + b j

end Cert.LayerSpec

end
-- ==== Proof.LibScatterSum.lean ====
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

theorem getElem_of_eq_singleton {α : Type*} {l : List α} {a : α} (h : l = [a]) (k : Nat) (hk : k < l.length) :
    l[k] = a := by
  subst h
  have hk0 : k = 0 := by simpa using hk
  subst hk0
  rfl

theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

section General
variable {s si u : Shape} (d : ScatterDims s si u)

theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

theorem start_of_not_mem {w : Nat} (j : u.Idx) (idx : IVec si w) (a : Fin s.rank)
    (ha : a ∉ d.scatterDimsToOperandDims) : d.start j idx a = 0 := by
  unfold ScatterDims.start
  rw [dif_neg ha]

theorem window_of_not_mem (j : u.Idx) (a : Fin s.rank) (ha : a ∉ d.sKept) : d.window j a = 0 := by
  unfold ScatterDims.window
  rw [dif_neg ha]

theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

section Rows
variable {P C N w : Nat}

theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

section Flat
variable {P N w : Nat}

end Flat

end Idealize.ShloMosaic.ScatterSum

end
-- ==== Proof.LibGatherRows.lean ====
import Idealize.ShloMosaic.PureOps.ShapeOps
import Idealize.ShloMosaic.Lib.ValueIdx
import proofs.«425797_j7249904796358_2_alg».proof.Proof.LibScatterSum

namespace Idealize.ShloMosaic.GatherRows

open Idealize.ShloMosaic Idealize.ShloMosaic.ValueIdx Idealize.ShloMosaic.ScatterSum

section Rows
variable {α : Type} {P C N w : Nat}

theorem siIdx_rows (d : GatherDims (⟨2, ![P, C]⟩ : Shape) (⟨2, ![N, 1]⟩ : Shape) (⟨2, ![N, C]⟩ : Shape))
    (hod : d.offsetDims = [1]) (hiv : d.indexVectorDim = 1) (n : Fin N) (ch : Fin C)
    (c : Fin d.startIndexMap.length) : d.siIdx (ix2 n ch) c = ix2 n (0 : Fin 1) := by
  have hbd : d.batchDims = [0] := by
    show Shape.kept _ d.offsetDims = [0]
    rw [hod]; rfl
  funext b
  refine Fin.ext ?_
  match b with
  | ⟨0, hb⟩ =>
    unfold GatherDims.siIdx
    rw [dif_neg (by rw [hiv]; exact Nat.zero_ne_one)]
    unfold GatherDims.siCoord
    exact congrArg (fun e => (ix2 n ch e).val) (getElem_of_eq_singleton hbd _ _)
  | ⟨1, hb⟩ =>
    have h1 : (d.siIdx (ix2 n ch) c ⟨1, hb⟩).val < 1 := (d.siIdx (ix2 n ch) c ⟨1, hb⟩).isLt
    show (d.siIdx (ix2 n ch) c ⟨1, hb⟩).val = 0
    omega

theorem gather_rows_apply (hP : 0 < P)
    (d : GatherDims (⟨2, ![P, C]⟩ : Shape) (⟨2, ![N, 1]⟩ : Shape) (⟨2, ![N, C]⟩ : Shape))
    (hod : d.offsetDims = [1]) (hcd : d.collapsedSliceDims = [0]) (hob : d.operandBatchingDims = [])
    (hsm : d.startIndexMap = [0]) (hiv : d.indexVectorDim = 1) (hss : d.sliceSizes 0 = 1)
    (x : (⟨2, ![P, C]⟩ : Shape).Idx → α) (idx : IVec (⟨2, ![N, 1]⟩ : Shape) w) (n : Fin N) (ch : Fin C) :
    Host.gather d x idx (ix2 n ch)
      = x (ix2 (⟨min (idx (ix2 n (0 : Fin 1))).toInt.toNat (P - 1), by omega⟩ : Fin P) ch) := by
  have h10 : ¬ (1 : Fin 2) = 0 := fun h => absurd (congrArg Fin.val h) Nat.one_ne_zero
  have h0mem : (0 : Fin 2) ∈ d.startIndexMap := by rw [hsm]; exact List.mem_singleton.2 rfl
  have h1nmem : (1 : Fin 2) ∉ d.startIndexMap := by
    rw [hsm]; exact fun h => h10 (List.mem_singleton.1 h)
  have hnb : ∀ a : Fin 2, a ∉ d.operandBatchingDims := by
    intro a; rw [hob]; exact List.not_mem_nil
  have h0k : (0 : Fin 2) ∉ d.sKept := fun h =>
    ((d.mem_sKept _).1 h).1 (by rw [hcd]; exact List.mem_singleton.2 rfl)
  have h1k : (1 : Fin 2) ∈ d.sKept :=
    (d.mem_sKept _).2 ⟨by rw [hcd]; exact fun h => h10 (List.mem_singleton.1 h), hnb 1⟩
  unfold Host.gather
  congr 1
  funext a
  refine Fin.ext ?_
  match a with
  | ⟨0, _⟩ =>
    show d.start (ix2 n ch) idx 0 + d.batchCoord (ix2 n ch) 0 + d.offCoord (ix2 n ch) 0
      = min (idx (ix2 n (0 : Fin 1))).toInt.toNat (P - 1)
    rw [d.batchCoord_eq_zero _ _ (hnb 0), d.offCoord_eq_zero _ _ h0k]
    unfold GatherDims.start
    rw [dif_pos h0mem, siIdx_rows d hod hiv n ch, hss]
    rfl
  | ⟨1, _⟩ =>
    show d.start (ix2 n ch) idx 1 + d.batchCoord (ix2 n ch) 1 + d.offCoord (ix2 n ch) 1 = ch.val
    rw [d.batchCoord_eq_zero _ _ (hnb 1)]
    unfold GatherDims.start GatherDims.offCoord
    rw [dif_neg h1nmem, dif_pos h1k]
    show 0 + 0 + ((ix2 n ch) (d.offsetDims[d.sKept.idxOf 1]'_)).val = ch.val
    simp only [Nat.zero_add]
    exact congrArg (fun e => (ix2 n ch e).val) (getElem_of_eq_singleton hod _ _)

end Rows

end Idealize.ShloMosaic.GatherRows
-- ==== Proof.LibDot.lean ====
import Idealize.ShloMosaic.Lib.ValueLayout
import Idealize.ShloMosaic.Lib.IdealHost
import Idealize.ShloMosaic.PureOps.Ideal.Laws
import Mathlib.Algebra.BigOperators.Group.Finset.Basic
import proofs.«425797_j7249904796358_2_alg».proof.Proof.LibScatterSum

noncomputable section

open scoped BigOperators

namespace Cert.Stage.At

open Idealize.ShloMosaic Idealize.ShloMosaic.ValueIdx Idealize.ShloMosaic.ScatterSum

section DotAny
variable {sl sr so : Shape} (d : DotDims sl sr so)

theorem lhsIdx_val_of_non (hb : d.lhsBatch = []) {a : Fin sl.rank} (hn : a ∈ d.lhsNonContracting) (j : so.Idx)
    (k : d.contr.Idx) (p : Fin so.rank) (hp : d.lhsNonContracting.idxOf a = p.val) :
    (d.lhsIdx j k a).val = (j p).val := by
  have hnb : a ∉ d.lhsBatch := by rw [hb]; exact List.not_mem_nil
  unfold DotDims.lhsIdx
  rw [dif_neg hnb, dif_pos hn]
  simp only [Fin.val_cast]
  have key : ∀ (p q : Nat) (hp : p < so.rank) (hq : q < so.rank), p = q → (j ⟨p, hp⟩).val = (j ⟨q, hq⟩).val :=
    fun p q hp hq h => by subst h; rfl
  exact key _ _ _ p.isLt (by rw [hb, hp]; exact Nat.zero_add _)

theorem rhsIdx_val_of_non (hlb : d.lhsBatch = []) (hrb : d.rhsBatch = []) {a : Fin sr.rank}
    (hn : a ∈ d.rhsNonContracting) (j : so.Idx) (k : d.contr.Idx) (p : Fin so.rank)
    (hp : d.lhsNonContracting.length + d.rhsNonContracting.idxOf a = p.val) :
    (d.rhsIdx j k a).val = (j p).val := by
  have hnb : a ∉ d.rhsBatch := by rw [hrb]; exact List.not_mem_nil
  unfold DotDims.rhsIdx
  rw [dif_neg hnb, dif_pos hn]
  simp only [Fin.val_cast]
  have key : ∀ (p q : Nat) (hp : p < so.rank) (hq : q < so.rank), p = q → (j ⟨p, hp⟩).val = (j ⟨q, hq⟩).val :=
    fun p q hp hq h => by subst h; rfl
  exact key _ _ _ p.isLt (by rw [hlb, ← hp]; exact congrArg (· + _) (Nat.zero_add _))

end DotAny

section Dot
variable {M K N : Nat} {φ₁ φ₂ : FTy}
  (d : DotDims (⟨2, ![M, K]⟩ : Shape) (⟨2, ![K, N]⟩ : Shape) (⟨2, ![M, N]⟩ : Shape))

theorem dot_contr_rank (hlc : d.lhsContracting = [1]) : d.contr.rank = 1 := by
  rw [d.rank_contr, hlc]; rfl

theorem dot_contr_size (hlc : d.lhsContracting = [1]) :
    d.contr.size ⟨0, by rw [dot_contr_rank d hlc]; exact Nat.one_pos⟩ = K := by
  have h0 : 0 < d.lhsContracting.length := by rw [hlc]; exact Nat.one_pos
  rw [d.size_contr 0 h0, getElem_of_eq_singleton hlc 0 h0]
  rfl

theorem dot_lhs_0 (hln : d.lhsNonContracting = [0]) (hlb : d.lhsBatch = [])
    (j : (⟨2, ![M, N]⟩ : Shape).Idx) (k : d.contr.Idx) : (d.lhsIdx j k 0).val = (j 0).val :=
  lhsIdx_val_of_non d hlb (by rw [hln]; exact List.mem_singleton.2 rfl) j k 0 (by rw [hln]; rfl)

theorem dot_lhs_1 (hlc : d.lhsContracting = [1]) (j : (⟨2, ![M, N]⟩ : Shape).Idx) (k : d.contr.Idx) :
    (d.lhsIdx j k 1).val = (k ⟨0, by rw [dot_contr_rank d hlc]; exact Nat.one_pos⟩).val :=
  d.lhsIdx_val_of_single hlc j k

theorem dot_rhs_0 (hrc : d.rhsContracting = [0]) (hlc : d.lhsContracting = [1]) (j : (⟨2, ![M, N]⟩ : Shape).Idx)
    (k : d.contr.Idx) : (d.rhsIdx j k 0).val = (k ⟨0, by rw [dot_contr_rank d hlc]; exact Nat.one_pos⟩).val :=
  d.rhsIdx_val_of_single hrc j k

theorem dot_rhs_1 (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val :=
  rhsIdx_val_of_non d hlb hrb (by rw [hrn]; exact List.mem_singleton.2 rfl) j k 1 (by rw [hln, hrn]; rfl)

-- Over the contraction index of a plain rows-by-columns product the operands are read at (a, c) and (c, b).
theorem contr_sum (hlc : d.lhsContracting = [1]) (hrc : d.rhsContracting = [0]) (hln : d.lhsNonContracting = [0])
    (hrn : d.rhsNonContracting = [1]) (hlb : d.lhsBatch = []) (hrb : d.rhsBatch = [])
    (A : FVec Ideal (⟨2, ![M, K]⟩ : Shape) φ₁) (B : FVec Ideal (⟨2, ![K, N]⟩ : Shape) φ₂) (a : Fin M) (b : Fin N) :
    ∑ k : d.contr.Idx, A (d.lhsIdx (ix2 a b) k) * B (d.rhsIdx (ix2 a b) k) = ∑ c : Fin K, A (ix2 a c) * B (ix2 c b) := by
  rw [← Equiv.sum_comp (contrEquiv1 d K (dot_contr_rank d hlc) (dot_contr_size d hlc)).symm]
  refine Finset.sum_congr rfl fun c _ => ?_
  have hc := contrEquiv1_symm_val d K (dot_contr_rank d hlc) (dot_contr_size d hlc) c
  have hl : d.lhsIdx (ix2 a b) ((contrEquiv1 d K (dot_contr_rank d hlc) (dot_contr_size d hlc)).symm c)
      = ix2 a c := by
    funext ax; apply Fin.ext
    match ax with
    | ⟨0, _⟩ => exact dot_lhs_0 d hln hlb _ _
    | ⟨1, _⟩ => exact (dot_lhs_1 d hlc _ _).trans hc
  have hr : d.rhsIdx (ix2 a b) ((contrEquiv1 d K (dot_contr_rank d hlc) (dot_contr_size d hlc)).symm c)
      = ix2 c b := by
    funext ax; apply Fin.ext
    match ax with
    | ⟨0, _⟩ => exact (dot_rhs_0 d hrc hlc _ _).trans hc
    | ⟨1, _⟩ => exact dot_rhs_1 d hln hrn hlb hrb _ _
  rw [hl, hr]

theorem dot_apply (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal (⟨2, ![M, K]⟩ : Shape) φ₁)
    (B : FVec Ideal (⟨2, ![K, N]⟩ : Shape) φ₂) (a : Fin M) (b : Fin N) :
    Host.dotGeneral (F := Ideal) d prec A B (ix2 a b) = ∑ c : Fin K, A (ix2 a c) * B (ix2 c b) :=
  (Ideal.dotGeneral_apply d prec .single A B (ix2 a b)).trans (contr_sum d hlc hrc hln hrn hlb hrb A B a b)

-- The same product accumulated into zeros.
theorem matmul_zero_apply (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal (⟨2, ![M, K]⟩ : Shape) φ₁)
    (B : FVec Ideal (⟨2, ![K, N]⟩ : Shape) φ₂) (a : Fin M) (b : Fin N) :
    FloatOps.matmul d prec A B (constant (F := Ideal) (⟨2, ![M, N]⟩ : Shape) .f32 0x00000000#32) (ix2 a b)
      = ∑ c : Fin K, A (ix2 a c) * B (ix2 c b) :=
  (Ideal.matmul_constant_zero_apply d prec A B (ix2 a b)).trans (contr_sum d hlc hrc hln hrn hlb hrb A B a b)

end Dot

end Cert.Stage.At

end
-- ==== Proof.StageApply.lean ====
import Idealize.ShloMosaic.Lib.ValueLayout
import Idealize.ShloMosaic.Lib.IdealHost
import Mathlib.Algebra.BigOperators.Group.Finset.Basic
import proofs.«425797_j7249904796358_2_alg».proof.Proof.Stage
import proofs.«425797_j7249904796358_2_alg».proof.Proof.LayerSpec
import proofs.«425797_j7249904796358_2_alg».proof.Proof.LibScatterSum
import proofs.«425797_j7249904796358_2_alg».proof.Proof.LibGatherRows
import proofs.«425797_j7249904796358_2_alg».proof.Proof.LibDot

noncomputable section

open scoped BigOperators

namespace Cert.Stage.At

open Idealize.ShloMosaic Idealize.ShloMosaic.ValueIdx Idealize.ShloMosaic.ScatterSum

section Bcast
variable {α : Type}

theorem bcast_C_1C_apply {C : Nat} (h : (⟨1, ![C]⟩ : Shape).BroadcastsInDim (⟨2, ![1, C]⟩ : Shape) ![1])
    (x : (⟨1, ![C]⟩ : Shape).Idx → α) (u : Fin 1) (j : Fin C) :
    broadcastInDim (⟨2, ![1, C]⟩ : Shape) ![1] h x (ix2 u j) = x (ix1 j) :=
  broadcastInDim_apply _ h x _ _ (fun a => by
    match a with
    | ⟨0, _⟩ =>
      show j.val = if C = 1 then 0 else j.val
      split
      · have := j.isLt; omega
      · rfl)

theorem bcast_1C_PC_apply {P C : Nat} (h : (⟨2, ![1, C]⟩ : Shape).BroadcastsInDim (⟨2, ![P, C]⟩ : Shape) ![0, 1])
    (x : (⟨2, ![1, C]⟩ : Shape).Idx → α) (i : Fin P) (j : Fin C) :
    broadcastInDim (⟨2, ![P, C]⟩ : Shape) ![0, 1] h x (ix2 i j) = x (ix2 (0 : Fin 1) j) :=
  broadcastInDim_apply _ h x _ _ (fun a => by
    match a with
    | ⟨0, _⟩ => rfl
    | ⟨1, _⟩ =>
      show j.val = if C = 1 then 0 else j.val
      split
      · have := j.isLt; omega
      · rfl)

theorem bias_apply {P C : Nat} (h1 : (⟨1, ![C]⟩ : Shape).BroadcastsInDim (⟨2, ![1, C]⟩ : Shape) ![1])
    (h2 : (⟨2, ![1, C]⟩ : Shape).BroadcastsInDim (⟨2, ![P, C]⟩ : Shape) ![0, 1])
    (x : (⟨1, ![C]⟩ : Shape).Idx → α) (i : Fin P) (j : Fin C) :
    broadcastInDim (⟨2, ![P, C]⟩ : Shape) ![0, 1] h2 (broadcastInDim (⟨2, ![1, C]⟩ : Shape) ![1] h1 x) (ix2 i j)
      = x (ix1 j) := by
  rw [bcast_1C_PC_apply, bcast_C_1C_apply]

theorem bcast_N_N1_apply {N : Nat} (h : (⟨1, ![N]⟩ : Shape).BroadcastsInDim (⟨2, ![N, 1]⟩ : Shape) ![0])
    (x : (⟨1, ![N]⟩ : Shape).Idx → α) (n : Fin N) (u : Fin 1) :
    broadcastInDim (⟨2, ![N, 1]⟩ : Shape) ![0] h x (ix2 n u) = x (ix1 n) :=
  broadcastInDim_apply _ h x _ _ (fun a => by
    match a with
    | ⟨0, _⟩ =>
      show n.val = if N = 1 then 0 else n.val
      split
      · have := n.isLt; omega
      · rfl)

end Bcast

section Col
variable {P C N w : Nat}

theorem gather_col_apply {α : Type} (hP : 0 < P)
    (d : GatherDims (⟨2, ![P, C]⟩ : Shape) (⟨2, ![N, 1]⟩ : Shape) (⟨2, ![N, C]⟩ : Shape))
    (hod : d.offsetDims = [1]) (hcd : d.collapsedSliceDims = [0]) (hob : d.operandBatchingDims = [])
    (hsm : d.startIndexMap = [0]) (hiv : d.indexVectorDim = 1) (hss : d.sliceSizes 0 = 1)
    (hb : (⟨1, ![N]⟩ : Shape).BroadcastsInDim (⟨2, ![N, 1]⟩ : Shape) ![0])
    (x : (⟨2, ![P, C]⟩ : Shape).Idx → α) (idx : IVec (⟨1, ![N]⟩ : Shape) w) (n : Fin N) (ch : Fin C) :
    Host.gather d x (broadcastInDim (⟨2, ![N, 1]⟩ : Shape) ![0] hb idx) (ix2 n ch)
      = x (ix2 (⟨min (idx (ix1 n)).toInt.toNat (P - 1), by omega⟩ : Fin P) ch) := by
  rw [GatherRows.gather_rows_apply hP d hod hcd hob hsm hiv hss]
  refine congrArg x (congrArg (fun r : Fin P => ix2 r ch) (Fin.ext ?_))
  show min (broadcastInDim (⟨2, ![N, 1]⟩ : Shape) ![0] hb idx (ix2 n (0 : Fin 1))).toInt.toNat (P - 1) = _
  rw [bcast_N_N1_apply]

theorem scatter_col_apply
    (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (hb : (⟨1, ![N]⟩ : Shape).BroadcastsInDim (⟨2, ![N, 1]⟩ : Shape) ![0])
    (x : FVec Ideal (⟨2, ![P, C]⟩ : Shape) .f32) (idx : IVec (⟨1, ![N]⟩ : Shape) w)
    (upd : FVec Ideal (⟨2, ![N, C]⟩ : Shape) .f32) (p : Fin P) (ch : Fin C) :
    Host.scatterAdd (F := Ideal) d x (broadcastInDim (⟨2, ![N, 1]⟩ : Shape) ![0] hb idx) upd (ix2 p ch)
      = x (ix2 p ch)
        + ∑ n ∈ Finset.univ.filter (fun n : Fin N => (idx (ix1 n)).toInt = (p.val : Int)), upd (ix2 n ch) := by
  show Ideal.hostScatterAdd d x _ upd (ix2 p ch) = _
  rw [scatterAdd_rows_apply d huw hiw hsd hiv]
  refine congrArg (x (ix2 p ch) + ·) ?_
  refine Finset.sum_congr (Finset.filter_congr fun n _ => ?_) fun _ _ => rfl
  rw [bcast_N_N1_apply]

end Col

theorem wrap_apply {s : Shape} (src z c : IVec s 32) (i : s.Idx) (hz : z i = 0#32) (h0 : 0 ≤ (src i).toInt) :
    select (cmpi .slt src z) (addi src c) src i = src i := by
  have hlt : ¬ (src i).toInt < (0#32 : BitVec 32).toInt := by
    rw [BitVec.toInt_zero]; omega
  have hc : cmpi .slt src z i = 0#1 := by
    show BitVec.ofBool (decide ((src i).toInt < (z i).toInt)) = 0#1
    rw [hz, decide_eq_false hlt]; rfl
  rw [select_apply, hc, select_zero]

def Plain {M K N : Nat} (d : DotDims (⟨2, ![M, K]⟩ : Shape) (⟨2, ![K, N]⟩ : Shape) (⟨2, ![M, N]⟩ : Shape)) : Prop :=
  d.lhsContracting = [1] ∧ d.rhsContracting = [0] ∧ d.lhsNonContracting = [0] ∧ d.rhsNonContracting = [1]
    ∧ d.lhsBatch = [] ∧ d.rhsBatch = []

theorem Plain.apply {M K N : Nat} {φ₁ φ₂ : FTy}
    {d : DotDims (⟨2, ![M, K]⟩ : Shape) (⟨2, ![K, N]⟩ : Shape) (⟨2, ![M, N]⟩ : Shape)} (hd : Plain d)
    (prec : Option ContractPrecision) (A : FVec Ideal (⟨2, ![M, K]⟩ : Shape) φ₁)
    (B : FVec Ideal (⟨2, ![K, N]⟩ : Shape) φ₂) (a : Fin M) (b : Fin N) :
    Host.dotGeneral (F := Ideal) d prec A B (ix2 a b) = ∑ c : Fin K, A (ix2 a c) * B (ix2 c b) :=
  dot_apply d hd.1 hd.2.1 hd.2.2.1 hd.2.2.2.1 hd.2.2.2.2.1 hd.2.2.2.2.2 prec A B a b

section Layer
variable {P E C D : Nat}

theorem layer_apply
    (dR : DotDims (⟨2, ![P, C]⟩ : Shape) (⟨2, ![C, C]⟩ : Shape) (⟨2, ![P, C]⟩ : Shape)) (hR : Plain dR)
    (dN : DotDims (⟨2, ![E, C]⟩ : Shape) (⟨2, ![C, C]⟩ : Shape) (⟨2, ![E, C]⟩ : Shape)) (hN : Plain dN)
    (dE : DotDims (⟨2, ![E, D]⟩ : Shape) (⟨2, ![D, C]⟩ : Shape) (⟨2, ![E, C]⟩ : Shape)) (hE : Plain dE)
    (ga : GatherDims (⟨2, ![P, C]⟩ : Shape) (⟨2, ![E, 1]⟩ : Shape) (⟨2, ![E, C]⟩ : Shape))
    (hod : ga.offsetDims = [1]) (hcd : ga.collapsedSliceDims = [0]) (hob : ga.operandBatchingDims = [])
    (hsm : ga.startIndexMap = [0]) (hgv : ga.indexVectorDim = 1) (hss : ga.sliceSizes 0 = 1)
    (sc : ScatterDims (⟨2, ![P, C]⟩ : Shape) (⟨2, ![E, 1]⟩ : Shape) (⟨2, ![E, C]⟩ : Shape))
    (huw : sc.updateWindowDims = [1]) (hiw : sc.insertedWindowDims = [0]) (hsd : sc.scatterDimsToOperandDims = [0])
    (hsv : sc.indexVectorDim = 1)
    (hb1 : (⟨1, ![C]⟩ : Shape).BroadcastsInDim (⟨2, ![1, C]⟩ : Shape) ![1])
    (hb2 : (⟨2, ![1, C]⟩ : Shape).BroadcastsInDim (⟨2, ![P, C]⟩ : Shape) ![0, 1])
    (hz : (⟨0, ![]⟩ : Shape).BroadcastsInDim (⟨2, ![P, C]⟩ : Shape) ![])
    (hzi : (⟨0, ![]⟩ : Shape).BroadcastsInDim (⟨1, ![E]⟩ : Shape) ![])
    (hcol : (⟨1, ![E]⟩ : Shape).BroadcastsInDim (⟨2, ![E, 1]⟩ : Shape) ![0])
    (h : FVec Ideal (⟨2, ![P, C]⟩ : Shape) .f32) (src dst : IVec (⟨1, ![E]⟩ : Shape) 32) (c : BitVec 32)
    (ea : FVec Ideal (⟨2, ![E, D]⟩ : Shape) .f32) (wr wn : FVec Ideal (⟨2, ![C, C]⟩ : Shape) .f32)
    (we : FVec Ideal (⟨2, ![D, C]⟩ : Shape) .f32) (b : FVec Ideal (⟨1, ![C]⟩ : Shape) .f32)
    (h0 : ∀ e : Fin E, 0 ≤ (src (ix1 e)).toInt) (hP : ∀ e : Fin E, (src (ix1 e)).toInt.toNat < P)
    (i : Fin P) (j : Fin C) :
    addf (F := Ideal)
        (addf (F := Ideal) (Host.dotGeneral (F := Ideal) dR none h wr)
          (broadcastInDim (⟨2, ![P, C]⟩ : Shape) ![0, 1] hb2 (broadcastInDim (⟨2, ![1, C]⟩ : Shape) ![1] hb1 b)))
        (Host.scatterAdd (F := Ideal) sc
          (broadcastInDim (⟨2, ![P, C]⟩ : Shape) ![] hz (constant (F := Ideal) (⟨0, ![]⟩ : Shape) .f32 0x00000000#32))
          (broadcastInDim (⟨2, ![E, 1]⟩ : Shape) ![0] hcol dst)
          (addf (F := Ideal)
            (Host.dotGeneral (F := Ideal) dN none
              (Host.gather ga h
                (broadcastInDim (⟨2, ![E, 1]⟩ : Shape) ![0] hcol
                  (select
                    (cmpi .slt src (broadcastInDim (⟨1, ![E]⟩ : Shape) ![] hzi (constantI (⟨0, ![]⟩ : Shape) 32 0#32)))
                    (addi src (broadcastInDim (⟨1, ![E]⟩ : Shape) ![] hzi (constantI (⟨0, ![]⟩ : Shape) 32 c)))
                    src)))
              wn)
            (Host.dotGeneral (F := Ideal) dE none ea we)))
        (ix2 i j)
      = Cert.LayerSpec.h1R (fun i k => h (ix2 i k)) (fun e => (⟨(src (ix1 e)).toInt.toNat, hP e⟩ : Fin P))
          (fun e => (dst (ix1 e)).toInt) (fun e k => ea (ix2 e k)) (fun k j => wr (ix2 k j))
          (fun k j => wn (ix2 k j)) (fun k j => we (ix2 k j)) (fun j => b (ix1 j)) i j := by
  rw [addf_apply, addf_apply, bias_apply, hR.apply, scatter_col_apply sc huw hiw hsd hsv hcol,
    broadcastInDim_scalar_apply, constant_apply, Ideal.ofBits_zero_f32]
  simp only [Cert.LayerSpec.h1R, Cert.LayerSpec.seg, Cert.LayerSpec.into, Cert.LayerSpec.mm]
  congr 2
  refine Finset.sum_congr rfl fun e _ => ?_
  rw [addf_apply, hN.apply, hE.apply]
  refine congrArg (· + _) (Fintype.sum_congr _ _ fun k => ?_)
  rw [gather_col_apply i.pos ga hod hcd hob hsm hgv hss hcol]
  refine congrArg (fun r : Fin P => h (ix2 r k) * wn (ix2 k j)) (Fin.ext ?_)
  show min _ (P - 1) = (src (ix1 e)).toInt.toNat
  rw [wrap_apply src _ _ (ix1 e) (by rw [broadcastInDim_scalar_apply]; rfl) (h0 e)]
  have := hP e
  omega

end Layer

section Mlp
variable {G A B T : Nat}

theorem mlp_apply
    (d1 : DotDims (⟨2, ![G, A]⟩ : Shape) (⟨2, ![A, B]⟩ : Shape) (⟨2, ![G, B]⟩ : Shape)) (h1 : Plain d1)
    (d2 : DotDims (⟨2, ![G, B]⟩ : Shape) (⟨2, ![B, T]⟩ : Shape) (⟨2, ![G, T]⟩ : Shape)) (h2 : Plain d2)
    (hb1 : (⟨1, ![B]⟩ : Shape).BroadcastsInDim (⟨2, ![1, B]⟩ : Shape) ![1])
    (hb2 : (⟨2, ![1, B]⟩ : Shape).BroadcastsInDim (⟨2, ![G, B]⟩ : Shape) ![0, 1])
    (hz : (⟨0, ![]⟩ : Shape).BroadcastsInDim (⟨2, ![G, B]⟩ : Shape) ![])
    (hc1 : (⟨1, ![T]⟩ : Shape).BroadcastsInDim (⟨2, ![1, T]⟩ : Shape) ![1])
    (hc2 : (⟨2, ![1, T]⟩ : Shape).BroadcastsInDim (⟨2, ![G, T]⟩ : Shape) ![0, 1])
    (hg : FVec Ideal (⟨2, ![G, A]⟩ : Shape) .f32) (w1 : FVec Ideal (⟨2, ![A, B]⟩ : Shape) .f32)
    (b1 : FVec Ideal (⟨1, ![B]⟩ : Shape) .f32) (w2 : FVec Ideal (⟨2, ![B, T]⟩ : Shape) .f32)
    (b2 : FVec Ideal (⟨1, ![T]⟩ : Shape) .f32) (i : Fin G) (j : Fin T) :
    addf (F := Ideal)
        (Host.dotGeneral (F := Ideal) d2 none
          (maximumf (F := Ideal)
            (addf (F := Ideal) (Host.dotGeneral (F := Ideal) d1 none hg w1)
              (broadcastInDim (⟨2, ![G, B]⟩ : Shape) ![0, 1] hb2 (broadcastInDim (⟨2, ![1, B]⟩ : Shape) ![1] hb1 b1)))
            (broadcastInDim (⟨2, ![G, B]⟩ : Shape) ![] hz
              (constant (F := Ideal) (⟨0, ![]⟩ : Shape) .f32 0x00000000#32)))
          w2)
        (broadcastInDim (⟨2, ![G, T]⟩ : Shape) ![0, 1] hc2 (broadcastInDim (⟨2, ![1, T]⟩ : Shape) ![1] hc1 b2))
        (ix2 i j)
      = (∑ k : Fin B, max ((∑ l : Fin A, hg (ix2 i l) * w1 (ix2 l k)) + b1 (ix1 k)) 0 * w2 (ix2 k j))
          + b2 (ix1 j) := by
  rw [addf_apply, bias_apply, h2.apply]
  refine congrArg (· + b2 (ix1 j)) (Fintype.sum_congr _ _ fun k => ?_)
  rw [maximumf_apply, addf_apply, bias_apply, h1.apply, broadcastInDim_scalar_apply, constant_apply,
    Ideal.ofBits_zero_f32]

end Mlp

end Cert.Stage.At

namespace Cert.Stage

open Idealize.ShloMosaic Idealize.ShloMosaic.ValueIdx Idealize.ShloMosaic.ScatterSum
open Cert.ReferenceIdeal Cert.Stage.At

variable [Facts]
open Facts₀ Facts

theorem ENC_apply (x : FVec Ideal S100000x128 .f32) (w : FVec Ideal S128x128 .f32) (b : FVec Ideal S128 .f32)
    (i : Fin 100000) (j : Fin 128) :
    ENC x w b (ix2 i j) = (∑ k : Fin 128, x (ix2 i k) * w (ix2 k j)) + b (ix1 j) := by
  unfold ENC
  rw [addf_apply, bias_apply,
    dot_apply dot_S100000x128_S128x128_S100000x128_1_0_0_1_n_n rfl rfl rfl rfl rfl rfl]

theorem H1_apply (h : FVec Ideal S100000x128 .f32) (src dst : IVec S600000 32) (ea : FVec Ideal S600000x16 .f32)
    (wr wn : FVec Ideal S128x128 .f32) (we : FVec Ideal S16x128 .f32) (b : FVec Ideal S128 .f32)
    (hs : ∀ e : Fin 600000, 0 ≤ (src (ix1 e)).toInt ∧ (src (ix1 e)).toInt < 100000) (i : Fin 100000)
    (j : Fin 128) :
    H1 h src dst ea wr wn we b (ix2 i j)
      = Cert.LayerSpec.h1R (fun i k => h (ix2 i k))
          (fun e => (⟨(src (ix1 e)).toInt.toNat, by have := hs e; omega⟩ : Fin 100000))
          (fun e => (dst (ix1 e)).toInt) (fun e k => ea (ix2 e k)) (fun k j => wr (ix2 k j))
          (fun k j => wn (ix2 k j)) (fun k j => we (ix2 k j)) (fun j => b (ix1 j)) i j := by
  unfold H1
  exact layer_apply dot_S100000x128_S128x128_S100000x128_1_0_0_1_n_n ⟨rfl, rfl, rfl, rfl, rfl, rfl⟩
    dot_S600000x128_S128x128_S600000x128_1_0_0_1_n_n ⟨rfl, rfl, rfl, rfl, rfl, rfl⟩
    dot_S600000x16_S16x128_S600000x128_1_0_0_1_n_n ⟨rfl, rfl, rfl, rfl, rfl, rfl⟩
    gather_S100000x128_S600000x1_S600000x128_1_0_n_n_0_1_1128 rfl rfl rfl rfl rfl rfl
    scatter_S100000x128_S600000x1_S600000x128_1_0_0_1 rfl rfl rfl rfl
    bcast_S128_S1x128_1 bcast_S1x128_S100000x128_0_1 bcast_S_S100000x128 bcast_S_S600000 bcast_S600000_S600000x1_0
    h src dst 100000#32 ea wr wn we b (fun e => (hs e).1) (fun e => by have := hs e; omega) i j

theorem MLP_apply (hg : FVec Ideal S512x128 .f32) (w1 : FVec Ideal S128x256 .f32) (b1 : FVec Ideal S256 .f32)
    (w2 : FVec Ideal S256x10 .f32) (b2 : FVec Ideal S10 .f32) (i : Fin 512) (j : Fin 10) :
    MLP hg w1 b1 w2 b2 (ix2 i j)
      = (∑ k : Fin 256, max ((∑ l : Fin 128, hg (ix2 i l) * w1 (ix2 l k)) + b1 (ix1 k)) 0 * w2 (ix2 k j))
          + b2 (ix1 j) := by
  unfold MLP
  exact mlp_apply dot_S512x128_S128x256_S512x256_1_0_0_1_n_n ⟨rfl, rfl, rfl, rfl, rfl, rfl⟩
    dot_S512x256_S256x10_S512x10_1_0_0_1_n_n ⟨rfl, rfl, rfl, rfl, rfl, rfl⟩
    bcast_S256_S1x256_1 bcast_S1x256_S512x256_0_1 bcast_S_S512x256 bcast_S10_S1x10_1 bcast_S1x10_S512x10_0_1
    hg w1 b1 w2 b2 i j

end Cert.Stage

end
-- ==== Proof.KHostArgs.lean ====
import proofs.«425797_j7249904796358_2_alg».proof.Proof.Gen.KernelIdeal.Frame

set_option maxRecDepth 16384

noncomputable section

namespace Cert.KernelIdeal.Hand.Args

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

-- A stretch of host operations none of which writes the goal's buffer leaves it as it was.
macro "carry_host " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

-- The launch arguments the three layers read,
abbrev Arg (b : Ref sig .tc) : Prop :=
  b = main_arg2 ∨ b = main_arg9 ∨ b = main_arg10 ∨ b = main_arg11 ∨ b = main_arg12 ∨ b = main_arg13 ∨ b = main_arg14
-- and with them the edge table's two rows: no operation after the first stretch and no layer's region writes any of these.
abbrev Kept (b : Ref sig .tc) : Prop := Arg b ∨ b = main_v1 ∨ b = main_v3

theorem arg_W1 : ∀ b, Arg b → W1 m ρ c (Proc.devRef .tc b) = m ((c : Thread nD τ).loc b) := by
  rintro b (rfl | rfl | rfl | rfl | rfl | rfl | rfl) <;> carry_host hostOps0

theorem k2 : ∀ b, Kept b → W2 m ρ c (Proc.devRef .tc b) = W1 m ρ c (Proc.devRef .tc b) := by
  intro b h; have h' := h
  rcases h with (rfl | rfl | rfl | rfl | rfl | rfl | rfl) | rfl | rfl <;> exact W2_of_ne m ρ c _ (by decide)
theorem k3 : ∀ b, Kept b → W3 m ρ c (Proc.devRef .tc b) = W1 m ρ c (Proc.devRef .tc b) := by
  intro b h; have h' := h
  rcases h with (rfl | rfl | rfl | rfl | rfl | rfl | rfl) | rfl | rfl <;> exact Eq.trans (by carry_host hostOps1) (k2 m ρ c _ h')
theorem k4 : ∀ b, Kept b → W4 m ρ c (Proc.devRef .tc b) = W1 m ρ c (Proc.devRef .tc b) := by
  intro b h; have h' := h
  rcases h with (rfl | rfl | rfl | rfl | rfl | rfl | rfl) | rfl | rfl <;> exact Eq.trans (by carry_host hostOps1_1) (k3 m ρ c _ h')
theorem k6 : ∀ b, Kept b → W6 m ρ c (Proc.devRef .tc b) = W1 m ρ c (Proc.devRef .tc b) := by
  intro b h; have h' := h
  rcases h with (rfl | rfl | rfl | rfl | rfl | rfl | rfl) | rfl | rfl <;> exact (W6_of_ne m ρ c _ (by decide)).trans (Eq.trans (by carry_host hostOps1_2) (k4 m ρ c _ h'))
theorem k8 : ∀ b, Kept b → W8 m ρ c (Proc.devRef .tc b) = W1 m ρ c (Proc.devRef .tc b) := by
  intro b h; have h' := h
  rcases h with (rfl | rfl | rfl | rfl | rfl | rfl | rfl) | rfl | rfl <;> exact Eq.trans (by carry_host hostOps2_1) (Eq.trans (by carry_host hostOps2) (k6 m ρ c _ h'))
theorem k9 : ∀ b, Kept b → W9 m ρ c (Proc.devRef .tc b) = W1 m ρ c (Proc.devRef .tc b) := by
  intro b h; have h' := h
  rcases h with (rfl | rfl | rfl | rfl | rfl | rfl | rfl) | rfl | rfl <;> exact Eq.trans (by carry_host hostOps2_2) (k8 m ρ c _ h')
theorem k11 : ∀ b, Kept b → W11 m ρ c (Proc.devRef .tc b) = W1 m ρ c (Proc.devRef .tc b) := by
  intro b h; have h' := h
  rcases h with (rfl | rfl | rfl | rfl | rfl | rfl | rfl) | rfl | rfl <;> exact (W11_of_ne m ρ c _ (by decide)).trans (Eq.trans (by carry_host hostOps2_3) (k9 m ρ c _ h'))
theorem k13 : ∀ b, Kept b → W13 m ρ c (Proc.devRef .tc b) = W1 m ρ c (Proc.devRef .tc b) := by
  intro b h; have h' := h
  rcases h with (rfl | rfl | rfl | rfl | rfl | rfl | rfl) | rfl | rfl <;> exact Eq.trans (by carry_host hostOps3_1) (Eq.trans (by carry_host hostOps3) (k11 m ρ c _ h'))
theorem k14 : ∀ b, Kept b → W14 m ρ c (Proc.devRef .tc b) = W1 m ρ c (Proc.devRef .tc b) := by
  intro b h; have h' := h
  rcases h with (rfl | rfl | rfl | rfl | rfl | rfl | rfl) | rfl | rfl <;> exact Eq.trans (by carry_host hostOps3_2) (k13 m ρ c _ h')
theorem k16 : ∀ b, Kept b → W16 m ρ c (Proc.devRef .tc b) = W1 m ρ c (Proc.devRef .tc b) := by
  intro b h; have h' := h
  rcases h with (rfl | rfl | rfl | rfl | rfl | rfl | rfl) | rfl | rfl <;> exact (W16_of_ne m ρ c _ (by decide)).trans (Eq.trans (by carry_host hostOps3_3) (k14 m ρ c _ h'))

theorem W6_arg13 : W6 m ρ c (Proc.devRef .tc main_arg13) = m ((c : Thread nD τ).loc main_arg13) :=
  (k6 m ρ c _ (by decide)).trans (arg_W1 m ρ c _ (by decide))
theorem W6_arg14 : W6 m ρ c (Proc.devRef .tc main_arg14) = m ((c : Thread nD τ).loc main_arg14) :=
  (k6 m ρ c _ (by decide)).trans (arg_W1 m ρ c _ (by decide))
theorem W11_arg13 : W11 m ρ c (Proc.devRef .tc main_arg13) = m ((c : Thread nD τ).loc main_arg13) :=
  (k11 m ρ c _ (by decide)).trans (arg_W1 m ρ c _ (by decide))
theorem W11_arg14 : W11 m ρ c (Proc.devRef .tc main_arg14) = m ((c : Thread nD τ).loc main_arg14) :=
  (k11 m ρ c _ (by decide)).trans (arg_W1 m ρ c _ (by decide))
theorem W16_arg13 : W16 m ρ c (Proc.devRef .tc main_arg13) = m ((c : Thread nD τ).loc main_arg13) :=
  (k16 m ρ c _ (by decide)).trans (arg_W1 m ρ c _ (by decide))
theorem W16_arg14 : W16 m ρ c (Proc.devRef .tc main_arg14) = m ((c : Thread nD τ).loc main_arg14) :=
  (k16 m ρ c _ (by decide)).trans (arg_W1 m ρ c _ (by decide))

end Cert.KernelIdeal.Hand.Args
-- ==== Proof.KTile.lean ====
import proofs.«425797_j7249904796358_2_alg».proof.Proof.Gen.KernelIdeal.Skeleton
import proofs.«425797_j7249904796358_2_alg».proof.Proof.LibDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.ValueIdx

namespace Cert.KernelIdeal.Hand.Tile
open Cert.KernelIdeal Cert.KernelIdeal.Gen

section Rows
variable {Val : EltTy → Type} [∀ e, Nonempty (Val e)]

theorem hz : (![0, 0] : Fin 2 → Nat) = fun _ => 0 := funext fun a => by fin_cases a <;> rfl

theorem canon_cons_at {s : Shape} {e : EltTy} (r : Rect s) (w : r.shape.Idx → Val e)
    (L : List (View.Piece Val s e)) (x : r.shape.Idx) (y : s.Idx) (h : r.emb x = y) : View.canon (⟨r, w⟩ :: L) y = w x :=
  h ▸ View.canon_cons_emb r w L x

-- Row `o` of the 8×128 block is the image of the one-row rectangle at offset (o, 0).
theorem row_emb (o : Nat) (inb : ∀ a, (![o, 0] : Fin 2 → Nat) a + (![1, 128] : Fin 2 → Nat) a ≤ S8x128.size a)
    (q : Fin 8) (j : Fin 128) (hq : q.val = o) :
    (Rect.unit (s := S8x128) ![o, 0] ![1, 128] inb).emb (ix2 (0 : Fin 1) j) = ix2 q j := by
  funext a; apply Fin.ext
  match a with
  | ⟨0, _⟩ => show o + 1 * 0 = q.val; omega
  | ⟨1, _⟩ => show 0 + 1 * j.val = j.val; omega

theorem not_mem_row (o : Nat) (inb : ∀ a, (![o, 0] : Fin 2 → Nat) a + (![1, 128] : Fin 2 → Nat) a ≤ S8x128.size a)
    (q : Fin 8) (j : Fin 128) (hq : q.val ≠ o) :
    ix2 q j ∉ (Rect.unit (s := S8x128) ![o, 0] ![1, 128] inb).set := fun h => by
  have h0 := Rect.mem_set_unit.mp h 0
  change o ≤ q.val ∧ q.val < o + 1 at h0
  omega

-- A block written whole, then row 0, then row 1, read back row by row.
theorem canon_rows (w1 w0 : (⟨2, ![1, 128]⟩ : Shape).Idx → Val EltTy.f32) (wz : S8x128.Idx → Val EltTy.f32) (q : Fin 8) (j : Fin 128) :
    View.canon (Val := Val) (s := S8x128) (e := EltTy.f32)
        [⟨Rect.unit (s := S8x128) ![1, 0] ![1, 128] inb_S8x128_S1x128_1_0, w1⟩,
         ⟨Rect.unit (s := S8x128) ![0, 0] ![1, 128] inb_S8x128_S1x128_0_0, w0⟩,
         ⟨Rect.unit (s := S8x128) ![0, 0] ![8, 128] inb_S8x128_S8x128_0_0, wz⟩] (ix2 q j)
      = if q.val = 0 then w0 (ix2 0 j) else if q.val = 1 then w1 (ix2 0 j) else wz (ix2 q j) := by
  by_cases hq0 : q.val = 0
  · rw [if_pos hq0, View.canon_cons_of_not_mem]
    · exact canon_cons_at (Rect.unit (s := S8x128) ![0, 0] ![1, 128] inb_S8x128_S1x128_0_0) w0 _ (ix2 (0 : Fin 1) j) (ix2 q j) (row_emb 0 inb_S8x128_S1x128_0_0 q j hq0)
    · exact not_mem_row 1 inb_S8x128_S1x128_1_0 q j (by omega)
  · rw [if_neg hq0]
    by_cases hq1 : q.val = 1
    · rw [if_pos hq1]
      exact canon_cons_at (Rect.unit (s := S8x128) ![1, 0] ![1, 128] inb_S8x128_S1x128_1_0) w1 _ (ix2 (0 : Fin 1) j) (ix2 q j) (row_emb 1 inb_S8x128_S1x128_1_0 q j hq1)
    · rw [if_neg hq1, View.canon_cons_of_not_mem, View.canon_cons_of_not_mem]
      · exact congrFun (View.canon_unit_zero hz _ wz) (ix2 q j)
      · exact not_mem_row 0 inb_S8x128_S1x128_0_0 q j hq0
      · exact not_mem_row 1 inb_S8x128_S1x128_1_0 q j hq1

end Rows

section Payloads

-- A column sum of a 5000×128 block: the add-reduction over axis 0.
theorem colsum_apply (src : FVec Ideal S5000x128 .f32) (hφ : FKind.Formats FTy.f32)
    (hacc : (0x00000000#32 : BitVec 32) = 0x00000000#32) (q : Fin 128) :
    multiReduction (F := Ideal) .add [0] S128 src 0x00000000#32 reduces_S5000x128_S128 hφ hacc (ix1 q) = ∑ r : Fin 5000, src (ix2 r q) := by
  refine (Ideal.multiReduction_add_single src 0x00000000#32 reduces_S5000x128_S128 hφ hacc (ix1 q)).trans ?_
  refine Finset.sum_congr rfl fun r _ => congrArg src ?_
  funext a
  match a with
  | ⟨0, _⟩ => rfl
  | ⟨1, _⟩ => rfl

variable (x0 x1 : FVec Ideal S5000x128 .f32) (x2 : FVec Ideal S5000x16 .f32) (x3 x4 : FVec Ideal S128x128 .f32)
  (x5 : FVec Ideal S16x128 .f32) (x6 : FVec Ideal S1x128 .f32)

-- The pre-activation at an entry of the tile: the three products and the bias.
theorem pay1_apply (p : Fin 5000) (q : Fin 128) :
    k1_pay1 (F := Ideal) x0 x1 x2 x3 x4 x5 x6 (ix2 p q)
      = ((∑ k : Fin 128, x0 (ix2 p k) * x3 (ix2 k q) + ∑ k : Fin 128, x1 (ix2 p k) * x4 (ix2 k q))
          + ∑ k : Fin 16, x2 (ix2 p k) * x5 (ix2 k q)) + x6 (ix2 0 q) := by
  unfold k1_pay1
  simp only [shapeCast_self, matmul, addf_apply, truncf_apply, broadcastTo_1b_ab_apply,
    Cert.Stage.At.matmul_zero_apply dot_S5000x128_S128x128_S5000x128_1_0_0_1_n_n rfl rfl rfl rfl rfl rfl,
    Cert.Stage.At.matmul_zero_apply dot_S5000x16_S16x128_S5000x128_1_0_0_1_n_n rfl rfl rfl rfl rfl rfl]

theorem pay2_apply (q : Fin 128) :
    k1_pay2 (F := Ideal) x0 x1 x2 x3 x4 x5 x6 (ix2 0 q) = ∑ r : Fin 5000, k1_pay1 (F := Ideal) x0 x1 x2 x3 x4 x5 x6 (ix2 r q) := by
  unfold k1_pay2
  exact (shapeCast_a_1a_apply _ _ 0 q).trans (colsum_apply _ _ _ q)

theorem pay3_apply (q : Fin 128) :
    k1_pay3 (F := Ideal) x0 x1 x2 x3 x4 x5 x6 (ix2 0 q)
      = ∑ r : Fin 5000, k1_pay1 (F := Ideal) x0 x1 x2 x3 x4 x5 x6 (ix2 r q) * k1_pay1 (F := Ideal) x0 x1 x2 x3 x4 x5 x6 (ix2 r q) := by
  unfold k1_pay3
  exact (shapeCast_a_1a_apply _ _ 0 q).trans (colsum_apply _ _ _ q)

theorem pay4_apply (y : S8x128.Idx) : (k1_pay4 (F := Ideal)) y = 0 := by
  unfold k1_pay4
  exact Ideal.ofBits_zero_f32

end Payloads

section Layer

-- The layer's seven arrays: node, neighbour and edge features, the three weight matrices, the bias.
structure Arrs where
  h : FVec Ideal S100000x128 .f32
  g : FVec Ideal S100000x128 .f32
  a : FVec Ideal S100000x16 .f32
  wr : FVec Ideal S128x128 .f32
  wn : FVec Ideal S128x128 .f32
  we : FVec Ideal S16x128 .f32
  b : FVec Ideal S1x128 .f32

variable (A : Arrs)

abbrev rowOf (t : Fin 20) (p : Fin 5000) : Fin 100000 := ⟨5000 * t.val + p.val, by omega⟩

def preact (i : Fin 100000) (j : Fin 128) : EReal :=
  ((∑ k : Fin 128, A.h (ix2 i k) * A.wr (ix2 k j) + ∑ k : Fin 128, A.g (ix2 i k) * A.wn (ix2 k j))
    + ∑ k : Fin 16, A.a (ix2 i k) * A.we (ix2 k j)) + A.b (ix2 0 j)

def preactArr : FVec Ideal S100000x128 .f32 := fun y => preact A (y 0) (y 1)

-- Row q of tile t's statistics: column sums of the pre-activation, of its square, then zeros.
def stat (t : Fin 20) (q : Fin 8) (j : Fin 128) : EReal :=
  if q.val = 0 then ∑ r : Fin 5000, preact A (rowOf t r) j
  else if q.val = 1 then ∑ r : Fin 5000, preact A (rowOf t r) j * preact A (rowOf t r) j
  else 0

def statArr : FVec Ideal S160x128 .f32 :=
  fun y => stat A ⟨(y 0).val / 8, by have h : (y 0).val < 160 := (y 0).isLt; omega⟩ ⟨(y 0).val % 8, Nat.mod_lt _ (by decide)⟩ (y 1)

theorem preactArr_at (y : S100000x128.Idx) (t : Fin 20) (p : Fin 5000) (q : Fin 128)
    (h0 : (y 0).val = 5000 * t.val + p.val) (h1 : (y 1).val = q.val) : preactArr A y = preact A (rowOf t p) q := by
  unfold preactArr; congr 1 <;> apply Fin.ext
  · exact h0
  · exact h1

theorem statArr_at (y : S160x128.Idx) (t : Fin 20) (q : Fin 8) (j : Fin 128)
    (h0 : (y 0).val = 8 * t.val + q.val) (h1 : (y 1).val = j.val) : statArr A y = stat A t q j := by
  have hq := q.isLt
  unfold statArr; congr 1 <;> apply Fin.ext
  · show (y 0).val / 8 = t.val; omega
  · show (y 0).val % 8 = q.val; omega
  · exact h1

variable (t : Fin 20) {bh bg : FVec Ideal S5000x128 .f32} {ba : FVec Ideal S5000x16 .f32} {bwr bwn : FVec Ideal S128x128 .f32}
  {bwe : FVec Ideal S16x128 .f32} {bb : FVec Ideal S1x128 .f32}
  (hh : ∀ p k, bh (ix2 p k) = A.h (ix2 (rowOf t p) k)) (hg : ∀ p k, bg (ix2 p k) = A.g (ix2 (rowOf t p) k))
  (ha : ∀ p k, ba (ix2 p k) = A.a (ix2 (rowOf t p) k)) (hwr : bwr = A.wr) (hwn : bwn = A.wn) (hwe : bwe = A.we) (hb : bb = A.b)
include hh hg ha hwr hwn hwe hb

-- On blocks that are tile t's rows of the arrays, the payload is the pre-activation of those rows.
theorem tile_apply (p : Fin 5000) (q : Fin 128) :
    k1_pay1 (F := Ideal) bh bg ba bwr bwn bwe bb (ix2 p q) = preact A (rowOf t p) q := by
  rw [pay1_apply, hwr, hwn, hwe, hb]
  unfold preact
  simp only [hh, hg, ha]

theorem stat_apply (q : Fin 8) (j : Fin 128) :
    (if q.val = 0 then k1_pay2 (F := Ideal) bh bg ba bwr bwn bwe bb (ix2 0 j)
      else if q.val = 1 then k1_pay3 (F := Ideal) bh bg ba bwr bwn bwe bb (ix2 0 j)
      else (k1_pay4 (F := Ideal)) (ix2 q j)) = stat A t q j := by
  unfold stat
  simp only [pay2_apply, pay3_apply, pay4_apply, tile_apply A t hh hg ha hwr hwn hwe hb]

end Layer

end Cert.KernelIdeal.Hand.Tile
-- ==== Proof.KBlock.lean ====
namespace Cert.KernelIdeal.Hand.Tile

-- A statement about both axes of a 2-axis index follows from its two instances.
theorem forall_fin2 {P : Fin 2 → Prop} (h0 : P 0) (h1 : P 1) : ∀ a, P a :=
  fun a => match a with
    | ⟨0, _⟩ => h0
    | ⟨1, _⟩ => h1

-- x lies in the block of length B that starts at (x / B) * B.
theorem div_block (B x : Nat) {idx : Nat} (hB : 0 < B) (h : idx = x / B) : idx * B ≤ x ∧ x < idx * B + B := by
  subst h
  have h1 := Nat.div_add_mod x B
  have h2 := Nat.mod_lt x hB
  rw [Nat.mul_comm] at h1
  omega

-- A coordinate below the extent lies in block 0 of that extent.
theorem zero_block (n x : Nat) {idx : Nat} (hx : x < n) (h : idx = 0) : idx * n ≤ x ∧ x < idx * n + n := by
  subst h; omega

-- Entry p of block t of length B sits at B * t + p.
theorem at_tile (B p : Nat) {idx t : Nat} (h : idx = t) : idx * B + 1 * p = B * t + p := by
  rw [h, Nat.one_mul, Nat.mul_comm]

-- An entry of block 0 keeps its coordinate.
theorem at_zero (n y : Nat) {idx : Nat} (h : idx = 0) : idx * n + 1 * y = y := by
  rw [h, Nat.zero_mul, Nat.zero_add, Nat.one_mul]

end Cert.KernelIdeal.Hand.Tile
-- ==== Proof.KEnc.lean ====
import proofs.«425797_j7249904796358_2_alg».proof.Proof.Gen.KernelIdeal.Frame
import Idealize.ShloMosaic.Lib.ValueIdx
import Idealize.ShloMosaic.Lib.Pipeline.Value
import Idealize.ShloMosaic.Lib.StableHlo.Run
import Idealize.ShloMosaic.PureOps.Ideal.Laws
import proofs.«425797_j7249904796358_2_alg».proof.Proof.LibDot
import proofs.«425797_j7249904796358_2_alg».proof.Proof.KHostArgs
import proofs.«425797_j7249904796358_2_alg».proof.Proof.KTile
import proofs.«425797_j7249904796358_2_alg».proof.Proof.KBlock

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen
open scoped BigOperators

theorem encMatmul_apply (x : FVec Ideal S5000x128 .bf16) (w : FVec Ideal S128x128 .bf16) (p : Fin 5000) (q : Fin 128) :
    matmul (F := Ideal) dot_S5000x128_S128x128_S5000x128_1_0_0_1_n_n none x w (constant (F := Ideal) S5000x128 .f32 0x00000000#32) (ix2 p q)
      = ∑ k : Fin 128, x (ix2 p k) * w (ix2 k q) :=
  Cert.Stage.At.matmul_zero_apply _ rfl rfl rfl rfl rfl rfl none x w p q

theorem encPay_apply (x0 : Vec Ideal S5000x128 .f32) (x1 : Vec Ideal S128x128 .f32) (x2 : Vec Ideal S1x128 .f32) (p : Fin 5000) (q : Fin 128) :
    k0_pay1 (F := Ideal) x0 x1 x2 (ix2 p q) = (∑ k : Fin 128, x0 (ix2 p k) * x1 (ix2 k q)) + x2 (ix2 0 q) := by
  unfold k0_pay1
  rw [addf_apply, encMatmul_apply]
  rw [shapeCast_self]
  rw [broadcastTo_apply x2 broadcasts_S1x128_S5000x128 (ix2 p q) (ix2 0 q) (by
    intro a; match a with
    | ⟨0, _⟩ => rfl
    | ⟨1, _⟩ => rfl)]
  rfl

abbrev EncG (a0 : S100000x128.Idx → EReal) (a1 : S128x128.Idx → EReal) (a2 : S1x128.Idx → EReal) : S100000x128.Idx → EReal :=
  fun i => (∑ k : Fin 128, a0 (ix2 (i 0 : Fin 100000) k) * a1 (ix2 k (i 1 : Fin 128))) + a2 (ix2 (0 : Fin 1) (i 1 : Fin 128))

theorem enc_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

theorem enc_flushed (c : Dev nD) (t : Fin cfg0.N) :
    (dat0 (F := Ideal) V c).flushed 3 t
      = ((cfg0.win 3).blk t).view.read (Elt Ideal) (EncG (V c main_arg0) (V c main_arg7) (V c main_v4)) := by
  show (cfg0.win 3).cut (grid0.coords t) ((dat0 V c).after 3 t) = _
  rw [after0_3]
  unfold out0_3
  rw [View.canon_unit_zero Tile.hz]
  simp only [View.ld_unit_zero (S := S5000x128) Tile.hz, View.ld_unit_zero (S := S128x128) Tile.hz, View.ld_unit_zero (S := S1x128) Tile.hz]
  obtain ⟨e00, e01, e10, e11, e20, e21, e30, e31⟩ := enc_idx_facts t
  funext j
  have hp : (j 0).val < 5000 := Nat.lt_of_lt_of_le (j 0).isLt ((cfg0.win 3).xsize_le (grid0.coords t) 0)
  have hq : (j 1).val < 128 := Nat.lt_of_lt_of_le (j 1).isLt ((cfg0.win 3).xsize_le (grid0.coords t) 1)
  have e : (cfg0.win 3).xinj (grid0.coords t) j = ix2 (⟨(j 0).val, hp⟩ : Fin 5000) (⟨(j 1).val, hq⟩ : Fin 128) := by
    funext a; match a with | ⟨0, _⟩ => rfl | ⟨1, _⟩ => rfl
  show k0_pay1 (F := Ideal) _ _ _ ((cfg0.win 3).xinj (grid0.coords t) j) = _
  rw [e, encPay_apply, View.read_apply]
  refine congrArg₂ (· + ·) (Finset.sum_congr rfl fun k _ => congrArg₂ (· * ·) ?_ ?_) ?_
  · unfold iblk0; rw [View.read_apply]
    show V c main_arg0 _ = V c main_arg0 _
    congr 1; funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · unfold iblk0; rw [View.read_apply]
    show V c main_arg7 _ = V c main_arg7 _
    congr 1; funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · unfold iblk0; rw [View.read_apply]
    show V c main_v4 _ = V c main_v4 _
    congr 1; funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

theorem enc_cover (i : S100000x128.Idx) :
    ∃ t : Fin cfg0.N, (cfg0.win 3).flush t = true ∧ i ∈ ((cfg0.win 3).blk t).view.set := by
  have hi0 : (i 0).val < 100000 := idx2_lt0 i
  have hN : (i 0).val / 5000 < cfg0.N := by show _ < grid0.N; rw [N_0]; omega
  obtain ⟨-, -, -, -, -, -, e30, e31⟩ := enc_idx_facts ⟨(i 0).val / 5000, hN⟩
  refine ⟨⟨(i 0).val / 5000, hN⟩, flush0_3 _, ?_⟩
  show i ∈ ((View.whole main_v5).slice (win0_3.rect ⟨(i 0).val / 5000, hN⟩)).set
  rw [View.set_slice_whole, Rect.mem_set_unit]
  exact Tile.forall_fin2 (Tile.div_block 5000 (i 0).val (by decide) e30) (Tile.zero_block 128 (i 1).val (idx2_lt1 i) e31)

theorem enc_final (c : Dev nD) :
    (dat0 (F := Ideal) V c).arrAt 3 cfg0.N = EncG (V c main_arg0) (V c main_arg7) (V c main_v4) :=
  (dat0 (F := Ideal) V c).arrAt_eq_of_cover 3 _ (fun t _ => enc_flushed V c t) enc_cover

variable (m : (ℓ : Loc nD τ sig) → Buf (Elt Ideal) ℓ) (ρ : Dev nD → PrngReg)

theorem enc_entry_arg0 (c : Dev nD) :
    W1 (F := Ideal) m ρ c (Proc.devRef .tc main_arg0) = m ((c : Thread nD τ).loc main_arg0) := by
  carry_host hostOps0

theorem enc_entry_arg7 (c : Dev nD) :
    W1 (F := Ideal) m ρ c (Proc.devRef .tc main_arg7) = m ((c : Thread nD τ).loc main_arg7) := by
  carry_host hostOps0

theorem enc_entry_v4 (c : Dev nD) :
    (W1 (F := Ideal) m ρ c (Proc.devRef .tc main_v4) : S1x128.Idx → EReal)
      = shapeCast S1x128 (m ((c : Thread nD τ).loc main_arg8) : S128.Idx → EReal) shapeCasts_S128_S1x128 := by
  show StableHlo.after hostOps0 (W0 m ρ c) (Proc.devRef .tc main_v4) = _
  after_results
  rfl

theorem enc_bias_apply (x : S128.Idx → EReal) (j : Fin 128) :
    shapeCast S1x128 x shapeCasts_S128_S1x128 (ix2 (0 : Fin 1) j) = x (ix1 j) :=
  shapeCast_apply x shapeCasts_S128_S1x128 (ix2 (0 : Fin 1) j) (ix1 j) (by
    rw [Shape.rowMajor_val_one, Shape.rowMajor_val_two]; show j.val = 0 * 128 + j.val; omega)

abbrev encX (c : Dev nD) : S100000x128.Idx → EReal := m ((c : Thread nD τ).loc main_arg0)
abbrev encW (c : Dev nD) : S128x128.Idx → EReal := m ((c : Thread nD τ).loc main_arg7)
abbrev encB (c : Dev nD) : S128.Idx → EReal := m ((c : Thread nD τ).loc main_arg8)
abbrev encOut (c : Dev nD) : S100000x128.Idx → EReal := W2 (F := Ideal) m ρ c (Proc.devRef .tc main_v5)

theorem enc_apply (c : Dev nD) (i : Fin 100000) (j : Fin 128) :
    encOut m ρ c (ix2 i j) = (∑ k : Fin 128, encX m c (ix2 i k) * encW m c (ix2 k j)) + encB m c (ix1 j) := by
  have h : encOut m ρ c = EncG (V1 m ρ c main_arg0) (V1 m ρ c main_arg7) (V1 m ρ c main_v4) :=
    (W2_arr m ρ c 3).trans (enc_final (V1 m ρ) c)
  have h0 : (V1 (F := Ideal) m ρ c main_arg0 : S100000x128.Idx → EReal) = encX m c := enc_entry_arg0 m ρ c
  have h1 : (V1 (F := Ideal) m ρ c main_arg7 : S128x128.Idx → EReal) = encW m c := enc_entry_arg7 m ρ c
  have h2 : (V1 (F := Ideal) m ρ c main_v4 : S1x128.Idx → EReal) = shapeCast S1x128 (encB m c) shapeCasts_S128_S1x128 :=
    enc_entry_v4 m ρ c
  have e : encOut m ρ c = EncG (encX m c) (encW m c) (shapeCast S1x128 (encB m c) shapeCasts_S128_S1x128) :=
    h.trans (congr (congr (congrArg EncG h0) h1) h2)
  rw [e]
  show (∑ k : Fin 128, encX m c (ix2 i k) * encW m c (ix2 k j))
      + shapeCast S1x128 (encB m c) shapeCasts_S128_S1x128 (ix2 (0 : Fin 1) j) = _
  rw [enc_bias_apply]

end Cert.KernelIdeal.Hand
-- ==== Proof.KMlp.lean ====
import proofs.«425797_j7249904796358_2_alg».proof.Proof.Gen.KernelIdeal.Frame
import Idealize.ShloMosaic.Lib.ValueIdx
import Idealize.ShloMosaic.Lib.Pipeline.Value
import Idealize.ShloMosaic.Lib.StableHlo.Run
import Idealize.ShloMosaic.PureOps.Ideal.Laws
import proofs.«425797_j7249904796358_2_alg».proof.Proof.LibDot
import proofs.«425797_j7249904796358_2_alg».proof.Proof.KHostArgs
import proofs.«425797_j7249904796358_2_alg».proof.Proof.KTile
import proofs.«425797_j7249904796358_2_alg».proof.Proof.KBlock

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen
open scoped BigOperators

theorem mlp1Matmul_apply (x : FVec Ideal S512x128 .bf16) (w : FVec Ideal S128x256 .bf16) (p : Fin 512) (q : Fin 256) :
    matmul (F := Ideal) dot_S512x128_S128x256_S512x256_1_0_0_1_n_n none x w (constant (F := Ideal) S512x256 .f32 0x00000000#32) (ix2 p q)
      = ∑ k : Fin 128, x (ix2 p k) * w (ix2 k q) :=
  Cert.Stage.At.matmul_zero_apply _ rfl rfl rfl rfl rfl rfl none x w p q

theorem mlp2Matmul_apply (x : FVec Ideal S512x256 .bf16) (w : FVec Ideal S256x10 .bf16) (p : Fin 512) (q : Fin 10) :
    matmul (F := Ideal) dot_S512x256_S256x10_S512x10_1_0_0_1_n_n none x w (constant (F := Ideal) S512x10 .f32 0x00000000#32) (ix2 p q)
      = ∑ k : Fin 256, x (ix2 p k) * w (ix2 k q) :=
  Cert.Stage.At.matmul_zero_apply _ rfl rfl rfl rfl rfl rfl none x w p q

theorem mlpPay_apply (x0 : Vec Ideal S512x128 .f32) (x1 : Vec Ideal S128x256 .f32) (x2 : Vec Ideal S1x256 .f32)
    (x3 : Vec Ideal S256x10 .f32) (x4 : Vec Ideal S1x10 .f32) (p : Fin 512) (q : Fin 10) :
    k4_pay1 (F := Ideal) x0 x1 x2 x3 x4 (ix2 p q)
      = (∑ k : Fin 256, max ((∑ l : Fin 128, x0 (ix2 p l) * x1 (ix2 l k)) + x2 (ix2 (0 : Fin 1) k)) 0 * x3 (ix2 k q))
        + x4 (ix2 (0 : Fin 1) q) := by
  unfold k4_pay1
  rw [addf_apply, mlp2Matmul_apply]
  refine congrArg₂ (· + ·) (Finset.sum_congr rfl fun k _ => congrArg₂ (· * ·) ?_ rfl) ?_
  · rw [truncf_apply, maximumf_apply, addf_apply, mlp1Matmul_apply, shapeCast_self, shapeCast_self]
    rw [broadcastTo_apply x2 broadcasts_S1x256_S512x256 (ix2 p k) (ix2 (0 : Fin 1) k) (by
      intro a; match a with
      | ⟨0, _⟩ => rfl
      | ⟨1, _⟩ => rfl)]
    rw [broadcast_apply]
    show max _ (Ideal.ofBits .f32 0x00000000#32) = _
    rw [Ideal.ofBits_zero_f32]
    rfl
  · rw [shapeCast_self]
    exact broadcastTo_apply x4 broadcasts_S1x10_S512x10 (ix2 p q) (ix2 (0 : Fin 1) q) (by
      intro a; match a with
      | ⟨0, _⟩ => rfl
      | ⟨1, _⟩ => rfl)

abbrev MlpG (a0 : S512x128.Idx → EReal) (a1 : S128x256.Idx → EReal) (a2 : S1x256.Idx → EReal)
    (a3 : S256x10.Idx → EReal) (a4 : S1x10.Idx → EReal) : S512x10.Idx → EReal :=
  fun i => (∑ k : Fin 256, max ((∑ l : Fin 128, a0 (ix2 (i 0 : Fin 512) l) * a1 (ix2 l k)) + a2 (ix2 (0 : Fin 1) k)) 0
        * a3 (ix2 k (i 1 : Fin 10)))
      + a4 (ix2 (0 : Fin 1) (i 1 : Fin 10))

theorem mlp_idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

variable (V : (c : Dev nD) → (b : Ref sig .tc) → Buf (Elt Ideal) ((c : Thread nD τ).loc b))

theorem mlp_flushed (c : Dev nD) (t : Fin cfg4.N) :
    (dat4 (F := Ideal) V c).flushed 5 t
      = ((cfg4.win 5).blk t).view.read (Elt Ideal)
          (MlpG (V c main_v188) (V c main_arg15) (V c main_v189) (V c main_arg17) (V c main_v190)) := by
  show (cfg4.win 5).cut (grid4.coords t) ((dat4 V c).after 5 t) = _
  rw [after4_5]
  unfold out4_5
  rw [View.canon_unit_zero Tile.hz]
  simp only [View.ld_unit_zero (S := S512x128) Tile.hz, View.ld_unit_zero (S := S128x256) Tile.hz, View.ld_unit_zero (S := S1x256) Tile.hz,
    View.ld_unit_zero (S := S256x10) Tile.hz, View.ld_unit_zero (S := S1x10) Tile.hz]
  obtain ⟨e00, e01, e10, e11, e20, e21, e30, e31, e40, e41, e50, e51⟩ := mlp_idx_facts t
  funext j
  have hp : (j 0).val < 512 := Nat.lt_of_lt_of_le (j 0).isLt ((cfg4.win 5).xsize_le (grid4.coords t) 0)
  have hq : (j 1).val < 10 := Nat.lt_of_lt_of_le (j 1).isLt ((cfg4.win 5).xsize_le (grid4.coords t) 1)
  have e : (cfg4.win 5).xinj (grid4.coords t) j = ix2 (⟨(j 0).val, hp⟩ : Fin 512) (⟨(j 1).val, hq⟩ : Fin 10) := by
    funext a; match a with | ⟨0, _⟩ => rfl | ⟨1, _⟩ => rfl
  show k4_pay1 (F := Ideal) _ _ _ _ _ ((cfg4.win 5).xinj (grid4.coords t) j) = _
  rw [e, mlpPay_apply, View.read_apply]
  refine congrArg₂ (· + ·) (Finset.sum_congr rfl fun k _ => congrArg₂ (· * ·)
    (congrArg (fun x : EReal => max x 0) (congrArg₂ (· + ·) (Finset.sum_congr rfl fun l _ => congrArg₂ (· * ·) ?_ ?_) ?_)) ?_) ?_
  · unfold iblk4; rw [View.read_apply]
    show V c main_v188 _ = V c main_v188 _
    refine congrArg _ (funext fun a => Fin.ext ?_)
    match a with
    | ⟨0, _⟩ => show win4_0.index t (0 : Fin 2) * 512 + 1 * (j 0).val = win4_5.index t (0 : Fin 2) * 512 + 1 * (j 0).val; omega
    | ⟨1, _⟩ => show win4_0.index t (1 : Fin 2) * 128 + 1 * l.val = l.val; omega
  · unfold iblk4; rw [View.read_apply]
    show V c main_arg15 _ = V c main_arg15 _
    refine congrArg _ (funext fun a => Fin.ext ?_)
    match a with
    | ⟨0, _⟩ => show win4_1.index t (0 : Fin 2) * 128 + 1 * l.val = l.val; omega
    | ⟨1, _⟩ => show win4_1.index t (1 : Fin 2) * 256 + 1 * k.val = k.val; omega
  · unfold iblk4; rw [View.read_apply]
    show V c main_v189 _ = V c main_v189 _
    refine congrArg _ (funext fun a => Fin.ext ?_)
    match a with
    | ⟨0, _⟩ => show win4_2.index t (0 : Fin 2) * 1 + 1 * 0 = 0; omega
    | ⟨1, _⟩ => show win4_2.index t (1 : Fin 2) * 256 + 1 * k.val = k.val; omega
  · unfold iblk4; rw [View.read_apply]
    show V c main_arg17 _ = V c main_arg17 _
    refine congrArg _ (funext fun a => Fin.ext ?_)
    match a with
    | ⟨0, _⟩ => show win4_3.index t (0 : Fin 2) * 256 + 1 * k.val = k.val; omega
    | ⟨1, _⟩ => show win4_3.index t (1 : Fin 2) * 10 + 1 * (j 1).val = win4_5.index t (1 : Fin 2) * 10 + 1 * (j 1).val; omega
  · unfold iblk4; rw [View.read_apply]
    show V c main_v190 _ = V c main_v190 _
    refine congrArg _ (funext fun a => Fin.ext ?_)
    match a with
    | ⟨0, _⟩ => show win4_4.index t (0 : Fin 2) * 1 + 1 * 0 = 0; omega
    | ⟨1, _⟩ => show win4_4.index t (1 : Fin 2) * 10 + 1 * (j 1).val = win4_5.index t (1 : Fin 2) * 10 + 1 * (j 1).val; omega

theorem mlp_cover (i : S512x10.Idx) :
    ∃ t : Fin cfg4.N, (cfg4.win 5).flush t = true ∧ i ∈ ((cfg4.win 5).blk t).view.set := by
  obtain ⟨-, -, -, -, -, -, -, -, -, -, e50, e51⟩ := mlp_idx_facts t4_0
  refine ⟨t4_0, flush4_5 _, ?_⟩
  show i ∈ ((View.whole main_v191).slice (win4_5.rect t4_0)).set
  rw [View.set_slice_whole, Rect.mem_set_unit]
  exact Tile.forall_fin2 (Tile.zero_block 512 (i 0).val (idx2_lt0 i) e50) (Tile.zero_block 10 (i 1).val (idx2_lt1 i) e51)

theorem mlp_final (c : Dev nD) :
    (dat4 (F := Ideal) V c).arrAt 5 cfg4.N
      = MlpG (V c main_v188) (V c main_arg15) (V c main_v189) (V c main_arg17) (V c main_v190) :=
  (dat4 (F := Ideal) V c).arrAt_eq_of_cover 5 _ (fun t _ => mlp_flushed V c t) mlp_cover

variable (m : (ℓ : Loc nD τ sig) → Buf (Elt Ideal) ℓ) (ρ : Dev nD → PrngReg)

theorem mlp_entry_arg15 (c : Dev nD) :
    W21 (F := Ideal) m ρ c (Proc.devRef .tc main_arg15) = m ((c : Thread nD τ).loc main_arg15) :=
  ((W22_arr m ρ c 1).trans (((dat4 (V21 m ρ) c).arrAt_in 1 rfl _).trans (A_eq4 (V21 m ρ) c 1))).symm.trans (W22_main_arg15 m ρ c)

theorem mlp_entry_arg17 (c : Dev nD) :
    W21 (F := Ideal) m ρ c (Proc.devRef .tc main_arg17) = m ((c : Thread nD τ).loc main_arg17) :=
  ((W22_arr m ρ c 3).trans (((dat4 (V21 m ρ) c).arrAt_in 3 rfl _).trans (A_eq4 (V21 m ρ) c 3))).symm.trans (W22_main_arg17 m ρ c)

theorem mlp_pre_arg16 (c : Dev nD) :
    W20 (F := Ideal) m ρ c (Proc.devRef .tc main_arg16) = m ((c : Thread nD τ).loc main_arg16) :=
  (by carry_host hostOps4_4 : W21 (F := Ideal) m ρ c (Proc.devRef .tc main_arg16) = W20 (F := Ideal) m ρ c (Proc.devRef .tc main_arg16)).symm.trans
    ((W22_of_ne m ρ c main_arg16 (by decide)).symm.trans (W22_main_arg16 m ρ c))

theorem mlp_pre_arg18 (c : Dev nD) :
    W20 (F := Ideal) m ρ c (Proc.devRef .tc main_arg18) = m ((c : Thread nD τ).loc main_arg18) :=
  (by carry_host hostOps4_4 : W21 (F := Ideal) m ρ c (Proc.devRef .tc main_arg18) = W20 (F := Ideal) m ρ c (Proc.devRef .tc main_arg18)).symm.trans
    ((W22_of_ne m ρ c main_arg18 (by decide)).symm.trans (W22_main_arg18 m ρ c))

theorem mlp_stretch_v189 (Z : Valuation τ sig (Elt Ideal)) :
    (StableHlo.after hostOps4_4 Z (Proc.devRef .tc main_v189) : S1x256.Idx → EReal)
      = shapeCast S1x256 (Z (Proc.devRef .tc main_arg16) : S256.Idx → EReal) shapeCasts_S256_S1x256 := by
  after_results
  rfl

theorem mlp_stretch_v190 (Z : Valuation τ sig (Elt Ideal)) :
    (StableHlo.after hostOps4_4 Z (Proc.devRef .tc main_v190) : S1x10.Idx → EReal)
      = shapeCast S1x10 (Z (Proc.devRef .tc main_arg18) : S10.Idx → EReal) shapeCasts_S10_S1x10 := by
  after_results
  rfl

theorem mlp_bias1_apply (x : S256.Idx → EReal) (j : Fin 256) :
    shapeCast S1x256 x shapeCasts_S256_S1x256 (ix2 (0 : Fin 1) j) = x (ix1 j) :=
  shapeCast_apply x shapeCasts_S256_S1x256 (ix2 (0 : Fin 1) j) (ix1 j) (by
    rw [Shape.rowMajor_val_one, Shape.rowMajor_val_two]; show j.val = 0 * 256 + j.val; omega)
theorem mlp_bias2_apply (x : S10.Idx → EReal) (j : Fin 10) :
    shapeCast S1x10 x shapeCasts_S10_S1x10 (ix2 (0 : Fin 1) j) = x (ix1 j) :=
  shapeCast_apply x shapeCasts_S10_S1x10 (ix2 (0 : Fin 1) j) (ix1 j) (by
    rw [Shape.rowMajor_val_one, Shape.rowMajor_val_two]; show j.val = 0 * 10 + j.val; omega)

abbrev mlpHG (c : Dev nD) : S512x128.Idx → EReal := W21 (F := Ideal) m ρ c (Proc.devRef .tc main_v188)
abbrev mlpW1 (c : Dev nD) : S128x256.Idx → EReal := m ((c : Thread nD τ).loc main_arg15)
abbrev mlpB1 (c : Dev nD) : S256.Idx → EReal := m ((c : Thread nD τ).loc main_arg16)
abbrev mlpW2 (c : Dev nD) : S256x10.Idx → EReal := m ((c : Thread nD τ).loc main_arg17)
abbrev mlpB2 (c : Dev nD) : S10.Idx → EReal := m ((c : Thread nD τ).loc main_arg18)
abbrev mlpOut (c : Dev nD) : S512x10.Idx → EReal := W22 (F := Ideal) m ρ c (Proc.devRef .tc main_v191)

theorem mlp_apply (c : Dev nD) (i : Fin 512) (j : Fin 10) :
    mlpOut m ρ c (ix2 i j)
      = (∑ k : Fin 256, max ((∑ l : Fin 128, mlpHG m ρ c (ix2 i l) * mlpW1 m c (ix2 l k)) + mlpB1 m c (ix1 k)) 0
            * mlpW2 m c (ix2 k j))
        + mlpB2 m c (ix1 j) := by
  have h : mlpOut m ρ c
      = MlpG (V21 m ρ c main_v188) (V21 m ρ c main_arg15) (V21 m ρ c main_v189) (V21 m ρ c main_arg17) (V21 m ρ c main_v190) :=
    (W22_arr m ρ c 5).trans (mlp_final (V21 m ρ) c)
  have h1 : (V21 (F := Ideal) m ρ c main_arg15 : S128x256.Idx → EReal) = mlpW1 m c := mlp_entry_arg15 m ρ c
  have h3 : (V21 (F := Ideal) m ρ c main_arg17 : S256x10.Idx → EReal) = mlpW2 m c := mlp_entry_arg17 m ρ c
  have h2 : (V21 (F := Ideal) m ρ c main_v189 : S1x256.Idx → EReal) = shapeCast S1x256 (mlpB1 m c) shapeCasts_S256_S1x256 :=
    (mlp_stretch_v189 (W20 m ρ c)).trans (congrArg (fun x : S256.Idx → EReal => shapeCast S1x256 x shapeCasts_S256_S1x256) (mlp_pre_arg16 m ρ c))
  have h4 : (V21 (F := Ideal) m ρ c main_v190 : S1x10.Idx → EReal) = shapeCast S1x10 (mlpB2 m c) shapeCasts_S10_S1x10 :=
    (mlp_stretch_v190 (W20 m ρ c)).trans (congrArg (fun x : S10.Idx → EReal => shapeCast S1x10 x shapeCasts_S10_S1x10) (mlp_pre_arg18 m ρ c))
  have e : mlpOut m ρ c = MlpG (mlpHG m ρ c) (mlpW1 m c) (shapeCast S1x256 (mlpB1 m c) shapeCasts_S256_S1x256)
      (mlpW2 m c) (shapeCast S1x10 (mlpB2 m c) shapeCasts_S10_S1x10) :=
    h.trans (congr (congr (congr (congrArg (MlpG (mlpHG m ρ c)) h1) h2) h3) h4)
  rw [e]
  show (∑ k : Fin 256, max ((∑ l : Fin 128, mlpHG m ρ c (ix2 i l) * mlpW1 m c (ix2 l k))
          + shapeCast S1x256 (mlpB1 m c) shapeCasts_S256_S1x256 (ix2 (0 : Fin 1) k)) 0 * mlpW2 m c (ix2 k j))
      + shapeCast S1x10 (mlpB2 m c) shapeCasts_S10_S1x10 (ix2 (0 : Fin 1) j) = _
  rw [mlp_bias2_apply]
  simp only [mlp_bias1_apply]

end Cert.KernelIdeal.Hand
-- ==== Proof.KPool.lean ====
import proofs.«425797_j7249904796358_2_alg».proof.Proof.Gen.KernelIdeal.Frame
import proofs.«425797_j7249904796358_2_alg».proof.Proof.Gen.ReferenceIdeal
import proofs.«425797_j7249904796358_2_alg».proof.Proof.Stage
import proofs.«425797_j7249904796358_2_alg».proof.Proof.KHostArgs
import Idealize.ShloMosaic.Lib.StableHlo.Run
import Idealize.ShloMosaic.PureOps.Ideal

set_option maxRecDepth 16384

noncomputable section

namespace Cert.KernelIdeal.Hand

open Idealize.ShloMosaic Idealize.ShloMosaic.TcCoe
open Cert.KernelIdeal Cert.KernelIdeal.Gen

def KPOOL' (h : FVec Ideal S100000x128 .f32) (batch sb : IVec S100000 32) (sib : IVec S4096 32)
    (z : IVec S1 32) (run : IVec S512 32) : FVec Ideal S512x128 .f32 :=
  let tmp : IVec S513 32 := concatenate S513 0 [⟨S1, z⟩, ⟨S512, run⟩] concatenates_S1_S512_S513_d0
  let neg : IVec S100000 1 := cmpi .slt batch (broadcastInDim S100000 ![] bcast_S_S100000 (constantI S_ 32 0#32))
  let wrapped : IVec S100000 32 :=
    select neg (addi batch (broadcastInDim S100000 ![] bcast_S_S100000 (constantI S_ 32 513#32))) batch
  let sid : IVec S100000 32 :=
    addi sb (Host.gather gather_S513_S100000x1_S100000_n_0_n_n_0_1_1 tmp
      (broadcastInDim S100000x1 ![0] bcast_S100000_S100000x1_0 wrapped))
  let sum1 : FVec Ideal S4096x128 .f32 :=
    Host.scatterAdd (F := Ideal) scatter_S4096x128_S100000x1_S100000x128_1_0_0_1
      (broadcastInDim S4096x128 ![] bcast_S_S4096x128 (constant (F := Ideal) S_ .f32 0x00000000#32))
      (broadcastInDim S100000x1 ![0] bcast_S100000_S100000x1_0 sid) h
  let cnt1 : FVec Ideal S4096x1 .f32 :=
    Host.scatterAdd (F := Ideal) scatter_S4096x1_S100000x1_S100000x1_1_0_0_1
      (broadcastInDim S4096x1 ![] bcast_S_S4096x1 (constant (F := Ideal) S_ .f32 0x00000000#32))
      (broadcastInDim S100000x1 ![0] bcast_S100000_S100000x1_0 sid)
      (broadcastInDim S100000x1 ![] bcast_S_S100000x1 (constant (F := Ideal) S_ .f32 0x3F800000#32))
  let mean1 : FVec Ideal S4096x128 .f32 :=
    Host.divf (F := Ideal) sum1
      (broadcastInDim S4096x128 ![0, 1] bcast_S4096x1_S4096x128_0_1
        (maximumf (F := Ideal) cnt1
          (broadcastInDim S4096x1 ![] bcast_S_S4096x1 (constant (F := Ideal) S_ .f32 0x3F800000#32))))
  let sum2 : FVec Ideal S512x128 .f32 :=
    Host.scatterAdd (F := Ideal) scatter_S512x128_S4096x1_S4096x128_1_0_0_1
      (broadcastInDim S512x128 ![] bcast_S_S512x128 (constant (F := Ideal) S_ .f32 0x00000000#32))
      (broadcastInDim S4096x1 ![0] bcast_S4096_S4096x1_0 sib) mean1
  let cnt2 : FVec Ideal S512x1 .f32 :=
    Host.scatterAdd (F := Ideal) scatter_S512x1_S4096x1_S4096x1_1_0_0_1
      (broadcastInDim S512x1 ![] bcast_S_S512x1 (constant (F := Ideal) S_ .f32 0x00000000#32))
      (broadcastInDim S4096x1 ![0] bcast_S4096_S4096x1_0 sib)
      (broadcastInDim S4096x1 ![] bcast_S_S4096x1 (constant (F := Ideal) S_ .f32 0x3F800000#32))
  Host.divf (F := Ideal) sum2
    (broadcastInDim S512x128 ![0, 1] bcast_S512x1_S512x128_0_1
      (maximumf (F := Ideal) cnt2
        (broadcastInDim S512x1 ![] bcast_S_S512x1 (constant (F := Ideal) S_ .f32 0x3F800000#32))))

def KZ : IVec S1 32 := broadcastInDim S1 ![] bcast_S_S1 (constantI S_ 32 0#32)

def KRUN (ns : IVec S512 32) : IVec S512 32 :=
  Host.reduceWindow IntOp.addi ![512] ![1] ![511] ![0] ns
    (broadcastInDim S_ ![] bcast_S_S_ (constantI S_ 32 0#32)) reduceWindows_S512_S512_w512s1p511_0 h_S_

def KPOOL (h : FVec Ideal S100000x128 .f32) (batch sb : IVec S100000 32) (sib : IVec S4096 32) (ns : IVec S512 32) :
    FVec Ideal S512x128 .f32 :=
  KPOOL' h batch sb sib KZ (KRUN ns)

section Stretch
variable (V : Valuation τ sig (Elt Ideal))

theorem after4_2_v156 :
    StableHlo.after (hostOps4_2 (F := Ideal)) V (Proc.devRef .tc main_v156) = KZ := by
  unfold KZ
  after_results

theorem after4_3_v157 :
    StableHlo.after (hostOps4_3 (F := Ideal)) V (Proc.devRef .tc main_v157)
      = KRUN (V (Proc.devRef .tc main_arg6)) := by
  unfold KRUN
  after_results
  simp only [cast_eq]

theorem after4_4_v188 :
    StableHlo.after (hostOps4_4 (F := Ideal)) V (Proc.devRef .tc main_v188)
      = KPOOL' (V (Proc.devRef .tc main_v155)) (V (Proc.devRef .tc main_arg3)) (V (Proc.devRef .tc main_arg4))
          (V (Proc.devRef .tc main_arg5)) (V (Proc.devRef .tc main_v156)) (V (Proc.devRef .tc main_v157)) := by
  after_results_simp
  rfl

end Stretch

section Carry
variable (m : (ℓ : Loc nD τ sig) → Buf (Elt Ideal) ℓ) (ρ : Dev nD → PrngReg) (c : Dev nD)

theorem W20_main_arg3 : W20 (F := Ideal) m ρ c (Proc.devRef .tc main_arg3) = m ((c : Thread nD τ).loc main_arg3) :=
  calc W20 (F := Ideal) m ρ c (Proc.devRef .tc main_arg3)
    _ = W21 m ρ c (Proc.devRef .tc main_arg3) := Eq.symm (by carry_host hostOps4_4)
    _ = W22 m ρ c (Proc.devRef .tc main_arg3) := (W22_of_ne m ρ c main_arg3 (by decide)).symm
    _ = m ((c : Thread nD τ).loc main_arg3) := W22_main_arg3 m ρ c
theorem W20_main_arg4 : W20 (F := Ideal) m ρ c (Proc.devRef .tc main_arg4) = m ((c : Thread nD τ).loc main_arg4) :=
  calc W20 (F := Ideal) m ρ c (Proc.devRef .tc main_arg4)
    _ = W21 m ρ c (Proc.devRef .tc main_arg4) := Eq.symm (by carry_host hostOps4_4)
    _ = W22 m ρ c (Proc.devRef .tc main_arg4) := (W22_of_ne m ρ c main_arg4 (by decide)).symm
    _ = m ((c : Thread nD τ).loc main_arg4) := W22_main_arg4 m ρ c
theorem W20_main_arg5 : W20 (F := Ideal) m ρ c (Proc.devRef .tc main_arg5) = m ((c : Thread nD τ).loc main_arg5) :=
  calc W20 (F := Ideal) m ρ c (Proc.devRef .tc main_arg5)
    _ = W21 m ρ c (Proc.devRef .tc main_arg5) := Eq.symm (by carry_host hostOps4_4)
    _ = W22 m ρ c (Proc.devRef .tc main_arg5) := (W22_of_ne m ρ c main_arg5 (by decide)).symm
    _ = m ((c : Thread nD τ).loc main_arg5) := W22_main_arg5 m ρ c

theorem W19_main_arg6 : W19 (F := Ideal) m ρ c (Proc.devRef .tc main_arg6) = m ((c : Thread nD τ).loc main_arg6) :=
  calc W19 (F := Ideal) m ρ c (Proc.devRef .tc main_arg6)
    _ = W20 m ρ c (Proc.devRef .tc main_arg6) := Eq.symm (by carry_host hostOps4_3)
    _ = W21 m ρ c (Proc.devRef .tc main_arg6) := Eq.symm (by carry_host hostOps4_4)
    _ = W22 m ρ c (Proc.devRef .tc main_arg6) := (W22_of_ne m ρ c main_arg6 (by decide)).symm
    _ = m ((c : Thread nD τ).loc main_arg6) := W22_main_arg6 m ρ c

theorem W20_main_v155 : W20 (F := Ideal) m ρ c (Proc.devRef .tc main_v155) = W18 (F := Ideal) m ρ c (Proc.devRef .tc main_v155) :=
  calc W20 (F := Ideal) m ρ c (Proc.devRef .tc main_v155)
    _ = W19 m ρ c (Proc.devRef .tc main_v155) := by carry_host hostOps4_3
    _ = W18 m ρ c (Proc.devRef .tc main_v155) := by carry_host hostOps4_2

theorem W20_main_v156 : W20 (F := Ideal) m ρ c (Proc.devRef .tc main_v156) = KZ :=
  calc W20 (F := Ideal) m ρ c (Proc.devRef .tc main_v156)
    _ = W19 m ρ c (Proc.devRef .tc main_v156) := by carry_host hostOps4_3
    _ = KZ := after4_2_v156 (W18 (F := Ideal) m ρ c)

theorem W20_main_v157 : W20 (F := Ideal) m ρ c (Proc.devRef .tc main_v157) = KRUN (m ((c : Thread nD τ).loc main_arg6)) :=
  (after4_3_v157 (W19 (F := Ideal) m ρ c)).trans (congrArg KRUN (W19_main_arg6 m ρ c))

theorem pool_value_K : W21 (F := Ideal) m ρ c (Proc.devRef .tc main_v188)
    = KPOOL (W18 (F := Ideal) m ρ c (Proc.devRef .tc main_v155)) (m ((c : Thread nD τ).loc main_arg3))
        (m ((c : Thread nD τ).loc main_arg4)) (m ((c : Thread nD τ).loc main_arg5)) (m ((c : Thread nD τ).loc main_arg6)) := by
  refine (after4_4_v188 (W20 (F := Ideal) m ρ c)).trans ?_
  rw [W20_main_v155, W20_main_arg3, W20_main_arg4, W20_main_arg5, W20_main_v156, W20_main_v157]
  rfl

end Carry

theorem KPOOL_eq_POOL (h : FVec Ideal S100000x128 .f32) (batch sb : IVec S100000 32) (sib : IVec S4096 32)
    (ns : IVec S512 32) : KPOOL h batch sb sib ns = Cert.Stage.POOL h batch sb sib ns := rfl

section Value
variable (m : (ℓ : Loc nD τ sig) → Buf (Elt Ideal) ℓ) (ρ : Dev nD → PrngReg) (c : Dev nD)

theorem pool_value : W21 (F := Ideal) m ρ c (Proc.devRef .tc main_v188)
    = Cert.Stage.POOL (W18 (F := Ideal) m ρ c (Proc.devRef .tc main_v155)) (m ((c : Thread nD τ).loc main_arg3))
        (m ((c : Thread nD τ).loc main_arg4)) (m ((c : Thread nD τ).loc main_arg5)) (m ((c : Thread nD τ).loc main_arg6)) :=
  (pool_value_K m ρ c).trans (KPOOL_eq_POOL _ _ _ _ _)

end Value

end Cert.KernelIdeal.Hand
-- ==== Proof.KRegion1.lean ====
import proofs.«425797_j7249904796358_2_alg».proof.Proof.Gen.KernelIdeal.Frame
import proofs.«425797_j7249904796358_2_alg».proof.Proof.KTile
import proofs.«425797_j7249904796358_2_alg».proof.Proof.KBlock

noncomputable section

open Idealize.ShloMosaic Idealize.ShloMosaic.TcCoe Idealize.SL.Sem
open Idealize.ShloMosaic.Pipeline (Dat)
open Idealize.ShloMosaic.ValueIdx

namespace Cert.KernelIdeal.Hand.R1
open Cert.KernelIdeal Cert.KernelIdeal.Gen Cert.KernelIdeal.Hand.Tile

section Pieces
variable {F : FTy → Type} [FloatOps F] (c : Dev nD) (i : grid1.Coords)
  (a1 : Memref sig .tc .vmem S5000x128 .f32) (h1 : a1.IsWhole) (a2 : Memref sig .tc .vmem S5000x128 .f32) (h2 : a2.IsWhole)
  (a3 : Memref sig .tc .vmem S5000x16 .f32) (h3 : a3.IsWhole) (a4 : Memref sig .tc .vmem S128x128 .f32) (h4 : a4.IsWhole)
  (a5 : Memref sig .tc .vmem S128x128 .f32) (h5 : a5.IsWhole) (a6 : Memref sig .tc .vmem S16x128 .f32) (h6 : a6.IsWhole)
  (a7 : Memref sig .tc .vmem S1x128 .f32) (h7 : a7.IsWhole) (a8 : Memref sig .tc .vmem S5000x128 .f32) (h8 : a8.IsWhole)
  (a9 : Memref sig .tc .vmem S8x128 .f32) (h9 : a9.IsWhole)
  (x0 x1 : Vec F S5000x128 .f32) (x2 : Vec F S5000x16 .f32) (x3 x4 : Vec F S128x128 .f32) (x5 : Vec F S16x128 .f32) (x6 : Vec F S1x128 .f32)

theorem out7 : out1_A_7 c i a1 h1 a2 h2 a3 h3 a4 h4 a5 h5 a6 h6 a7 h7 a8 h8 a9 h9 x0 x1 x2 x3 x4 x5 x6 = k1_pay1 x0 x1 x2 x3 x4 x5 x6 := by
  unfold out1_A_7
  rw [View.read_writes_eq_canon _ _ _ (cover1_A_7 c i a1 h1 a2 h2 a3 h3 a4 h4 a5 h5 a6 h6 a7 h7 a8 h8 a9 h9 x0 x1 x2 x3 x4 x5 x6)]
  unfold kernelRun1_A
  dsimp only
  rw [View.canon_unit_zero hz]
  simp only [View.readAt_eq_ld, h1.read_unread, h2.read_unread, h3.read_unread, h4.read_unread, h5.read_unread, h6.read_unread, h7.read_unread,
    View.ld_unit_zero (S := S5000x128) hz, View.ld_unit_zero (S := S5000x16) hz, View.ld_unit_zero (S := S128x128) hz,
    View.ld_unit_zero (S := S16x128) hz, View.ld_unit_zero (S := S1x128) hz]

theorem out8 (q : Fin 8) (j : Fin 128) :
    out1_A_8 c i a1 h1 a2 h2 a3 h3 a4 h4 a5 h5 a6 h6 a7 h7 a8 h8 a9 h9 x0 x1 x2 x3 x4 x5 x6 (ix2 q j)
      = if q.val = 0 then k1_pay2 x0 x1 x2 x3 x4 x5 x6 (ix2 0 j)
        else if q.val = 1 then k1_pay3 x0 x1 x2 x3 x4 x5 x6 (ix2 0 j)
        else (k1_pay4 (F := F)) (ix2 q j) := by
  unfold out1_A_8
  rw [View.read_writes_eq_canon _ _ _ (cover1_A_8 c i a1 h1 a2 h2 a3 h3 a4 h4 a5 h5 a6 h6 a7 h7 a8 h8 a9 h9 x0 x1 x2 x3 x4 x5 x6)]
  unfold kernelRun1_A
  dsimp only
  sl_unfold_words
  simp only [View.readAt_eq_ld, h1.read_unread, h2.read_unread, h3.read_unread, h4.read_unread, h5.read_unread, h6.read_unread, h7.read_unread,
    View.ld_unit_zero (S := S5000x128) hz, View.ld_unit_zero (S := S5000x16) hz, View.ld_unit_zero (S := S128x128) hz,
    View.ld_unit_zero (S := S16x128) hz, View.ld_unit_zero (S := S1x128) hz]
  exact canon_rows (Val := Elt F) (k1_pay3 x0 x1 x2 x3 x4 x5 x6) (k1_pay2 x0 x1 x2 x3 x4 x5 x6) (k1_pay4 (F := F)) q j

end Pieces

section Blocks
variable (V : (c : Dev nD) → (b : Ref sig .tc) → Buf (Elt Ideal) ((c : Thread nD τ).loc b)) (c : Dev nD)

abbrev arrs : Arrs := ⟨V c (Pipeline.arrRef spec1 0), V c (Pipeline.arrRef spec1 1), V c (Pipeline.arrRef spec1 2), V c (Pipeline.arrRef spec1 3),
  V c (Pipeline.arrRef spec1 4), V c (Pipeline.arrRef spec1 5), V c (Pipeline.arrRef spec1 6)⟩

abbrev bh (t : Fin cfg1.N) : FVec Ideal S5000x128 .f32 := iblk1 V c 0 t
abbrev bg (t : Fin cfg1.N) : FVec Ideal S5000x128 .f32 := iblk1 V c 1 t
abbrev ba (t : Fin cfg1.N) : FVec Ideal S5000x16 .f32 := iblk1 V c 2 t
abbrev bwr (t : Fin cfg1.N) : FVec Ideal S128x128 .f32 := iblk1 V c 3 t
abbrev bwn (t : Fin cfg1.N) : FVec Ideal S128x128 .f32 := iblk1 V c 4 t
abbrev bwe (t : Fin cfg1.N) : FVec Ideal S16x128 .f32 := iblk1 V c 5 t
abbrev bb (t : Fin cfg1.N) : FVec Ideal S1x128 .f32 := iblk1 V c 6 t

theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0) :=
  (by decide +kernel : ∀ t : Fin grid1.N, _)

theorem bh_apply (t : Fin cfg1.N) (p : Fin 5000) (k : Fin 128) :
    bh V c t (ix2 p k) = (arrs V c).h (ix2 (rowOf (t.cast N_1) p) k) :=
  congrArg (arrs V c).h (Shape.idx_ext₂
    (at_tile 5000 p.val (idx_facts t).1.1)
    (at_zero 128 k.val (idx_facts t).1.2))

theorem bg_apply (t : Fin cfg1.N) (p : Fin 5000) (k : Fin 128) :
    bg V c t (ix2 p k) = (arrs V c).g (ix2 (rowOf (t.cast N_1) p) k) :=
  congrArg (arrs V c).g (Shape.idx_ext₂
    (at_tile 5000 p.val (idx_facts t).2.1.1)
    (at_zero 128 k.val (idx_facts t).2.1.2))

theorem ba_apply (t : Fin cfg1.N) (p : Fin 5000) (k : Fin 16) :
    ba V c t (ix2 p k) = (arrs V c).a (ix2 (rowOf (t.cast N_1) p) k) :=
  congrArg (arrs V c).a (Shape.idx_ext₂
    (at_tile 5000 p.val (idx_facts t).2.2.1.1)
    (at_zero 16 k.val (idx_facts t).2.2.1.2))

theorem bwr_eq (t : Fin cfg1.N) : bwr V c t = (arrs V c).wr :=
  funext fun y => congrArg (arrs V c).wr (Shape.idx_ext₂
    (at_zero 128 (y 0).val (idx_facts t).2.2.2.1.1)
    (at_zero 128 (y 1).val (idx_facts t).2.2.2.1.2))

theorem bwn_eq (t : Fin cfg1.N) : bwn V c t = (arrs V c).wn :=
  funext fun y => congrArg (arrs V c).wn (Shape.idx_ext₂
    (at_zero 128 (y 0).val (idx_facts t).2.2.2.2.1.1)
    (at_zero 128 (y 1).val (idx_facts t).2.2.2.2.1.2))

theorem bwe_eq (t : Fin cfg1.N) : bwe V c t = (arrs V c).we :=
  funext fun y => congrArg (arrs V c).we (Shape.idx_ext₂
    (at_zero 16 (y 0).val (idx_facts t).2.2.2.2.2.1.1)
    (at_zero 128 (y 1).val (idx_facts t).2.2.2.2.2.1.2))

theorem bb_eq (t : Fin cfg1.N) : bb V c t = (arrs V c).b :=
  funext fun y => congrArg (arrs V c).b (Shape.idx_ext₂
    (at_zero 1 (y 0).val (idx_facts t).2.2.2.2.2.2.1.1)
    (at_zero 128 (y 1).val (idx_facts t).2.2.2.2.2.2.1.2))

theorem outs7_eq (t : Fin cfg1.N) : (outsAt1 V c t).1 = k1_pay1 (F := Ideal) (bh V c t) (bg V c t) (ba V c t) (bwr V c t) (bwn V c t) (bwe V c t) (bb V c t) := by
  unfold outsAt1; dsimp only
  exact out7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t)

theorem outs8_apply (t : Fin cfg1.N) (q : Fin 8) (j : Fin 128) :
    (outsAt1 V c t).2 (ix2 q j)
      = if q.val = 0 then k1_pay2 (F := Ideal) (bh V c t) (bg V c t) (ba V c t) (bwr V c t) (bwn V c t) (bwe V c t) (bb V c t) (ix2 0 j)
        else if q.val = 1 then k1_pay3 (F := Ideal) (bh V c t) (bg V c t) (ba V c t) (bwr V c t) (bwn V c t) (bwe V c t) (bb V c t) (ix2 0 j)
        else (k1_pay4 (F := Ideal)) (ix2 q j) := by
  unfold outsAt1; dsimp only
  exact out8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) q j

end Blocks

section Arrays
variable (V : (c : Dev nD) → (b : Ref sig .tc) → Buf (Elt Ideal) ((c : Thread nD τ).loc b)) (c : Dev nD)

theorem flushed7_eq (t : Fin cfg1.N) :
    (dat1 V c).flushed 7 t = ((cfg1.win 7).blk t).view.read (Elt Ideal) (preactArr (arrs V c)) := by
  show (cfg1.win 7).cut (grid1.coords t) ((dat1 V c).after 7 t) = _
  rw [after1_7, outs7_eq]
  funext y
  obtain ⟨p, q, rfl⟩ : ∃ (p : Fin 5000) (q : Fin 128), y = ix2 p q := ⟨y 0, y 1, eq_ix2 y⟩
  refine (tile_apply (arrs V c) (t.cast N_1) (bh_apply V c t) (bg_apply V c t) (ba_apply V c t) (bwr_eq V c t) (bwn_eq V c t) (bwe_eq V c t) (bb_eq V c t) p q).trans ?_
  show _ = preactArr (arrs V c) (((cfg1.win 7).blk t).view.emb (ix2 p q))
  exact (preactArr_at _ _ (t.cast N_1) p q (at_tile 5000 p.val (idx_facts t).2.2.2.2.2.2.2.1.1) (at_zero 128 q.val (idx_facts t).2.2.2.2.2.2.2.1.2)).symm

theorem cover7 (i : S100000x128.Idx) :
    ∃ t : Fin cfg1.N, (cfg1.win 7).flush t = true ∧ i ∈ ((cfg1.win 7).blk t).view.set := by
  have hi0 : (i 0).val < 100000 := (i 0).isLt
  have ht : (i 0).val / 5000 < cfg1.N := by have hN : cfg1.N = 20 := N_1; omega
  refine ⟨⟨_, ht⟩, flush1_7 _, ?_⟩
  show i ∈ ((View.whole main_v22_0).slice (win1_7.rect ⟨(i 0).val / 5000, ht⟩)).set
  rw [View.set_slice_whole, Rect.mem_set_unit]
  exact forall_fin2 (div_block 5000 (i 0).val (by decide) (idx_facts ⟨_, ht⟩).2.2.2.2.2.2.2.1.1) (zero_block 128 (i 1).val (i 1).isLt (idx_facts ⟨_, ht⟩).2.2.2.2.2.2.2.1.2)

theorem final7 : (dat1 V c).arrAt 7 cfg1.N = preactArr (arrs V c) :=
  (dat1 V c).arrAt_eq_of_cover 7 (preactArr (arrs V c)) (fun t _ => flushed7_eq V c t) (cover7)

theorem flushed8_eq (t : Fin cfg1.N) :
    (dat1 V c).flushed 8 t = ((cfg1.win 8).blk t).view.read (Elt Ideal) (statArr (arrs V c)) := by
  show (cfg1.win 8).cut (grid1.coords t) ((dat1 V c).after 8 t) = _
  rw [after1_8]
  funext y
  obtain ⟨q, j, rfl⟩ : ∃ (q : Fin 8) (j : Fin 128), y = ix2 q j := ⟨y 0, y 1, eq_ix2 y⟩
  refine (outs8_apply V c t q j).trans ((stat_apply (arrs V c) (t.cast N_1) (bh_apply V c t) (bg_apply V c t) (ba_apply V c t) (bwr_eq V c t) (bwn_eq V c t) (bwe_eq V c t) (bb_eq V c t) q j).trans ?_)
  show _ = statArr (arrs V c) (((cfg1.win 8).blk t).view.emb (ix2 q j))
  exact (statArr_at _ _ (t.cast N_1) q j (at_tile 8 q.val (idx_facts t).2.2.2.2.2.2.2.2.1) (at_zero 128 j.val (idx_facts t).2.2.2.2.2.2.2.2.2)).symm

theorem cover8 (i : S160x128.Idx) :
    ∃ t : Fin cfg1.N, (cfg1.win 8).flush t = true ∧ i ∈ ((cfg1.win 8).blk t).view.set := by
  have hi0 : (i 0).val < 160 := (i 0).isLt
  have ht : (i 0).val / 8 < cfg1.N := by have hN : cfg1.N = 20 := N_1; omega
  refine ⟨⟨_, ht⟩, flush1_8 _, ?_⟩
  show i ∈ ((View.whole main_v22_1).slice (win1_8.rect ⟨(i 0).val / 8, ht⟩)).set
  rw [View.set_slice_whole, Rect.mem_set_unit]
  exact forall_fin2 (div_block 8 (i 0).val (by decide) (idx_facts ⟨_, ht⟩).2.2.2.2.2.2.2.2.1) (zero_block 128 (i 1).val (i 1).isLt (idx_facts ⟨_, ht⟩).2.2.2.2.2.2.2.2.2)

theorem final8 : (dat1 V c).arrAt 8 cfg1.N = statArr (arrs V c) :=
  (dat1 V c).arrAt_eq_of_cover 8 (statArr (arrs V c)) (fun t _ => flushed8_eq V c t) (cover8)

end Arrays

section Run
variable (m : (ℓ : Loc nD τ sig) → Buf (Elt Ideal) ℓ) (ρ : Dev nD → PrngReg) (c : Dev nD)

abbrev xh : FVec Ideal S100000x128 .f32 := V5 (F := Ideal) m ρ c (Pipeline.arrRef spec1 0)
abbrev xg : FVec Ideal S100000x128 .f32 := V5 (F := Ideal) m ρ c (Pipeline.arrRef spec1 1)
abbrev xa : FVec Ideal S100000x16 .f32 := V5 (F := Ideal) m ρ c (Pipeline.arrRef spec1 2)
abbrev xwr : FVec Ideal S128x128 .f32 := V5 (F := Ideal) m ρ c (Pipeline.arrRef spec1 3)
abbrev xwn : FVec Ideal S128x128 .f32 := V5 (F := Ideal) m ρ c (Pipeline.arrRef spec1 4)
abbrev xwe : FVec Ideal S16x128 .f32 := V5 (F := Ideal) m ρ c (Pipeline.arrRef spec1 5)
abbrev xb : FVec Ideal S1x128 .f32 := V5 (F := Ideal) m ρ c (Pipeline.arrRef spec1 6)

abbrev H1 : S100000x128.Idx → EReal := ((dat1 (V5 (F := Ideal) m ρ) c).arrAt 7 cfg1.N : S100000x128.Idx → EReal)

theorem h1_apply (i : Fin 100000) (j : Fin 128) :
    ((dat1 (V5 (F := Ideal) m ρ) c).arrAt 7 cfg1.N : S100000x128.Idx → EReal) (ix2 i j)
      = ((∑ k : Fin 128, xh m ρ c (ix2 i k) * xwr m ρ c (ix2 k j) + ∑ k : Fin 128, xg m ρ c (ix2 i k) * xwn m ρ c (ix2 k j))
          + ∑ k : Fin 16, xa m ρ c (ix2 i k) * xwe m ρ c (ix2 k j)) + xb m ρ c (ix2 0 j) :=
  by rw [final7]; unfold preactArr preact; dsimp only [arrs]

theorem stats_apply (t : Fin 20) (q : Fin 8) (j : Fin 128) :
    ((dat1 (V5 (F := Ideal) m ρ) c).arrAt 8 cfg1.N : S160x128.Idx → EReal) (ix2 ⟨8 * t.val + q.val, by omega⟩ j)
      = if q.val = 0 then ∑ r : Fin 5000, H1 m ρ c (ix2 ⟨5000 * t.val + r.val, by omega⟩ j)
        else if q.val = 1 then ∑ r : Fin 5000, H1 m ρ c (ix2 ⟨5000 * t.val + r.val, by omega⟩ j) * H1 m ρ c (ix2 ⟨5000 * t.val + r.val, by omega⟩ j)
        else 0 := by
  rw [show H1 m ρ c = preactArr (arrs (V5 (F := Ideal) m ρ) c) from final7 _ c]
  exact (congrFun (final8 (V5 (F := Ideal) m ρ) c) _).trans (statArr_at _ _ t q j rfl rfl)

end Run

end Cert.KernelIdeal.Hand.R1
-- ==== Proof.KHostLib.lean ====
import proofs.«425797_j7249904796358_2_alg».proof.Proof.Gen.KernelIdeal
import Idealize.ShloMosaic.Lib.IdealHost
import Idealize.ShloMosaic.Lib.ValueLayout
import Idealize.ShloMosaic.Lib.Pipeline.Value
import Idealize.ShloMosaic.Lib.KernelVsHost

noncomputable section

namespace Cert.KernelIdeal.Hand.HostLib

open Idealize.ShloMosaic Idealize.ShloMosaic.ValueIdx
open Cert.KernelIdeal Cert.KernelIdeal.Gen
open scoped BigOperators

-- Row 8k + r of a [160, 128] array is entry (k, r) of its [20, 8, 128] view.
theorem stat_read (X : S160x128.Idx → EReal) (r : Nat) (hr : r < 8)
    (h1 : S160x128.ShapeCasts S20x8x128) (h2 : S20x8x128.Slices ![0, r, 0] S20x1x128) (h3 : S20x1x128.ShapeCasts S20x128)
    (k : Fin 20) (j : Fin 128) :
    shapeCast S20x128 (extractStridedSlice S20x1x128 ![0, r, 0] (fun i => shapeCast S20x8x128 X h1 i) h2) h3 (ix2 k j)
      = X (ix2 (⟨8 * k.val + r, by omega⟩ : Fin 160) j) := by
  refine (shapeCast_apply _ h3 (ix2 k j) (ix3 k (0 : Fin 1) j) ?_).trans ?_
  · rw [Shape.rowMajor_val_three, Shape.rowMajor_val_two]
    show (k.val * 1 + 0) * 128 + j.val = k.val * 128 + j.val
    omega
  refine (slice3_axis1_apply r _ h2 k (0 : Fin 1) j (⟨r, hr⟩ : Fin 8) rfl).trans ?_
  refine shapeCast_apply X h1 (ix3 k (⟨r, hr⟩ : Fin 8) j) (ix2 _ j) ?_
  rw [Shape.rowMajor_val_three, Shape.rowMajor_val_two]
  show (8 * k.val + r) * 128 + j.val = (k.val * 8 + r) * 128 + j.val
  omega

theorem colsum_apply (x : S20x128.Idx → EReal) (init : S_.Idx → EReal) (h : S20x128.ReducesTo [0] S128)
    (hu : 0 < S_.numel) (j : Fin 128) :
    Host.reduceAdd (F := Ideal) (φ := .f32) x init h hu (ix1 j) = init ix0 + ∑ k : Fin 20, x (ix2 k j) := by
  have hR : S20x128.Reduces [0] S128 := by decide
  rw [hostReduceAdd_apply, Ideal.hostReduceAdd_single h hR, eq_ix0 (Shape.Idx.first hu)]
  show init ix0 + ∑ k : Fin 20, x (hR.lift (ix1 j) k) = _
  congr 1
  refine Finset.sum_congr rfl fun k _ => congrArg x ?_
  funext a
  match a with
  | ⟨0, _⟩ => exact Fin.ext rfl
  | ⟨1, _⟩ => exact Fin.ext rfl

section Terms

variable (H : S100000x128.Idx → EReal) (ST : S160x128.Idx → EReal) (GA BA : S3x128.Idx → EReal)
variable (l : Nat) (hsl : S3x128.Slices ![l, 0] S1x128)

abbrev Nw : EReal := Ideal.ofBits .f32 0x47C35000#32
abbrev EPS : EReal := Ideal.ofBits .f32 0x3727C5AC#32

def sumT (r : Nat) (h2 : S20x8x128.Slices ![0, r, 0] S20x1x128) : FVec Ideal S128 .f32 :=
  Host.reduceAdd
    (fun i => shapeCast S20x128
      (extractStridedSlice S20x1x128 ![0, r, 0] (fun i => shapeCast S20x8x128 ST shapeCasts_S160x128_S20x8x128 i) h2)
      shapeCasts_S20x1x128_S20x128 i)
    (constant S_ .f32 0x00000000#32) reducesTo_S20x128_S128_d0 h_S_

def muT : FVec Ideal S128 .f32 :=
  Host.divf (sumT ST 0 slices_S20x8x128_S20x1x128_0_0_0) (broadcastInDim S128 ![] bcast_S_S128 (constant S_ .f32 0x47C35000#32))

def varT : FVec Ideal S128 .f32 :=
  maximumf
    (subf
      (Host.divf (sumT ST 1 slices_S20x8x128_S20x1x128_0_1_0) (broadcastInDim S128 ![] bcast_S_S128 (constant S_ .f32 0x47C35000#32)))
      (mulf (muT ST) (muT ST)))
    (broadcastInDim S128 ![] bcast_S_S128 (constant S_ .f32 0x00000000#32))

def rowT (A : S3x128.Idx → EReal) : FVec Ideal S128 .f32 :=
  fun i => shapeCast S128 (extractStridedSlice S1x128 ![l, 0] A hsl) shapeCasts_S1x128_S128 i

def bc (v : FVec Ideal S128 .f32) : FVec Ideal S100000x128 .f32 :=
  broadcastInDim S100000x128 ![0, 1] bcast_S1x128_S100000x128_0_1 (broadcastInDim S1x128 ![1] bcast_S128_S1x128_1 v)

def bnT : FVec Ideal S100000x128 .f32 :=
  addf
    (mulf
      (mulf (subf H (bc (muT ST)))
        (bc (Host.rsqrt (addf (varT ST) (broadcastInDim S128 ![] bcast_S_S128 (constant S_ .f32 0x3727C5AC#32))))))
      (bc (rowT l hsl GA)))
    (bc (rowT l hsl BA))

def reluT (x : FVec Ideal S100000x128 .f32) : FVec Ideal S100000x128 .f32 :=
  maximumf x (broadcastInDim S100000x128 ![] bcast_S_S100000x128 (constant S_ .f32 0x00000000#32))

def rowSum (r : Nat) (hr : r < 8) (j : Fin 128) : EReal :=
  0 + ∑ k : Fin 20, ST (ix2 (⟨8 * k.val + r, by omega⟩ : Fin 160) j)

def mu (j : Fin 128) : EReal := Ideal.div (rowSum ST 0 (by omega) j) Nw

def var (j : Fin 128) : EReal := max (Ideal.div (rowSum ST 1 (by omega) j) Nw - mu ST j * mu ST j) 0

theorem sumT_apply (r : Nat) (hr : r < 8) (h2 : S20x8x128.Slices ![0, r, 0] S20x1x128) (j : Fin 128) :
    sumT ST r h2 (ix1 j) = rowSum ST r hr j := by
  unfold sumT rowSum
  rw [colsum_apply]
  congr 1
  · rw [constant_apply]; exact Ideal.ofBits_zero_f32
  · exact Finset.sum_congr rfl fun k _ => stat_read ST r hr _ h2 _ k j

theorem muT_apply (j : Fin 128) : muT ST (ix1 j) = mu ST j := by
  unfold muT mu
  rw [hostDivf_apply, sumT_apply ST 0 (by omega), broadcastInDim_scalar_apply, constant_apply]

theorem varT_apply (j : Fin 128) : varT ST (ix1 j) = var ST j := by
  unfold varT var
  rw [maximumf_apply, subf_apply, mulf_apply, hostDivf_apply, sumT_apply ST 1 (by omega), muT_apply,
    broadcastInDim_scalar_apply, broadcastInDim_scalar_apply, constant_apply, constant_apply, Ideal.ofBits_zero_f32]

theorem rowT_apply (A : S3x128.Idx → EReal) (hl : l < 3) (j : Fin 128) :
    rowT l hsl A (ix1 j) = A (ix2 (⟨l, hl⟩ : Fin 3) j) := by
  unfold rowT
  rw [shapeCast_1a_a_apply, slice2_axis0_apply l A hsl (0 : Fin 1) j ⟨l, hl⟩ rfl]

theorem bc_apply (v : FVec Ideal S128 .f32) (i : Fin 100000) (j : Fin 128) : bc v (ix2 i j) = v (ix1 j) := by
  unfold bc
  rw [broadcastInDim_oneRow_apply]
  exact broadcastInDim_apply _ _ v (ix2 (0 : Fin 1) j) (ix1 j) fun a => match a with | ⟨0, _⟩ => rfl

theorem bnT_apply (hl : l < 3) (i : Fin 100000) (j : Fin 128) :
    bnT H ST GA BA l hsl (ix2 i j)
      = (((H (ix2 i j) - mu ST j) * Ideal.rsqrt (var ST j + EPS)) * GA (ix2 (⟨l, hl⟩ : Fin 3) j))
          + BA (ix2 (⟨l, hl⟩ : Fin 3) j) := by
  unfold bnT
  rw [addf_apply, mulf_apply, mulf_apply, subf_apply, bc_apply, bc_apply, bc_apply, bc_apply, muT_apply,
    rowT_apply l hsl GA hl, rowT_apply l hsl BA hl]
  show (((H (ix2 i j) - mu ST j)
      * Ideal.rsqrt (addf (varT ST) (broadcastInDim S128 ![] bcast_S_S128 (constant S_ .f32 0x3727C5AC#32)) (ix1 j)))
      * GA (ix2 (⟨l, hl⟩ : Fin 3) j)) + BA (ix2 (⟨l, hl⟩ : Fin 3) j) = _
  rw [addf_apply, varT_apply, broadcastInDim_scalar_apply, constant_apply]

theorem reluT_apply (x : FVec Ideal S100000x128 .f32) (i : Fin 100000) (j : Fin 128) :
    reluT x (ix2 i j) = max (x (ix2 i j)) 0 := by
  unfold reluT
  rw [maximumf_apply, broadcastInDim_scalar_apply, constant_apply, Ideal.ofBits_zero_f32]

end Terms

end Cert.KernelIdeal.Hand.HostLib
-- ==== Proof.KHostOut1.lean ====
import proofs.«425797_j7249904796358_2_alg».proof.Proof.Gen.KernelIdeal.Frame
import proofs.«425797_j7249904796358_2_alg».proof.Proof.KHostLib

noncomputable section

namespace Cert.KernelIdeal.Hand.Out1

open Idealize.ShloMosaic
open Cert.KernelIdeal Cert.KernelIdeal.Gen

variable (m : (ℓ : Loc nD τ sig) → Buf (Elt Ideal) ℓ) (ρ : Dev nD → PrngReg) (c : Dev nD)

theorem out_eq :
    W8 (F := Ideal) m ρ c (Proc.devRef .tc main_v57)
      = HostLib.reluT (HostLib.bnT (W6 (F := Ideal) m ρ c (Proc.devRef .tc main_v22_0)) (W6 (F := Ideal) m ρ c (Proc.devRef .tc main_v22_1))
          (W6 (F := Ideal) m ρ c (Proc.devRef .tc main_arg13)) (W6 (F := Ideal) m ρ c (Proc.devRef .tc main_arg14)) 0
          slices_S3x128_S1x128_0_0) := by
  show StableHlo.after hostOps2_1 (StableHlo.after hostOps2 (W6 (F := Ideal) m ρ c)) (Proc.devRef .tc main_v57) = _
  after_results_simp
  rfl

end Cert.KernelIdeal.Hand.Out1
-- ==== Proof.LibTakeFill.lean ====
import Idealize.ShloMosaic.PureOps.Ideal
import Idealize.ShloMosaic.PureOps.Contract
import Idealize.ShloMosaic.Lib.ValueIdx
import Idealize.ShloMosaic.Lib.ValueLayout
import Idealize.ShloMosaic.Lib.IdealHost
import Idealize.ShloMosaic.Lib.Pipeline.Value
import proofs.«425797_j7249904796358_2_alg».proof.Proof.LibGatherRows
import proofs.«425797_j7249904796358_2_alg».proof.Proof.LibScatterSum

namespace Idealize.ShloMosaic.TakeFill

open Idealize.ShloMosaic Idealize.ShloMosaic.ValueIdx Idealize.ShloMosaic.GatherRows Idealize.ShloMosaic.ScatterSum

open scoped BigOperators

theorem wrap_select (w cP : BitVec 32) (h0 : 0 ≤ w.toInt) :
    Scalar.select (IntOp.cmpi .slt w 0#32) (IntOp.addi w cP) w = w := by
  have hlt : w.slt 0#32 = false := by
    rw [Bool.eq_false_iff]
    intro h
    have := BitVec.slt_iff_toInt_lt.mp h
    have h00 : (0#32 : BitVec 32).toInt = 0 := by decide
    omega
  have hc : IntOp.cmpi .slt w 0#32 = 0#1 := by
    show BitVec.ofBool (w.slt 0#32) = 0#1
    rw [hlt]; rfl
  rw [hc]
  exact select_zero _ _

theorem range_mask (w cM : BitVec 32) (h0 : 0 ≤ w.toInt) (h1 : w.toInt ≤ cM.toInt) :
    IntOp.andi (IntOp.cmpi .sge w 0#32) (IntOp.cmpi .sle w cM) = 1#1 := by
  have h00 : (0#32 : BitVec 32).toInt = 0 := by decide
  have ha : (0#32 : BitVec 32).sle w = true := BitVec.sle_iff_toInt_le.mpr (by omega)
  have hb : w.sle cM = true := BitVec.sle_iff_toInt_le.mpr h1
  show IntOp.andi (BitVec.ofBool ((0#32 : BitVec 32).sle w)) (BitVec.ofBool (w.sle cM)) = 1#1
  rw [ha, hb]
  decide

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize ((List.finRange s.numel).filter fun n => h.drop (s.rowMajor.symm n) = j) = l
  induction l with
  | nil => rfl
  | cons a l ih =>
    rw [List.foldl_cons, hx]
    have e : IntOp.andi (1#1 : BitVec 1) 1#1 = 1#1 := by decide
    rw [e]
    exact ih

section Take
variable {α : Type} {P C N : Nat}

theorem col_apply {β : Type} (bcol : (⟨1, ![N]⟩ : Shape).BroadcastsInDim ⟨2, ![N, 1]⟩ ![0])
    (v : (⟨1, ![N]⟩ : Shape).Idx → β) (n : Fin N) (z : Fin 1) :
    broadcastInDim ⟨2, ![N, 1]⟩ ![0] bcol v (ix2 n z) = v (ix1 n) := by
  refine broadcastInDim_apply _ bcol v (ix2 n z) (ix1 n) fun a => ?_
  match a with
  | ⟨0, _⟩ =>
    show n.val = if N = 1 then 0 else n.val
    have := n.isLt
    split <;> omega

theorem rows_apply {β : Type} (bm : (⟨1, ![N]⟩ : Shape).BroadcastsInDim ⟨2, ![N, C]⟩ ![0])
    (v : (⟨1, ![N]⟩ : Shape).Idx → β) (n : Fin N) (ch : Fin C) :
    broadcastInDim ⟨2, ![N, C]⟩ ![0] bm v (ix2 n ch) = v (ix1 n) := by
  refine broadcastInDim_apply _ bm v (ix2 n ch) (ix1 n) fun a => ?_
  match a with
  | ⟨0, _⟩ =>
    show n.val = if N = 1 then 0 else n.val
    have := n.isLt
    split <;> omega

-- A source index with the wrap-around of negative values applied (the identity on a non-negative one), and the same as a column.
abbrev wrapped (b0 : (⟨0, ![]⟩ : Shape).BroadcastsInDim ⟨1, ![N]⟩ ![]) (cP : BitVec 32) (src : IVec (⟨1, ![N]⟩ : Shape) 32) :
    IVec (⟨1, ![N]⟩ : Shape) 32 :=
  select (cmpi .slt src (broadcastInDim ⟨1, ![N]⟩ ![] b0 (constantI ⟨0, ![]⟩ 32 0#32)))
    (addi src (broadcastInDim ⟨1, ![N]⟩ ![] b0 (constantI ⟨0, ![]⟩ 32 cP))) src

abbrev wcol (b0 : (⟨0, ![]⟩ : Shape).BroadcastsInDim ⟨1, ![N]⟩ ![]) (bcol : (⟨1, ![N]⟩ : Shape).BroadcastsInDim ⟨2, ![N, 1]⟩ ![0])
    (cP : BitVec 32) (src : IVec (⟨1, ![N]⟩ : Shape) 32) : IVec (⟨2, ![N, 1]⟩ : Shape) 32 :=
  broadcastInDim ⟨2, ![N, 1]⟩ ![0] bcol (wrapped b0 cP src)

theorem take_fill_apply (hP : 0 < P)
    (d : GatherDims (⟨2, ![P, C]⟩ : Shape) (⟨2, ![N, 1]⟩ : Shape) (⟨2, ![N, C]⟩ : Shape))
    (hod : d.offsetDims = [1]) (hcd : d.collapsedSliceDims = [0]) (hob : d.operandBatchingDims = [])
    (hsm : d.startIndexMap = [0]) (hiv : d.indexVectorDim = 1) (hss : d.sliceSizes 0 = 1)
    (b0 : (⟨0, ![]⟩ : Shape).BroadcastsInDim ⟨1, ![N]⟩ ![])
    (bcol : (⟨1, ![N]⟩ : Shape).BroadcastsInDim ⟨2, ![N, 1]⟩ ![0])
    (b0c : (⟨0, ![]⟩ : Shape).BroadcastsInDim ⟨2, ![N, 1]⟩ ![])
    (b11 : (⟨1, ![1]⟩ : Shape).BroadcastsInDim ⟨2, ![1, 1]⟩ ![1])
    (b11c : (⟨2, ![1, 1]⟩ : Shape).BroadcastsInDim ⟨2, ![N, 1]⟩ ![0, 1])
    (red : (⟨2, ![N, 1]⟩ : Shape).ReducesTo [1] ⟨1, ![N]⟩) (hu : 0 < (⟨0, ![]⟩ : Shape).numel)
    (bm : (⟨1, ![N]⟩ : Shape).BroadcastsInDim ⟨2, ![N, C]⟩ ![0])
    (cP cM : BitVec 32) (hcM : cM.toInt = (P : Int) - 1)
    (src : IVec (⟨1, ![N]⟩ : Shape) 32) (x : (⟨2, ![P, C]⟩ : Shape).Idx → α) (y : (⟨2, ![N, C]⟩ : Shape).Idx → α)
    (hs : ∀ n : Fin N, 0 ≤ (src (ix1 n)).toInt ∧ (src (ix1 n)).toInt < (P : Int)) (n : Fin N) (ch : Fin C) :
    select
        (broadcastInDim ⟨2, ![N, C]⟩ ![0] bm
          (Host.reduce IntOp.andi
            (andi (cmpi .sge (wcol b0 bcol cP src) (broadcastInDim ⟨2, ![N, 1]⟩ ![] b0c (constantI ⟨0, ![]⟩ 32 0#32)))
              (cmpi .sle (wcol b0 bcol cP src)
                (broadcastInDim ⟨2, ![N, 1]⟩ ![0, 1] b11c (broadcastInDim ⟨2, ![1, 1]⟩ ![1] b11 (constantI ⟨1, ![1]⟩ 32 cM)))))
            (constantI ⟨0, ![]⟩ 1 1#1) red hu))
        (Host.gather d x (wcol b0 bcol cP src)) y (ix2 n ch)
      = x (ix2 (⟨(src (ix1 n)).toInt.toNat, by have := hs n; omega⟩ : Fin P) ch) := by
  have hcol : ∀ (m : Fin N) (z : Fin 1), wcol b0 bcol cP src (ix2 m z) = src (ix1 m) :=
    fun m z => (col_apply bcol _ m z).trans (wrap_select (src (ix1 m)) cP (hs m).1)
  have hmask : ∀ i : (⟨2, ![N, 1]⟩ : Shape).Idx,
      (andi (cmpi .sge (wcol b0 bcol cP src) (broadcastInDim ⟨2, ![N, 1]⟩ ![] b0c (constantI ⟨0, ![]⟩ 32 0#32)))
        (cmpi .sle (wcol b0 bcol cP src)
          (broadcastInDim ⟨2, ![N, 1]⟩ ![0, 1] b11c (broadcastInDim ⟨2, ![1, 1]⟩ ![1] b11 (constantI ⟨1, ![1]⟩ 32 cM))))) i = 1#1 := by
    intro i
    obtain ⟨m, z, rfl⟩ : ∃ m z, i = ix2 m z := ⟨i 0, i 1, eq_ix2 i⟩
    show IntOp.andi (IntOp.cmpi .sge (_ : BitVec 32) _) (IntOp.cmpi .sle (_ : BitVec 32) _) = 1#1
    rw [hcol m z]
    exact range_mask (src (ix1 m)) cM (hs m).1 (by have := (hs m).2; omega)
  rw [select_apply, rows_apply bm _ n ch,
    reduce_andi_ones _ (constantI ⟨0, ![]⟩ 1 1#1) red hu hmask (fun _ => rfl) (ix1 n), select_one,
    gather_rows_apply hP d hod hcd hob hsm hiv hss x _ n ch]
  congr 2
  refine Fin.ext ?_
  show min (_ : BitVec 32).toInt.toNat (P - 1) = (src (ix1 n)).toInt.toNat
  rw [hcol n 0]
  have := hs n
  omega

end Take

section Scatter
variable {P C N : Nat}

theorem scatter_zero_rows_apply
    (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1)
    (bz : (⟨0, ![]⟩ : Shape).BroadcastsInDim ⟨2, ![P, C]⟩ ![])
    (bcol : (⟨1, ![N]⟩ : Shape).BroadcastsInDim ⟨2, ![N, 1]⟩ ![0])
    (dst : IVec (⟨1, ![N]⟩ : Shape) 32) (upd : (⟨2, ![N, C]⟩ : Shape).Idx → EReal) (p : Fin P) (ch : Fin C) :
    Host.scatterAdd (F := Ideal) (φ := .f32) d
        (broadcastInDim ⟨2, ![P, C]⟩ ![] bz (constant (F := Ideal) ⟨0, ![]⟩ .f32 0x00000000#32))
        (broadcastInDim ⟨2, ![N, 1]⟩ ![0] bcol dst) upd (ix2 p ch)
      = 0 + ∑ n ∈ Finset.univ.filter (fun n : Fin N => (dst (ix1 n)).toInt = (p.val : Int)), upd (ix2 n ch) := by
  show Ideal.hostScatterAdd d _ _ upd (ix2 p ch) = _
  rw [scatterAdd_rows_apply d huw hiw hsd hiv]
  congr 1
  · rw [broadcastInDim_scalar_apply, constant_apply]
    exact Ideal.ofBits_zero_f32
  · refine Finset.sum_congr (Finset.filter_congr fun n _ => ?_) fun _ _ => rfl
    rw [col_apply bcol dst n 0]

end Scatter

section Members
variable {α : Type}

theorem row_apply {R N : Nat} (r : Nat) (X : (⟨2, ![R, N]⟩ : Shape).Idx → α)
    (hs : (⟨2, ![R, N]⟩ : Shape).Slices ![r, 0] ⟨2, ![1, N]⟩) (hc : (⟨2, ![1, N]⟩ : Shape).ShapeCasts ⟨1, ![N]⟩)
    (l : Fin R) (hl : l.val = r) (n : Fin N) :
    shapeCast ⟨1, ![N]⟩ (extractStridedSlice ⟨2, ![1, N]⟩ ![r, 0] X hs) hc (ix1 n) = X (ix2 l n) := by
  rw [shapeCast_1a_a_apply]
  exact slice2_axis0_apply r X hs 0 n l (by rw [hl]; rfl)

theorem member3_apply {L A B : Nat} (r : Nat) (X : (⟨3, ![L, A, B]⟩ : Shape).Idx → α)
    (hs : (⟨3, ![L, A, B]⟩ : Shape).Slices ![r, 0, 0] ⟨3, ![1, A, B]⟩)
    (hc : (⟨3, ![1, A, B]⟩ : Shape).ShapeCasts ⟨2, ![A, B]⟩) (l : Fin L) (hl : l.val = r) (i : Fin A) (j : Fin B) :
    shapeCast ⟨2, ![A, B]⟩ (extractStridedSlice ⟨3, ![1, A, B]⟩ ![r, 0, 0] X hs) hc (ix2 i j) = X (ix3 l i j) := by
  rw [shapeCast_1ab_ab_apply]
  refine extractStridedSlice_apply _ X hs _ (ix3 l i j) fun a => ?_
  match a with
  | ⟨0, _⟩ => show l.val = r + 0; rw [hl]; rfl
  | ⟨1, _⟩ => exact (Nat.zero_add _).symm
  | ⟨2, _⟩ => exact (Nat.zero_add _).symm

theorem member2_row_apply {L B : Nat} (r : Nat) (X : (⟨2, ![L, B]⟩ : Shape).Idx → α)
    (hs : (⟨2, ![L, B]⟩ : Shape).Slices ![r, 0] ⟨2, ![1, B]⟩) (hc : (⟨2, ![1, B]⟩ : Shape).ShapeCasts ⟨1, ![B]⟩)
    (hc' : (⟨1, ![B]⟩ : Shape).ShapeCasts ⟨2, ![1, B]⟩) (l : Fin L) (hl : l.val = r) (u : Fin 1) (j : Fin B) :
    shapeCast ⟨2, ![1, B]⟩ (shapeCast ⟨1, ![B]⟩ (extractStridedSlice ⟨2, ![1, B]⟩ ![r, 0] X hs) hc) hc' (ix2 u j)
      = X (ix2 l j) := by
  rw [shapeCast_a_1a_apply]
  exact row_apply r X hs hc l hl j

end Members

end Idealize.ShloMosaic.TakeFill
-- ==== Proof.KHostIn1.lean ====
import proofs.«425797_j7249904796358_2_alg».proof.Proof.Gen.KernelIdeal.Frame
import proofs.«425797_j7249904796358_2_alg».proof.Proof.LibScatterSum
import proofs.«425797_j7249904796358_2_alg».proof.Proof.LibGatherRows
import proofs.«425797_j7249904796358_2_alg».proof.Proof.LibTakeFill
import proofs.«425797_j7249904796358_2_alg».proof.Proof.LayerSpec
import proofs.«425797_j7249904796358_2_alg».proof.Proof.KHostArgs
import Idealize.ShloMosaic.Lib.ValueIdx
import Idealize.ShloMosaic.Lib.ValueLayout
import Idealize.ShloMosaic.Lib.IdealHost

set_option maxRecDepth 16384

noncomputable section

namespace Cert.KernelIdeal.Hand

open Idealize.ShloMosaic Idealize.ShloMosaic.ValueIdx

theorem seg_congr {E P K : Nat} {d d' : Fin E → Int} {u u' : Fin E → Fin K → EReal} (hd : ∀ e, d e = d' e)
    (hu : ∀ e k, u e k = u' e k) (i : Fin P) (k : Fin K) :
    Cert.LayerSpec.seg d u i k = Cert.LayerSpec.seg d' u' i k := by
  have h1 : d = d' := funext hd
  have h2 : u = u' := funext fun e => funext (hu e)
  rw [h1, h2]

theorem read_row_congr {P C : Nat} {α : Type} (X : (⟨2, ![P, C]⟩ : Shape).Idx → α) (a b : Nat) (ha : a < P) (hb : b < P)
    (hab : a = b) (k : Fin C) : X (ix2 ⟨a, ha⟩ k) = X (ix2 ⟨b, hb⟩ k) := by
  subst hab; rfl

theorem ofBuf_toBuf {sg : RefSig} {Val : EltTy → Type} {T : BufTy} (x : StableHlo.TRef sg T) (v : T.Contents Val) :
    x.ofBuf (x.toBuf v) = v := by
  obtain ⟨r, h1, h2, h3⟩ := x
  subst h1
  rfl

end Cert.KernelIdeal.Hand

namespace Cert.KernelIdeal.Hand.In1

open Cert.KernelIdeal Cert.KernelIdeal.Gen Cert.KernelIdeal.Hand Cert.KernelIdeal.Hand.Args
open Idealize.ShloMosaic Idealize.ShloMosaic.TcCoe Idealize.ShloMosaic.ValueIdx Idealize.ShloMosaic.TakeFill

section AnyContents
variable (V : Valuation τ sig (Elt Ideal))

theorem take_V
    (hs : ∀ n : Fin 600000, 0 ≤ ((V (Proc.devRef .tc main_v1) : S600000.Idx → BitVec 32) (ix1 n)).toInt
      ∧ ((V (Proc.devRef .tc main_v1) : S600000.Idx → BitVec 32) (ix1 n)).toInt < ((100000 : Nat) : Int))
    (e : Fin 600000) (k : Fin 128) :
    (StableHlo.after hostOps1_1 V (Proc.devRef .tc main_v9) : S600000x128.Idx → EReal) (ix2 e k)
      = (V (Proc.devRef .tc main_v5) : S100000x128.Idx → EReal)
          (ix2 (⟨((V (Proc.devRef .tc main_v1) : S600000.Idx → BitVec 32) (ix1 e)).toInt.toNat,
            by have := hs e; omega⟩ : Fin 100000) k) := by
  have hcast : ∀ v : (Proc.devRef (τ := τ) .tc main_v9).ty.Contents (Elt Ideal),
      (v : S600000x128.Idx → EReal)
        = (StableHlo.TRef.of main_v9 : StableHlo.TRef sig ⟨S600000x128, .f32⟩).ofBuf v := fun _ => rfl
  refine Eq.trans (congrFun (hcast _) (ix2 e k)) ?_
  after_results_simp
  simp only [ofBuf_toBuf]
  have hP : 0 < 100000 := by omega
  have hcM : (99999#32 : BitVec 32).toInt = ((100000 : Nat) : Int) - 1 := by decide
  have key := take_fill_apply (P := 100000) (C := 128) (N := 600000) hP
    gather_S100000x128_S600000x1_S600000x128_1_0_n_n_0_1_1128 rfl rfl rfl rfl rfl rfl
    bcast_S_S600000 bcast_S600000_S600000x1_0 bcast_S_S600000x1 bcast_S1_S1x1_1 bcast_S1x1_S600000x1_0_1
    reducesTo_S600000x1_S600000_d1 h_S_ bcast_S600000_S600000x128_0 100000#32 99999#32 hcM
    (V (Proc.devRef .tc main_v1)) (V (Proc.devRef .tc main_v5))
    (broadcastInDim S600000x128 ![] bcast_S_S600000x128 (constant (F := Ideal) S_ FTy.f32 2143289344#32)) hs e k
  have hsrc : (StableHlo.TRef.of main_v1 : StableHlo.TRef sig ⟨S600000, .i32⟩).ofBuf (V (Proc.devRef .tc main_v1))
      = (V (Proc.devRef .tc main_v1) : S600000.Idx → BitVec 32) := rfl
  have hx : (StableHlo.TRef.of main_v5 : StableHlo.TRef sig ⟨S100000x128, .f32⟩).ofBuf (V (Proc.devRef .tc main_v5))
      = (V (Proc.devRef .tc main_v5) : S100000x128.Idx → EReal) := rfl
  rw [hsrc, hx]
  exact key

theorem eatt_V (i : Fin 100000) (k : Fin 16) :
    (StableHlo.after hostOps1 V (Proc.devRef .tc main_v8) : S100000x16.Idx → EReal) (ix2 i k)
      = Cert.LayerSpec.seg (fun e : Fin 600000 => ((V (Proc.devRef .tc main_v3) : S600000.Idx → BitVec 32) (ix1 e)).toInt)
          (fun e k => (V (Proc.devRef .tc main_arg2) : S600000x16.Idx → EReal) (ix2 e k)) i k := by
  after_results
  unfold Cert.LayerSpec.seg Cert.LayerSpec.into
  exact scatter_zero_rows_apply (P := 100000) (C := 16) (N := 600000)
    scatter_S100000x16_S600000x1_S600000x16_1_0_0_1 rfl rfl rfl rfl bcast_S_S100000x16 bcast_S600000_S600000x1_0
    (V (Proc.devRef .tc main_v3)) (V (Proc.devRef .tc main_arg2)) i k

theorem g_V (i : Fin 100000) (k : Fin 128) :
    (StableHlo.after hostOps1_2 V (Proc.devRef .tc main_v12) : S100000x128.Idx → EReal) (ix2 i k)
      = Cert.LayerSpec.seg (fun e : Fin 600000 => ((V (Proc.devRef .tc main_v3) : S600000.Idx → BitVec 32) (ix1 e)).toInt)
          (fun e k => (V (Proc.devRef .tc main_v9) : S600000x128.Idx → EReal) (ix2 e k)) i k := by
  after_results
  unfold Cert.LayerSpec.seg Cert.LayerSpec.into
  exact scatter_zero_rows_apply (P := 100000) (C := 128) (N := 600000)
    scatter_S100000x128_S600000x1_S600000x128_1_0_0_1 rfl rfl rfl rfl bcast_S_S100000x128 bcast_S600000_S600000x1_0
    (V (Proc.devRef .tc main_v3)) (V (Proc.devRef .tc main_v9)) i k

theorem wr_V (k j : Fin 128) :
    (StableHlo.after hostOps1_2 V (Proc.devRef .tc main_v14) : S128x128.Idx → EReal) (ix2 k j)
      = (V (Proc.devRef .tc main_arg9) : S3x128x128.Idx → EReal) (ix3 0 k j) := by
  after_results
  exact member3_apply 0 _ slices_S3x128x128_S1x128x128_0_0_0 shapeCasts_S1x128x128_S128x128 0 rfl k j

theorem wn_V (k j : Fin 128) :
    (StableHlo.after hostOps1_2 V (Proc.devRef .tc main_v16) : S128x128.Idx → EReal) (ix2 k j)
      = (V (Proc.devRef .tc main_arg11) : S3x128x128.Idx → EReal) (ix3 0 k j) := by
  after_results
  exact member3_apply 0 _ slices_S3x128x128_S1x128x128_0_0_0 shapeCasts_S1x128x128_S128x128 0 rfl k j

theorem we_V (k : Fin 16) (j : Fin 128) :
    (StableHlo.after hostOps1_2 V (Proc.devRef .tc main_v18) : S16x128.Idx → EReal) (ix2 k j)
      = (V (Proc.devRef .tc main_arg12) : S3x16x128.Idx → EReal) (ix3 0 k j) := by
  after_results
  exact member3_apply 0 _ slices_S3x16x128_S1x16x128_0_0_0 shapeCasts_S1x16x128_S16x128 0 rfl k j

theorem b_V (j : Fin 128) :
    (StableHlo.after hostOps1_2 V (Proc.devRef .tc main_v21) : S1x128.Idx → EReal) (ix2 0 j)
      = (V (Proc.devRef .tc main_arg10) : S3x128.Idx → EReal) (ix2 0 j) := by
  after_results
  exact member2_row_apply 0 _ slices_S3x128_S1x128_0_0 shapeCasts_S1x128_S128 shapeCasts_S128_S1x128 0 rfl 0 j

end AnyContents

section Run
variable (m : (ℓ : Loc nD τ sig) → Buf (Elt Ideal) ℓ) (ρ : Dev nD → PrngReg) (c : Dev nD)

abbrev EI : S2x600000.Idx → BitVec 32 := m ((c : Thread nD τ).loc main_arg1)
abbrev dI : Fin 600000 → Int := fun e => (EI m c (ix2 1 e)).toInt
abbrev H : S100000x128.Idx → EReal := W2 (F := Ideal) m ρ c (Proc.devRef .tc main_v5)
abbrev EA : S600000x16.Idx → EReal := m ((c : Thread nD τ).loc main_arg2)

-- The sources and the destinations are rows 0 and 1 of the edge table.
theorem src_W1 (e : Fin 600000) :
    (W1 (F := Ideal) m ρ c (Proc.devRef .tc main_v1) : S600000.Idx → BitVec 32) (ix1 e) = EI m c (ix2 0 e) := by
  show (StableHlo.after hostOps0 (W0 (F := Ideal) m ρ c) (Proc.devRef .tc main_v1) : S600000.Idx → BitVec 32) (ix1 e) = _
  after_results
  exact row_apply 0 _ slices_S2x600000_S1x600000_0_0 shapeCasts_S1x600000_S600000 0 rfl e

theorem dst_W1 (e : Fin 600000) :
    (W1 (F := Ideal) m ρ c (Proc.devRef .tc main_v3) : S600000.Idx → BitVec 32) (ix1 e) = EI m c (ix2 1 e) := by
  show (StableHlo.after hostOps0 (W0 (F := Ideal) m ρ c) (Proc.devRef .tc main_v3) : S600000.Idx → BitVec 32) (ix1 e) = _
  after_results
  exact row_apply 1 _ slices_S2x600000_S1x600000_1_0 shapeCasts_S1x600000_S600000 1 rfl e

theorem v5_W3 : W3 (F := Ideal) m ρ c (Proc.devRef .tc main_v5) = W2 (F := Ideal) m ρ c (Proc.devRef .tc main_v5) := by
  carry_host hostOps1

theorem h_carry : W5 (F := Ideal) m ρ c (Proc.devRef .tc main_v5) = W2 (F := Ideal) m ρ c (Proc.devRef .tc main_v5) :=
  calc W5 (F := Ideal) m ρ c (Proc.devRef .tc main_v5)
    _ = W4 (F := Ideal) m ρ c (Proc.devRef .tc main_v5) := by carry_host hostOps1_2
    _ = W3 (F := Ideal) m ρ c (Proc.devRef .tc main_v5) := by carry_host hostOps1_1
    _ = W2 (F := Ideal) m ρ c (Proc.devRef .tc main_v5) := v5_W3 m ρ c

theorem v8_W5 : W5 (F := Ideal) m ρ c (Proc.devRef .tc main_v8) = W3 (F := Ideal) m ρ c (Proc.devRef .tc main_v8) :=
  calc W5 (F := Ideal) m ρ c (Proc.devRef .tc main_v8)
    _ = W4 (F := Ideal) m ρ c (Proc.devRef .tc main_v8) := by carry_host hostOps1_2
    _ = W3 (F := Ideal) m ρ c (Proc.devRef .tc main_v8) := by carry_host hostOps1_1

theorem eatt_apply (i : Fin 100000) (k : Fin 16) :
    (W5 (F := Ideal) m ρ c (Proc.devRef .tc main_v8) : S100000x16.Idx → EReal) (ix2 i k)
      = Cert.LayerSpec.seg (dI m c) (fun e k => EA m c (ix2 e k)) i k := by
  rw [v8_W5 m ρ c]
  show (StableHlo.after hostOps1 (W2 (F := Ideal) m ρ c) (Proc.devRef .tc main_v8) : S100000x16.Idx → EReal) (ix2 i k) = _
  rw [eatt_V]
  exact seg_congr (fun e => congrArg BitVec.toInt (by rw [k2 m ρ c main_v3 (by decide)]; exact dst_W1 m ρ c e))
    (fun e k => by rw [(k2 m ρ c main_arg2 (by decide)).trans (arg_W1 m ρ c _ (by decide))]) i k

theorem g_apply (hs : ∀ e : Fin 600000, 0 ≤ (EI m c (ix2 0 e)).toInt ∧ (EI m c (ix2 0 e)).toInt < 100000)
    (i : Fin 100000) (k : Fin 128) :
    (W5 (F := Ideal) m ρ c (Proc.devRef .tc main_v12) : S100000x128.Idx → EReal) (ix2 i k)
      = Cert.LayerSpec.seg (dI m c)
          (fun e k => H m ρ c (ix2 (⟨(EI m c (ix2 0 e)).toInt.toNat, by have := hs e; omega⟩ : Fin 100000) k)) i k := by
  have hsrc : ∀ e : Fin 600000, (W3 (F := Ideal) m ρ c (Proc.devRef .tc main_v1) : S600000.Idx → BitVec 32) (ix1 e) = EI m c (ix2 0 e) :=
    fun e => by rw [k3 m ρ c main_v1 (by decide)]; exact src_W1 m ρ c e
  have hs3 : ∀ n : Fin 600000,
      0 ≤ ((W3 (F := Ideal) m ρ c (Proc.devRef .tc main_v1) : S600000.Idx → BitVec 32) (ix1 n)).toInt
        ∧ ((W3 (F := Ideal) m ρ c (Proc.devRef .tc main_v1) : S600000.Idx → BitVec 32) (ix1 n)).toInt < ((100000 : Nat) : Int) :=
    fun n => by rw [hsrc n]; have := hs n; omega
  show (StableHlo.after hostOps1_2 (W4 (F := Ideal) m ρ c) (Proc.devRef .tc main_v12) : S100000x128.Idx → EReal) (ix2 i k) = _
  rw [g_V]
  refine seg_congr (fun e => congrArg BitVec.toInt (by rw [k4 m ρ c main_v3 (by decide)]; exact dst_W1 m ρ c e)) (fun e k => ?_) i k
  show (StableHlo.after hostOps1_1 (W3 (F := Ideal) m ρ c) (Proc.devRef .tc main_v9) : S600000x128.Idx → EReal) (ix2 e k) = _
  rw [take_V (W3 (F := Ideal) m ρ c) hs3 e k, v5_W3 m ρ c]
  exact read_row_congr _ _ _ _ _ (congrArg (fun w : BitVec 32 => w.toInt.toNat) (hsrc e)) k

theorem wr_apply (k j : Fin 128) :
    (W5 (F := Ideal) m ρ c (Proc.devRef .tc main_v14) : S128x128.Idx → EReal) (ix2 k j)
      = (m ((c : Thread nD τ).loc main_arg9) : S3x128x128.Idx → EReal) (ix3 0 k j) := by
  show (StableHlo.after hostOps1_2 (W4 (F := Ideal) m ρ c) (Proc.devRef .tc main_v14) : S128x128.Idx → EReal) (ix2 k j) = _
  rw [wr_V, (k4 m ρ c main_arg9 (by decide)).trans (arg_W1 m ρ c _ (by decide))]

theorem wn_apply (k j : Fin 128) :
    (W5 (F := Ideal) m ρ c (Proc.devRef .tc main_v16) : S128x128.Idx → EReal) (ix2 k j)
      = (m ((c : Thread nD τ).loc main_arg11) : S3x128x128.Idx → EReal) (ix3 0 k j) := by
  show (StableHlo.after hostOps1_2 (W4 (F := Ideal) m ρ c) (Proc.devRef .tc main_v16) : S128x128.Idx → EReal) (ix2 k j) = _
  rw [wn_V, (k4 m ρ c main_arg11 (by decide)).trans (arg_W1 m ρ c _ (by decide))]

theorem we_apply (k : Fin 16) (j : Fin 128) :
    (W5 (F := Ideal) m ρ c (Proc.devRef .tc main_v18) : S16x128.Idx → EReal) (ix2 k j)
      = (m ((c : Thread nD τ).loc main_arg12) : S3x16x128.Idx → EReal) (ix3 0 k j) := by
  show (StableHlo.after hostOps1_2 (W4 (F := Ideal) m ρ c) (Proc.devRef .tc main_v18) : S16x128.Idx → EReal) (ix2 k j) = _
  rw [we_V, (k4 m ρ c main_arg12 (by decide)).trans (arg_W1 m ρ c _ (by decide))]

theorem b_apply (j : Fin 128) :
    (W5 (F := Ideal) m ρ c (Proc.devRef .tc main_v21) : S1x128.Idx → EReal) (ix2 0 j)
      = (m ((c : Thread nD τ).loc main_arg10) : S3x128.Idx → EReal) (ix2 0 j) := by
  show (StableHlo.after hostOps1_2 (W4 (F := Ideal) m ρ c) (Proc.devRef .tc main_v21) : S1x128.Idx → EReal) (ix2 0 j) = _
  rw [b_V, (k4 m ρ c main_arg10 (by decide)).trans (arg_W1 m ρ c _ (by decide))]

end Run

end Cert.KernelIdeal.Hand.In1
-- ==== Proof.LayerMath.lean ====
import proofs.«425797_j7249904796358_2_alg».proof.Proof.LayerSpec
import Mathlib.Data.EReal.Inv
import Mathlib.Algebra.BigOperators.Ring.Finset
import Mathlib.Data.Fintype.BigOperators
import Mathlib.Logic.Equiv.Fin.Basic
import Mathlib.Analysis.SpecialFunctions.Pow.Real
import Mathlib.Tactic.Ring
import Mathlib.Tactic.FieldSimp
import Mathlib.Tactic.Positivity

noncomputable section

open scoped BigOperators

namespace Cert.LayerSpec

open Idealize.ShloMosaic

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem real_agg {E K : Nat} (S : Finset (Fin E)) (u : Fin E → Fin K → ℝ) (w : Fin K → ℝ) :
    ∑ k, (∑ e ∈ S, u e k) * w k = ∑ e ∈ S, ∑ k, u e k * w k := by
  simp only [Finset.sum_mul]
  exact Finset.sum_comm

theorem real_layer {P E C D : Nat} (S : Finset (Fin E)) (h : Fin P → Fin C → ℝ) (s : Fin E → Fin P)
    (ea : Fin E → Fin D → ℝ) (wr wn : Fin C → Fin C → ℝ) (we : Fin D → Fin C → ℝ) (b : Fin C → ℝ)
    (i : Fin P) (j : Fin C) :
    ((∑ k, h i k * wr k j + ∑ k, (∑ e ∈ S, h (s e) k) * wn k j) + ∑ k, (∑ e ∈ S, ea e k) * we k j) + b j
      = (∑ k, h i k * wr k j + b j) + ∑ e ∈ S, (∑ k, h (s e) k * wn k j + ∑ k, ea e k * we k j) := by
  have h1 : ∑ k, (∑ e ∈ S, h (s e) k) * wn k j = ∑ e ∈ S, ∑ k, h (s e) k * wn k j :=
    real_agg S (fun e k => h (s e) k) (fun k => wn k j)
  have h2 : ∑ k, (∑ e ∈ S, ea e k) * we k j = ∑ e ∈ S, ∑ k, ea e k * we k j :=
    real_agg S ea (fun k => we k j)
  rw [h1, h2, Finset.sum_add_distrib]
  ring

theorem h1R_coe {P E C D : Nat} (h : Fin P → Fin C → ℝ) (s : Fin E → Fin P) (d : Fin E → Int)
    (ea : Fin E → Fin D → ℝ) (wr wn : Fin C → Fin C → ℝ) (we : Fin D → Fin C → ℝ) (b : Fin C → ℝ)
    (i : Fin P) (j : Fin C) :
    h1R (fun i k => (h i k : EReal)) s d (fun e k => (ea e k : EReal)) (fun k j => (wr k j : EReal))
        (fun k j => (wn k j : EReal)) (fun k j => (we k j : EReal)) (fun j => (b j : EReal)) i j
      = (((∑ k, h i k * wr k j + b j)
          + ∑ e ∈ into d i, (∑ k, h (s e) k * wn k j + ∑ k, ea e k * we k j) : ℝ) : EReal) := by
  simp only [h1R, mm, seg, zero_add]
  simp only [← EReal.coe_mul, ← coe_sum, ← EReal.coe_add]

theorem h1K_coe {P E C D : Nat} (h : Fin P → Fin C → ℝ) (s : Fin E → Fin P) (d : Fin E → Int)
    (ea : Fin E → Fin D → ℝ) (wr wn : Fin C → Fin C → ℝ) (we : Fin D → Fin C → ℝ) (b : Fin C → ℝ)
    (i : Fin P) (j : Fin C) :
    h1K (fun i k => (h i k : EReal)) s d (fun e k => (ea e k : EReal)) (fun k j => (wr k j : EReal))
        (fun k j => (wn k j : EReal)) (fun k j => (we k j : EReal)) (fun j => (b j : EReal)) i j
      = ((((∑ k, h i k * wr k j + ∑ k, (∑ e ∈ into d i, h (s e) k) * wn k j)
          + ∑ k, (∑ e ∈ into d i, ea e k) * we k j) + b j : ℝ) : EReal) := by
  simp only [h1K, mm, seg, zero_add]
  simp only [← EReal.coe_mul, ← coe_sum, ← EReal.coe_add]

theorem h1K_eq_h1R {P E C D : Nat} (h : Fin P → Fin C → EReal) (s : Fin E → Fin P) (d : Fin E → Int)
    (ea : Fin E → Fin D → EReal) (wr wn : Fin C → Fin C → EReal) (we : Fin D → Fin C → EReal) (b : Fin C → EReal)
    (hh : ∀ i k, ∃ r : ℝ, h i k = (r : EReal)) (hea : ∀ e k, ∃ r : ℝ, ea e k = (r : EReal))
    (hwr : ∀ k j, ∃ r : ℝ, wr k j = (r : EReal)) (hwn : ∀ k j, ∃ r : ℝ, wn k j = (r : EReal))
    (hwe : ∀ k j, ∃ r : ℝ, we k j = (r : EReal)) (hb : ∀ j, ∃ r : ℝ, b j = (r : EReal))
    (i : Fin P) (j : Fin C) :
    h1K h s d ea wr wn we b i j = h1R h s d ea wr wn we b i j := by
  choose hr hhr using hh
  choose ear hear using hea
  choose wrr hwrr using hwr
  choose wnr hwnr using hwn
  choose wer hwer using hwe
  choose br hbr using hb
  obtain rfl : h = fun i k => (hr i k : EReal) := funext fun i => funext fun k => hhr i k
  obtain rfl : ea = fun e k => (ear e k : EReal) := funext fun e => funext fun k => hear e k
  obtain rfl : wr = fun k j => (wrr k j : EReal) := funext fun k => funext fun j => hwrr k j
  obtain rfl : wn = fun k j => (wnr k j : EReal) := funext fun k => funext fun j => hwnr k j
  obtain rfl : we = fun k j => (wer k j : EReal) := funext fun k => funext fun j => hwer k j
  obtain rfl : b = fun j => (br j : EReal) := funext fun j => hbr j
  rw [h1K_coe, h1R_coe, real_layer]

theorem h1R_real {P E C D : Nat} (h : Fin P → Fin C → EReal) (s : Fin E → Fin P) (d : Fin E → Int)
    (ea : Fin E → Fin D → EReal) (wr wn : Fin C → Fin C → EReal) (we : Fin D → Fin C → EReal) (b : Fin C → EReal)
    (hh : ∀ i k, ∃ r : ℝ, h i k = (r : EReal)) (hea : ∀ e k, ∃ r : ℝ, ea e k = (r : EReal))
    (hwr : ∀ k j, ∃ r : ℝ, wr k j = (r : EReal)) (hwn : ∀ k j, ∃ r : ℝ, wn k j = (r : EReal))
    (hwe : ∀ k j, ∃ r : ℝ, we k j = (r : EReal)) (hb : ∀ j, ∃ r : ℝ, b j = (r : EReal))
    (i : Fin P) (j : Fin C) :
    ∃ r : ℝ, h1R h s d ea wr wn we b i j = (r : EReal) := by
  choose hr hhr using hh
  choose ear hear using hea
  choose wrr hwrr using hwr
  choose wnr hwnr using hwn
  choose wer hwer using hwe
  choose br hbr using hb
  obtain rfl : h = fun i k => (hr i k : EReal) := funext fun i => funext fun k => hhr i k
  obtain rfl : ea = fun e k => (ear e k : EReal) := funext fun e => funext fun k => hear e k
  obtain rfl : wr = fun k j => (wrr k j : EReal) := funext fun k => funext fun j => hwrr k j
  obtain rfl : wn = fun k j => (wnr k j : EReal) := funext fun k => funext fun j => hwnr k j
  obtain rfl : we = fun k j => (wer k j : EReal) := funext fun k => funext fun j => hwer k j
  obtain rfl : b = fun j => (br j : EReal) := funext fun j => hbr j
  exact ⟨_, h1R_coe hr s d ear wrr wnr wer br i j⟩

theorem var_identity {M : Nat} (hM : 0 < M) (Nr : ℝ) (hN : Nr = (M : ℝ)) (x : Fin M → ℝ) :
    (∑ i, (x i - (∑ i, x i) / Nr) * (x i - (∑ i, x i) / Nr)) / Nr
      = (∑ i, x i * x i) / Nr - ((∑ i, x i) / Nr) * ((∑ i, x i) / Nr) := by
  have hN0 : Nr ≠ 0 := by rw [hN]; exact_mod_cast hM.ne'
  have hS : ∑ i, x i = Nr * ((∑ i, x i) / Nr) := by field_simp
  generalize (∑ i, x i) / Nr = μ at hS ⊢
  have hexp : ∀ i, (x i - μ) * (x i - μ) = x i * x i - 2 * μ * x i + μ * μ := fun i => by ring
  have h1 : ∑ i, (x i - μ) * (x i - μ) = (∑ i, x i * x i) - 2 * μ * (∑ i, x i) + (M : ℝ) * (μ * μ) := by
    simp only [hexp, Finset.sum_add_distrib, Finset.sum_sub_distrib, ← Finset.mul_sum, Finset.sum_const,
      Finset.card_univ, Fintype.card_fin, nsmul_eq_mul]
    ring
  rw [h1, hS, ← hN]
  field_simp
  ring

theorem var_nonneg {M : Nat} (Nr : ℝ) (hN : Nr = (M : ℝ)) (x : Fin M → ℝ) (μ : ℝ) :
    0 ≤ (∑ i, (x i - μ) * (x i - μ)) / Nr :=
  div_nonneg (Finset.sum_nonneg fun i _ => mul_self_nonneg _) (by rw [hN]; exact Nat.cast_nonneg M)

theorem var_max {M : Nat} (hM : 0 < M) (Nr : ℝ) (hN : Nr = (M : ℝ)) (x : Fin M → ℝ) :
    max ((∑ i, x i * x i) / Nr - ((∑ i, x i) / Nr) * ((∑ i, x i) / Nr)) 0
      = (∑ i, (x i - (∑ i, x i) / Nr) * (x i - (∑ i, x i) / Nr)) / Nr := by
  rw [← var_identity hM Nr hN x]
  exact max_eq_left (var_nonneg Nr hN x _)

def muE {M : Nat} (X : Fin M → EReal) (N : EReal) : EReal := Ideal.div (0 + ∑ i, X i) N

def varE {M : Nat} (X : Fin M → EReal) (N : EReal) : EReal :=
  Ideal.div (0 + ∑ i, (X i - muE X N) * (X i - muE X N)) N

def varK {M : Nat} (X : Fin M → EReal) (N : EReal) : EReal :=
  max (Ideal.div (0 + ∑ i, X i * X i) N - muE X N * muE X N) 0

theorem div_coe_real (a : ℝ) {y : ℝ} (hy : y ≠ 0) :
    Ideal.div (a : EReal) (y : EReal) = ((a / y : ℝ) : EReal) := by
  rw [Ideal.div_coe hy, ← EReal.coe_mul, mul_one_div]

theorem muE_coe {M : Nat} (x : Fin M → ℝ) {Nr : ℝ} (hN0 : Nr ≠ 0) :
    muE (fun i => (x i : EReal)) (Nr : EReal) = (((∑ i, x i) / Nr : ℝ) : EReal) := by
  rw [muE, zero_add, ← coe_sum, div_coe_real _ hN0]

theorem varE_coe {M : Nat} (x : Fin M → ℝ) {Nr : ℝ} (hN0 : Nr ≠ 0) :
    varE (fun i => (x i : EReal)) (Nr : EReal)
      = (((∑ i, (x i - (∑ i, x i) / Nr) * (x i - (∑ i, x i) / Nr)) / Nr : ℝ) : EReal) := by
  rw [varE, muE_coe x hN0, zero_add]
  simp only [← EReal.coe_sub, ← EReal.coe_mul, ← coe_sum]
  rw [div_coe_real _ hN0]

theorem varK_coe {M : Nat} (x : Fin M → ℝ) {Nr : ℝ} (hN0 : Nr ≠ 0) :
    varK (fun i => (x i : EReal)) (Nr : EReal)
      = ((max ((∑ i, x i * x i) / Nr - ((∑ i, x i) / Nr) * ((∑ i, x i) / Nr)) 0 : ℝ) : EReal) := by
  rw [varK, muE_coe x hN0, zero_add]
  simp only [← EReal.coe_mul, ← coe_sum]
  rw [div_coe_real _ hN0, ← EReal.coe_sub, ← EReal.coe_zero, ← coe_max]

section Stats
variable {M : Nat} (hM : 0 < M) (X : Fin M → EReal) (N : EReal) (hX : ∀ i, ∃ r : ℝ, X i = (r : EReal))
  (hN : N = (((M : ℕ) : ℝ) : EReal))
include hM hX hN

theorem muE_real : ∃ r : ℝ, muE X N = (r : EReal) := by
  choose x hx using hX
  obtain rfl : X = fun i => (x i : EReal) := funext hx
  subst hN
  exact ⟨_, muE_coe x (by exact_mod_cast hM.ne')⟩

theorem varE_real : ∃ r : ℝ, varE X N = (r : EReal) := by
  choose x hx using hX
  obtain rfl : X = fun i => (x i : EReal) := funext hx
  subst hN
  exact ⟨_, varE_coe x (by exact_mod_cast hM.ne')⟩

theorem varE_nonneg : 0 ≤ varE X N := by
  choose x hx using hX
  obtain rfl : X = fun i => (x i : EReal) := funext hx
  subst hN
  rw [varE_coe x (by exact_mod_cast hM.ne'), EReal.coe_nonneg]
  exact var_nonneg _ rfl x _

theorem varK_eq_varE : varK X N = varE X N := by
  choose x hx using hX
  obtain rfl : X = fun i => (x i : EReal) := funext hx
  subst hN
  have hN0 : ((M : ℕ) : ℝ) ≠ 0 := by exact_mod_cast hM.ne'
  rw [varK_coe x hN0, varE_coe x hN0, var_max hM _ rfl x]

end Stats

theorem tile_lt {T R : Nat} (t : Fin T) (r : Fin R) : t.val * R + r.val < T * R :=
  calc t.val * R + r.val < t.val * R + R := Nat.add_lt_add_left r.isLt _
    _ = (t.val + 1) * R := (Nat.succ_mul _ _).symm
    _ ≤ T * R := Nat.mul_le_mul_right _ t.isLt

theorem sum_tiles {T R : Nat} (X : Fin (T * R) → EReal)
    (hlt : ∀ (t : Fin T) (r : Fin R), t.val * R + r.val < T * R) :
    ∑ i, X i = ∑ t : Fin T, ∑ r : Fin R, X ⟨t.val * R + r.val, hlt t r⟩ := by
  rw [← Equiv.sum_comp finProdFinEquiv X, Fintype.sum_prod_type]
  refine Finset.sum_congr rfl fun t _ => Finset.sum_congr rfl fun r _ => ?_
  congr 1
  apply Fin.ext
  simp only [finProdFinEquiv_apply_val]
  rw [Nat.add_comm, Nat.mul_comm]

theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem norm_relu_coe (x mu v g be eps : ℝ) (hv : 0 ≤ v) (heps : 0 < eps) :
    max ((((x : EReal) - (mu : EReal)) * Ideal.rsqrt ((v : EReal) + (eps : EReal))) * (g : EReal) + (be : EReal)) 0
      = ((max (((x - mu) * (Real.sqrt (v + eps))⁻¹) * g + be) 0 : ℝ) : EReal) := by
  have hpos : 0 < v + eps := by positivity
  rw [← EReal.coe_add v eps, rsqrt_coe_pos hpos, ← EReal.coe_sub, ← EReal.coe_mul, ← EReal.coe_mul,
    ← EReal.coe_add, ← EReal.coe_zero, ← coe_max]

theorem norm_relu_real (x mu v g be eps : EReal) (hx : ∃ r : ℝ, x = (r : EReal)) (hmu : ∃ r : ℝ, mu = (r : EReal))
    (hv : ∃ r : ℝ, v = (r : EReal)) (hv0 : 0 ≤ v) (hg : ∃ r : ℝ, g = (r : EReal))
    (hbe : ∃ r : ℝ, be = (r : EReal)) (heps : ∃ r : ℝ, 0 < r ∧ eps = (r : EReal)) :
    ∃ r : ℝ, max (((x - mu) * Ideal.rsqrt (v + eps)) * g + be) 0 = (r : EReal) := by
  obtain ⟨xr, rfl⟩ := hx
  obtain ⟨mur, rfl⟩ := hmu
  obtain ⟨vr, rfl⟩ := hv
  obtain ⟨gr, rfl⟩ := hg
  obtain ⟨ber, rfl⟩ := hbe
  obtain ⟨er, her, rfl⟩ := heps
  exact ⟨_, norm_relu_coe xr mur vr gr ber er (EReal.coe_nonneg.mp hv0) her⟩

end Cert.LayerSpec

end
-- ==== Proof.LayerConsts.lean ====
import Idealize.ShloMosaic.PureOps.Ideal
import Mathlib.Data.EReal.Basic
import Mathlib.Algebra.BigOperators.Group.Finset.Basic
import Mathlib.Tactic.NormNum
import Mathlib.Tactic.Positivity

noncomputable section

open scoped BigOperators

namespace Cert.LayerSpec

open Idealize.ShloMosaic

theorem ofBits_N : Ideal.ofBits .f32 0x47C35000#32 = (((100000 : ℕ) : ℝ) : EReal) := by
  simp [Ideal.ofBits, Ideal.ieee, -EReal.coe_mul]; norm_num

theorem ofBits_eps : ∃ r : ℝ, 0 < r ∧ Ideal.ofBits .f32 0x3727C5AC#32 = (r : EReal) := by
  refine ⟨(1 : ℝ) * ((2 ^ 23 + 2606508 : ℕ) : ℝ) * (2 : ℝ) ^ ((110 : Int) - 127 - 23), by positivity, ?_⟩
  simp [Ideal.ofBits, Ideal.ieee, -EReal.coe_mul]

theorem real_dot_add {K : Nat} (x w : Fin K → EReal) (b : EReal) (hx : ∀ k, ∃ r : ℝ, x k = (r : EReal))
    (hw : ∀ k, ∃ r : ℝ, w k = (r : EReal)) (hb : ∃ r : ℝ, b = (r : EReal)) :
    ∃ r : ℝ, (∑ k, x k * w k) + b = (r : EReal) := by
  choose xr hxr using hx
  choose wr hwr using hw
  obtain ⟨br, rfl⟩ := hb
  refine ⟨(∑ k, xr k * wr k) + br, ?_⟩
  have hsum : ∀ s : Finset (Fin K), ∑ k ∈ s, x k * w k = ((∑ k ∈ s, xr k * wr k : ℝ) : EReal) := by
    intro s
    classical
    induction s using Finset.induction_on with
    | empty => simp
    | insert a s ha ih => rw [Finset.sum_insert ha, Finset.sum_insert ha, EReal.coe_add, ih, hxr, hwr, EReal.coe_mul]
  rw [hsum, EReal.coe_add]

end Cert.LayerSpec

end
-- ==== Proof.LayerThm.lean ====
import proofs.«425797_j7249904796358_2_alg».proof.Proof.LayerSpec
import proofs.«425797_j7249904796358_2_alg».proof.Proof.LayerMath
import proofs.«425797_j7249904796358_2_alg».proof.Proof.LayerConsts

noncomputable section

open scoped BigOperators

namespace Cert.LayerSpec

open Idealize.ShloMosaic

def normRelu (x mu v eps g be : EReal) : EReal := max ((((x - mu) * Ideal.rsqrt (v + eps)) * g) + be) 0

def outE {P C : Nat} (x : Fin P → Fin C → EReal) (N eps : EReal) (g be : Fin C → EReal) (i : Fin P) (j : Fin C) :
    EReal :=
  normRelu (x i j) (muE (fun i => x i j) N) (varE (fun i => x i j) N) eps (g j) (be j)

def colsum {P C T R : Nat} (x : Fin P → Fin C → EReal) (row : Fin T → Fin R → Fin P) (t : Fin T) (j : Fin C) :
    EReal :=
  ∑ r : Fin R, x (row t r) j

def colsumsq {P C T R : Nat} (x : Fin P → Fin C → EReal) (row : Fin T → Fin R → Fin P) (t : Fin T) (j : Fin C) :
    EReal :=
  ∑ r : Fin R, x (row t r) j * x (row t r) j

def muT {P C T R : Nat} (x : Fin P → Fin C → EReal) (row : Fin T → Fin R → Fin P) (N : EReal) (j : Fin C) : EReal :=
  Ideal.div (0 + ∑ t : Fin T, colsum x row t j) N

def varT {P C T R : Nat} (x : Fin P → Fin C → EReal) (row : Fin T → Fin R → Fin P) (N : EReal) (j : Fin C) : EReal :=
  max (Ideal.div (0 + ∑ t : Fin T, colsumsq x row t j) N - muT x row N j * muT x row N j) 0

def outT {P C T R : Nat} (x : Fin P → Fin C → EReal) (row : Fin T → Fin R → Fin P) (N eps : EReal)
    (g be : Fin C → EReal) (i : Fin P) (j : Fin C) : EReal :=
  normRelu (x i j) (muT x row N j) (varT x row N j) eps (g j) (be j)

theorem sum_rows {T R P : Nat} (hP : T * R = P) (row : Fin T → Fin R → Fin P)
    (hrow : ∀ t r, (row t r).val = t.val * R + r.val) (f : Fin P → EReal) :
    ∑ t : Fin T, ∑ r : Fin R, f (row t r) = ∑ i, f i := by
  subst hP
  rw [sum_tiles f (fun t r => tile_lt t r)]
  refine Finset.sum_congr rfl fun t _ => Finset.sum_congr rfl fun r _ => ?_
  congr 1
  exact Fin.ext (hrow t r)

theorem muT_eq_muE {P C T R : Nat} (x : Fin P → Fin C → EReal) (row : Fin T → Fin R → Fin P) (N : EReal)
    (hP : T * R = P) (hrow : ∀ t r, (row t r).val = t.val * R + r.val) (j : Fin C) :
    muT x row N j = muE (fun i => x i j) N := by
  simp only [muT, muE, colsum]
  rw [sum_rows hP row hrow (fun i => x i j)]

theorem varT_eq_varK {P C T R : Nat} (x : Fin P → Fin C → EReal) (row : Fin T → Fin R → Fin P) (N : EReal)
    (hP : T * R = P) (hrow : ∀ t r, (row t r).val = t.val * R + r.val) (j : Fin C) :
    varT x row N j = varK (fun i => x i j) N := by
  simp only [varT, varK, colsumsq, muT_eq_muE x row N hP hrow j]
  rw [sum_rows hP row hrow (fun i => x i j * x i j)]

theorem outT_eq_outE {P C T R : Nat} (x : Fin P → Fin C → EReal) (row : Fin T → Fin R → Fin P) (N eps : EReal)
    (g be : Fin C → EReal) (hrow : ∀ t r, (row t r).val = t.val * R + r.val) (hP : T * R = P) (hP0 : 0 < P)
    (hN : N = (((P : ℕ) : ℝ) : EReal)) (hx : ∀ i j, ∃ r : ℝ, x i j = (r : EReal)) (i : Fin P) (j : Fin C) :
    outT x row N eps g be i j = outE x N eps g be i j := by
  rw [outT, outE, muT_eq_muE x row N hP hrow j, varT_eq_varK x row N hP hrow j,
    varK_eq_varE hP0 (fun i => x i j) N (fun i => hx i j) hN]

theorem outE_real {P C : Nat} (x : Fin P → Fin C → EReal) (N eps : EReal) (g be : Fin C → EReal) (hP0 : 0 < P)
    (hN : N = (((P : ℕ) : ℝ) : EReal)) (heps : ∃ r : ℝ, 0 < r ∧ eps = (r : EReal))
    (hx : ∀ i j, ∃ r : ℝ, x i j = (r : EReal)) (hg : ∀ j, ∃ r : ℝ, g j = (r : EReal))
    (hbe : ∀ j, ∃ r : ℝ, be j = (r : EReal)) (i : Fin P) (j : Fin C) :
    ∃ r : ℝ, outE x N eps g be i j = (r : EReal) := by
  rw [outE, normRelu]
  exact norm_relu_real (x i j) (muE (fun i => x i j) N) (varE (fun i => x i j) N) (g j) (be j) eps (hx i j)
    (muE_real hP0 (fun i => x i j) N (fun i => hx i j) hN) (varE_real hP0 (fun i => x i j) N (fun i => hx i j) hN)
    (varE_nonneg hP0 (fun i => x i j) N (fun i => hx i j) hN) (hg j) (hbe j) heps

section Layer
variable {P E C D T R : Nat} (h : Fin P → Fin C → EReal) (s : Fin E → Fin P) (d : Fin E → Int)
  (ea : Fin E → Fin D → EReal) (wr wn : Fin C → Fin C → EReal) (we : Fin D → Fin C → EReal) (b : Fin C → EReal)
  (row : Fin T → Fin R → Fin P) (N eps : EReal) (g be : Fin C → EReal)
  (hh : ∀ i k, ∃ r : ℝ, h i k = (r : EReal)) (hea : ∀ e k, ∃ r : ℝ, ea e k = (r : EReal))
  (hwr : ∀ k j, ∃ r : ℝ, wr k j = (r : EReal)) (hwn : ∀ k j, ∃ r : ℝ, wn k j = (r : EReal))
  (hwe : ∀ k j, ∃ r : ℝ, we k j = (r : EReal)) (hb : ∀ j, ∃ r : ℝ, b j = (r : EReal))
  (hrow : ∀ t r, (row t r).val = t.val * R + r.val) (hP : T * R = P) (hP0 : 0 < P)
  (hN : N = (((P : ℕ) : ℝ) : EReal)) (heps : ∃ r : ℝ, 0 < r ∧ eps = (r : EReal))
  (hg : ∀ j, ∃ r : ℝ, g j = (r : EReal)) (hbe : ∀ j, ∃ r : ℝ, be j = (r : EReal))

include hh hea hwr hwn hwe hb hrow hP hP0 hN in

theorem layer_eq (i : Fin P) (j : Fin C) :
    outT (h1K h s d ea wr wn we b) row N eps g be i j = outE (h1R h s d ea wr wn we b) N eps g be i j := by
  have hKR : h1K h s d ea wr wn we b = h1R h s d ea wr wn we b :=
    funext fun i => funext fun j => h1K_eq_h1R h s d ea wr wn we b hh hea hwr hwn hwe hb i j
  rw [hKR]
  exact outT_eq_outE (h1R h s d ea wr wn we b) row N eps g be hrow hP hP0 hN
    (fun i j => h1R_real h s d ea wr wn we b hh hea hwr hwn hwe hb i j) i j

include hh hea hwr hwn hwe hb hP0 hN heps hg hbe in

theorem layer_real (i : Fin P) (j : Fin C) :
    ∃ r : ℝ, outE (h1R h s d ea wr wn we b) N eps g be i j = (r : EReal) :=
  outE_real (h1R h s d ea wr wn we b) N eps g be hP0 hN heps
    (fun i j => h1R_real h s d ea wr wn we b hh hea hwr hwn hwe hb i j) hg hbe i j

end Layer

end Cert.LayerSpec

end
-- ==== Proof.StageApply2.lean ====
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws
import proofs.«425797_j7249904796358_2_alg».proof.Proof.Stage
import proofs.«425797_j7249904796358_2_alg».proof.Proof.Gen.ReferenceIdeal
import proofs.«425797_j7249904796358_2_alg».proof.Proof.LayerMath
import proofs.«425797_j7249904796358_2_alg».proof.Proof.LayerThm

noncomputable section

open scoped BigOperators

namespace Cert.Stage.At2

open Idealize.ShloMosaic Idealize.ShloMosaic.ValueIdx

variable {α : Type}

theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

theorem stack3_apply {n a b : Nat} (o : Fin n) (X : (⟨3, ![n, a, b]⟩ : Shape).Idx → α)
    (hs : (⟨3, ![n, a, b]⟩ : Shape).Slices ![o.val, 0, 0] ⟨3, ![1, a, b]⟩)
    (hc : (⟨3, ![1, a, b]⟩ : Shape).ShapeCasts ⟨2, ![a, b]⟩) (k : Fin a) (j : Fin b) :
    shapeCast ⟨2, ![a, b]⟩ (extractStridedSlice ⟨3, ![1, a, b]⟩ ![o.val, 0, 0] X hs) hc (ix2 k j) = X (ix3 o k j) := by
  rw [shapeCast_1ab_ab_apply, slice3_axis0_apply o.val X hs (0 : Fin 1) k j o rfl]

theorem stack2_apply {n a : Nat} (o : Fin n) (X : (⟨2, ![n, a]⟩ : Shape).Idx → α)
    (hs : (⟨2, ![n, a]⟩ : Shape).Slices ![o.val, 0] ⟨2, ![1, a]⟩)
    (hc : (⟨2, ![1, a]⟩ : Shape).ShapeCasts ⟨1, ![a]⟩) (j : Fin a) :
    shapeCast ⟨1, ![a]⟩ (extractStridedSlice ⟨2, ![1, a]⟩ ![o.val, 0] X hs) hc (ix1 j) = X (ix2 o j) := by
  rw [shapeCast_1a_a_apply, slice2_axis0_apply o.val X hs (0 : Fin 1) j o rfl]

theorem rows_apply {P C : Nat} (h1 : (⟨1, ![C]⟩ : Shape).BroadcastsInDim (⟨2, ![1, C]⟩ : Shape) ![1])
    (h2 : (⟨2, ![1, C]⟩ : Shape).BroadcastsInDim (⟨2, ![P, C]⟩ : Shape) ![0, 1])
    (v : (⟨1, ![C]⟩ : Shape).Idx → α) (i : Fin P) (j : Fin C) :
    broadcastInDim ⟨2, ![P, C]⟩ ![0, 1] h2 (broadcastInDim ⟨2, ![1, C]⟩ ![1] h1 v) (ix2 i j) = v (ix1 j) := by
  rw [broadcastInDim_oneRow_apply]
  refine broadcastInDim_apply ![1] h1 v (ix2 (0 : Fin 1) j) (ix1 j) ?_
  intro a
  match a with
  | ⟨0, _⟩ =>
    show j.val = if C = 1 then 0 else j.val
    split
    · have := j.isLt; omega
    · rfl

theorem colsum_apply {P C : Nat} (h' : (⟨2, ![P, C]⟩ : Shape).ReducesTo [0] ⟨1, ![C]⟩)
    (h : (⟨2, ![P, C]⟩ : Shape).Reduces [0] ⟨1, ![C]⟩) (x : (⟨2, ![P, C]⟩ : Shape).Idx → EReal) (init : EReal)
    (j : Fin C) :
    Ideal.hostReduceAdd h' x init (ix1 j) = init + ∑ i : Fin P, x (ix2 i j) := by
  rw [Ideal.hostReduceAdd_single h' h]
  congr 1
  refine Finset.sum_congr rfl fun k _ => ?_
  congr 1
  funext c
  apply Fin.ext
  match c with
  | ⟨0, _⟩ => rfl
  | ⟨1, _⟩ => rfl

end Cert.Stage.At2

namespace Cert.Stage

open Idealize.ShloMosaic Idealize.ShloMosaic.ValueIdx
open Cert.ReferenceIdeal Cert.Stage.At2

variable [Facts]
open Facts₀ Facts

theorem SRC_apply (ei : IVec S2x600000 32) (e : Fin 600000) : SRC ei (ix1 e) = ei (ix2 (0 : Fin 2) e) :=
  stack2_apply (0 : Fin 2) ei _ _ e

theorem DST_apply (ei : IVec S2x600000 32) (e : Fin 600000) : DST ei (ix1 e) = ei (ix2 (1 : Fin 2) e) :=
  stack2_apply (1 : Fin 2) ei _ _ e

theorem rowsS_apply (v : FVec Ideal S128 .f32) (i : Fin 100000) (j : Fin 128) :
    broadcastInDim S100000x128 ![0, 1] bcast_S1x128_S100000x128_0_1
        (broadcastInDim S1x128 ![1] bcast_S128_S1x128_1 v) (ix2 i j) = v (ix1 j) :=
  rows_apply _ _ v i j

theorem scalarPC_apply (x : FVec Ideal S_ .f32) (i : Fin 100000) (j : Fin 128) :
    broadcastInDim S100000x128 ![] bcast_S_S100000x128 x (ix2 i j) = x ix0 :=
  broadcastInDim_scalar_apply _ x _

theorem scalarC_apply (x : FVec Ideal S_ .f32) (j : Fin 128) :
    broadcastInDim S128 ![] bcast_S_S128 x (ix1 j) = x ix0 :=
  broadcastInDim_scalar_apply _ x _

theorem hostRsqrt_apply {s : Shape} {φ : FTy} (x : FVec Ideal s φ) (i : s.Idx) :
    Host.rsqrt (F := Ideal) x i = Ideal.rsqrt (x i) := rfl

theorem dev_apply (h1 : FVec Ideal S100000x128 .f32) (m : FVec Ideal S128 .f32) (i : Fin 100000) (j : Fin 128) :
    subf (F := Ideal) h1
        (broadcastInDim S100000x128 ![0, 1] bcast_S1x128_S100000x128_0_1
          (broadcastInDim S1x128 ![1] bcast_S128_S1x128_1 m)) (ix2 i j)
      = h1 (ix2 i j) - m (ix1 j) := by
  rw [subf_apply, rowsS_apply]

theorem colsumS_apply (x : FVec Ideal S100000x128 .f32) (j : Fin 128) :
    Host.reduceAdd (F := Ideal) x (constant (F := Ideal) S_ .f32 0x00000000#32) reducesTo_S100000x128_S128_d0 h_S_
        (ix1 j)
      = 0 + ∑ i : Fin 100000, x (ix2 i j) := by
  have hr : S100000x128.Reduces [0] S128 := by decide
  rw [hostReduceAdd_apply, colsum_apply _ hr, constant_apply, Ideal.ofBits_zero_f32]

theorem divisor_apply (j : Fin 128) :
    broadcastInDim S128 ![] bcast_S_S128 (constant (F := Ideal) S_ .f32 0x47C35000#32) (ix1 j)
      = Ideal.ofBits .f32 0x47C35000#32 := by
  rw [scalarC_apply, constant_apply]

theorem MU_apply (h1 : FVec Ideal S100000x128 .f32) (j : Fin 128) :
    MU h1 (ix1 j)
      = Cert.LayerSpec.muE (fun i : Fin 100000 => h1 (ix2 i j)) (Ideal.ofBits .f32 0x47C35000#32) := by
  rw [MU, hostDivf_apply, colsumS_apply, divisor_apply]
  rfl

theorem VAR_apply (h1 : FVec Ideal S100000x128 .f32) (j : Fin 128) :
    VAR h1 (ix1 j)
      = Cert.LayerSpec.varE (fun i : Fin 100000 => h1 (ix2 i j)) (Ideal.ofBits .f32 0x47C35000#32) := by
  have hsum : ∀ dev : FVec Ideal S100000x128 .f32,
      (∀ i : Fin 100000, dev (ix2 i j) = h1 (ix2 i j) - MU h1 (ix1 j)) →
      Host.reduceAdd (F := Ideal) (mulf (F := Ideal) dev dev) (constant (F := Ideal) S_ .f32 0x00000000#32)
          reducesTo_S100000x128_S128_d0 h_S_ (ix1 j)
        = 0 + ∑ i : Fin 100000, (h1 (ix2 i j) - MU h1 (ix1 j)) * (h1 (ix2 i j) - MU h1 (ix1 j)) := by
    intro dev hdev
    rw [colsumS_apply]
    exact congrArg (fun t : EReal => 0 + t) (Finset.sum_congr rfl fun i _ => by rw [mulf_apply, hdev])
  rw [VAR, hostDivf_apply, hsum _ (fun i => dev_apply h1 (MU h1) i j), divisor_apply, MU_apply]
  rfl

theorem TAIL_apply (h1 : FVec Ideal S100000x128 .f32) (mu var g be : FVec Ideal S128 .f32) (i : Fin 100000)
    (j : Fin 128) :
    TAIL h1 mu var g be (ix2 i j)
      = Cert.LayerSpec.normRelu (h1 (ix2 i j)) (mu (ix1 j)) (var (ix1 j)) (Ideal.ofBits .f32 0x3727C5AC#32)
          (g (ix1 j)) (be (ix1 j)) := by
  simp only [TAIL, maximumf_apply, addf_apply, mulf_apply, subf_apply]
  rw [rowsS_apply, rowsS_apply, rowsS_apply, rowsS_apply, scalarPC_apply, constant_apply, Ideal.ofBits_zero_f32,
    hostRsqrt_apply, addf_apply, scalarC_apply, constant_apply]
  rfl

end Cert.Stage

end
-- ==== Proof.PreFacts.lean ====
import proofs.«425797_j7249904796358_2_alg».proof.Pre_finite_inputs
import Idealize.ShloMosaic.PureOps.Ideal
import Idealize.ShloMosaic.Lib.ValueIdx
import Idealize.ShloMosaic.Lib.ValueLayout
import Idealize.ShloMosaic.Lib.IdealHost
import Idealize.ShloMosaic.Lib.ReduceAll

noncomputable section

namespace Cert.PreFacts

open Idealize.ShloMosaic Idealize.ShloMosaic.ValueIdx
open Cert.Pre_finite_inputs

instance : Subsingleton S_.Idx := ⟨fun a b => funext fun d => d.elim0⟩

theorem ofBits_inf : Ideal.ofBits .f32 0x7F800000#32 = (⊤ : EReal) := by
  simp [Ideal.ofBits, Ideal.ieee]

theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

theorem and_ix0 {x y : IVec S_ 1} (h : andi x y ix0 = 1#1) : x ix0 = 1#1 ∧ y ix0 = 1#1 := IntOp.andi_eq_one.1 h

theorem real_of_all {s : Shape} {axes : List (Fin s.rank)} {a : FVec Ideal s .f32}
    {hb : S_.BroadcastsInDim s (![] : Fin 0 → Fin s.rank)} {hr : s.ReducesTo axes S_} {hS : 0 < S_.numel}
    (e : Host.reduce IntOp.andi
          (cmpf (F := Ideal) .olt (Host.absf (F := Ideal) a)
            (broadcastInDim s ![] hb (constant (F := Ideal) S_ .f32 0x7F800000#32)))
          (constantI S_ 1 1#1) hr hS ix0 = 1#1) (i : s.Idx) : ∃ r : ℝ, a i = (r : EReal) := by
  have h := Host.reduce_andi_all _ _ hr hS ix0 e i
  have h' : Ideal.cmp .olt (max (a i) (-(a i))) (Ideal.ofBits .f32 0x7F800000#32) = 1#1 := h
  rw [ofBits_inf] at h'
  exact real_of_abs_lt_top _ h'

theorem row0_apply (a1 : IVec S2x600000 32) (hsl : S2x600000.Slices ![0, 0] S1x600000)
    (hsc : S1x600000.ShapeCasts S600000) (e : Fin 600000) :
    shapeCast S600000 (extractStridedSlice S1x600000 ![0, 0] a1 hsl) hsc (ix1 e) = a1 (ix2 (0 : Fin 2) e) := by
  rw [shapeCast_1a_a_apply]
  exact slice2_axis0_apply 0 a1 hsl (0 : Fin 1) e (0 : Fin 2) rfl

theorem sge_of_all {a1 : IVec S2x600000 32} {c : BitVec 32}
    {hsl : S2x600000.Slices ![0, 0] S1x600000} {hsc : S1x600000.ShapeCasts S600000}
    {hb : S_.BroadcastsInDim S600000 (![] : Fin 0 → Fin S600000.rank)} {hr : S600000.ReducesTo [0] S_} {hS : 0 < S_.numel}
    (e : Host.reduce IntOp.andi
          (cmpi .sge (shapeCast S600000 (extractStridedSlice S1x600000 ![0, 0] a1 hsl) hsc)
            (broadcastInDim S600000 ![] hb (constantI S_ 32 c)))
          (constantI S_ 1 1#1) hr hS ix0 = 1#1) (k : Fin 600000) :
    c.toInt ≤ (a1 (ix2 (0 : Fin 2) k)).toInt := by
  have h := Host.reduce_andi_all _ _ hr hS ix0 e (ix1 k)
  have h' : IntOp.cmpi .sge (shapeCast S600000 (extractStridedSlice S1x600000 ![0, 0] a1 hsl) hsc (ix1 k)) c = 1#1 := h
  rw [row0_apply] at h'
  exact IntOp.cmpi_sge.1 h'

theorem slt_of_all {a1 : IVec S2x600000 32} {c : BitVec 32}
    {hsl : S2x600000.Slices ![0, 0] S1x600000} {hsc : S1x600000.ShapeCasts S600000}
    {hb : S_.BroadcastsInDim S600000 (![] : Fin 0 → Fin S600000.rank)} {hr : S600000.ReducesTo [0] S_} {hS : 0 < S_.numel}
    (e : Host.reduce IntOp.andi
          (cmpi .slt (shapeCast S600000 (extractStridedSlice S1x600000 ![0, 0] a1 hsl) hsc)
            (broadcastInDim S600000 ![] hb (constantI S_ 32 c)))
          (constantI S_ 1 1#1) hr hS ix0 = 1#1) (k : Fin 600000) :
    (a1 (ix2 (0 : Fin 2) k)).toInt < c.toInt := by
  have h := Host.reduce_andi_all _ _ hr hS ix0 e (ix1 k)
  have h' : IntOp.cmpi .slt (shapeCast S600000 (extractStridedSlice S1x600000 ![0, 0] a1 hsl) hsc (ix1 k)) c = 1#1 := h
  rw [row0_apply] at h'
  exact IntOp.cmpi_slt.1 h'

variable [Facts]
variable {a0 : FVec Ideal S100000x128 .f32}
  {a1 : IVec S2x600000 32}
  {a2 : FVec Ideal S600000x16 .f32}
  {a3 : IVec S100000 32}
  {a4 : IVec S100000 32}
  {a5 : IVec S4096 32}
  {a6 : IVec S512 32}
  {a7 : FVec Ideal S128x128 .f32}
  {a8 : FVec Ideal S128 .f32}
  {a9 : FVec Ideal S3x128x128 .f32}
  {a10 : FVec Ideal S3x128 .f32}
  {a11 : FVec Ideal S3x128x128 .f32}
  {a12 : FVec Ideal S3x16x128 .f32}
  {a13 : FVec Ideal S3x128 .f32}
  {a14 : FVec Ideal S3x128 .f32}
  {a15 : FVec Ideal S128x256 .f32}
  {a16 : FVec Ideal S256 .f32}
  {a17 : FVec Ideal S256x10 .f32}
  {a18 : FVec Ideal S10 .f32}

variable (h : fn (F := Ideal) a0 a1 a2 a3 a4 a5 a6 a7 a8 a9 a10 a11 a12 a13 a14 a15 a16 a17 a18 = fun _ => 1#1)
include h

theorem decode :
    (∀ i, ∃ r : ℝ, a0 i = (r : EReal))
    ∧ (∀ i, ∃ r : ℝ, a2 i = (r : EReal))
    ∧ (∀ i, ∃ r : ℝ, a7 i = (r : EReal))
    ∧ (∀ i, ∃ r : ℝ, a8 i = (r : EReal))
    ∧ (∀ i, ∃ r : ℝ, a9 i = (r : EReal))
    ∧ (∀ i, ∃ r : ℝ, a10 i = (r : EReal))
    ∧ (∀ i, ∃ r : ℝ, a11 i = (r : EReal))
    ∧ (∀ i, ∃ r : ℝ, a12 i = (r : EReal))
    ∧ (∀ i, ∃ r : ℝ, a13 i = (r : EReal))
    ∧ (∀ i, ∃ r : ℝ, a14 i = (r : EReal))
    ∧ (∀ i, ∃ r : ℝ, a15 i = (r : EReal))
    ∧ (∀ i, ∃ r : ℝ, a16 i = (r : EReal))
    ∧ (∀ i, ∃ r : ℝ, a17 i = (r : EReal))
    ∧ (∀ i, ∃ r : ℝ, a18 i = (r : EReal))
    ∧ (∀ e : Fin 600000, (0#32 : BitVec 32).toInt ≤ (a1 (ix2 (0 : Fin 2) e)).toInt)
    ∧ (∀ e : Fin 600000, (a1 (ix2 (0 : Fin 2) e)).toInt < (100000#32 : BitVec 32).toInt) := by
  have h := congrFun h ix0
  dsimp only [fn, fn_part1, fn_part2, fn_part3, fn_part4] at h
  obtain ⟨h, hlt⟩ := and_ix0 h
  obtain ⟨h, hge⟩ := and_ix0 h
  obtain ⟨h, h18⟩ := and_ix0 h
  obtain ⟨h, h17⟩ := and_ix0 h
  obtain ⟨h, h16⟩ := and_ix0 h
  obtain ⟨h, h15⟩ := and_ix0 h
  obtain ⟨h, h14⟩ := and_ix0 h
  obtain ⟨h, h13⟩ := and_ix0 h
  obtain ⟨h, h12⟩ := and_ix0 h
  obtain ⟨h, h11⟩ := and_ix0 h
  obtain ⟨h, h10⟩ := and_ix0 h
  obtain ⟨h, h9⟩ := and_ix0 h
  obtain ⟨h, h8⟩ := and_ix0 h
  obtain ⟨h, h7⟩ := and_ix0 h
  obtain ⟨h0, h2⟩ := and_ix0 h
  exact ⟨real_of_all h0, real_of_all h2, real_of_all h7, real_of_all h8, real_of_all h9, real_of_all h10, real_of_all h11, real_of_all h12, real_of_all h13, real_of_all h14, real_of_all h15, real_of_all h16, real_of_all h17, real_of_all h18, sge_of_all hge, slt_of_all hlt⟩

theorem real_arg0 :
    ∀ i, ∃ r : ℝ, a0 i = (r : EReal) := (decode h).1

theorem real_arg2 :
    ∀ i, ∃ r : ℝ, a2 i = (r : EReal) := (decode h).2.1

theorem real_arg7 :
    ∀ i, ∃ r : ℝ, a7 i = (r : EReal) := (decode h).2.2.1

theorem real_arg8 :
    ∀ i, ∃ r : ℝ, a8 i = (r : EReal) := (decode h).2.2.2.1

theorem real_arg9 :
    ∀ i, ∃ r : ℝ, a9 i = (r : EReal) := (decode h).2.2.2.2.1

theorem real_arg10 :
    ∀ i, ∃ r : ℝ, a10 i = (r : EReal) := (decode h).2.2.2.2.2.1

theorem real_arg11 :
    ∀ i, ∃ r : ℝ, a11 i = (r : EReal) := (decode h).2.2.2.2.2.2.1

theorem real_arg12 :
    ∀ i, ∃ r : ℝ, a12 i = (r : EReal) := (decode h).2.2.2.2.2.2.2.1

theorem real_arg13 :
    ∀ i, ∃ r : ℝ, a13 i = (r : EReal) := (decode h).2.2.2.2.2.2.2.2.1

theorem real_arg14 :
    ∀ i, ∃ r : ℝ, a14 i = (r : EReal) := (decode h).2.2.2.2.2.2.2.2.2.1

theorem src_range :
    ∀ e : Fin 600000, 0 ≤ (a1 (ix2 (0 : Fin 2) e)).toInt ∧ (a1 (ix2 (0 : Fin 2) e)).toInt < 100000 := by
  intro e
  have hd := decode h
  have hge := hd.2.2.2.2.2.2.2.2.2.2.2.2.2.2.1 e
  have hlt := hd.2.2.2.2.2.2.2.2.2.2.2.2.2.2.2 e
  have e0 : (0#32 : BitVec 32).toInt = 0 := by decide
  have e1 : (100000#32 : BitVec 32).toInt = 100000 := by decide
  rw [e0] at hge
  rw [e1] at hlt
  exact ⟨hge, hlt⟩

end Cert.PreFacts

end
-- ==== Proof.KLayerGen.lean ====
import proofs.«425797_j7249904796358_2_alg».proof.Proof.KHostLib
import proofs.«425797_j7249904796358_2_alg».proof.Proof.LayerThm
import proofs.«425797_j7249904796358_2_alg».proof.Proof.StageApply
import proofs.«425797_j7249904796358_2_alg».proof.Proof.StageApply2
import proofs.«425797_j7249904796358_2_alg».proof.Proof.Gen.ReferenceIdeal
import proofs.«425797_j7249904796358_2_alg».proof.Proof.PreFacts
import proofs.«425797_j7249904796358_2_alg».proof.Defs
import proofs.«425797_j7249904796358_2_alg».proof.Proof.Gen.Pre_finite_inputs

noncomputable section

namespace Cert.KernelIdeal.Hand.LayerGen

open Idealize.ShloMosaic Idealize.ShloMosaic.TcCoe Idealize.ShloMosaic.ValueIdx Idealize.SL.Sem
open Cert.KernelIdeal Cert.KernelIdeal.Gen Cert.LayerSpec Cert.Stage HostLib

def rowF (t : Fin 20) (r : Fin 5000) : Fin 100000 := ⟨5000 * t.val + r.val, by omega⟩

theorem rowF_val (t : Fin 20) (r : Fin 5000) : (rowF t r).val = t.val * 5000 + r.val := by
  show 5000 * t.val + r.val = _
  omega

variable (m : (ℓ : Loc nD τ sig) → Buf (Elt Ideal) ℓ) (c : Dev nD) (L : Fin 3)

abbrev EI : S2x600000.Idx → BitVec 32 := m ((c : Thread nD τ).loc main_arg1)
abbrev A2 : S600000x16.Idx → EReal := m ((c : Thread nD τ).loc main_arg2)
abbrev A9 : S3x128x128.Idx → EReal := m ((c : Thread nD τ).loc main_arg9)
abbrev A10 : S3x128.Idx → EReal := m ((c : Thread nD τ).loc main_arg10)
abbrev A11 : S3x128x128.Idx → EReal := m ((c : Thread nD τ).loc main_arg11)
abbrev A12 : S3x16x128.Idx → EReal := m ((c : Thread nD τ).loc main_arg12)
abbrev A13 : S3x128.Idx → EReal := m ((c : Thread nD τ).loc main_arg13)
abbrev A14 : S3x128.Idx → EReal := m ((c : Thread nD τ).loc main_arg14)

variable {X X' O Hin xh xg R : S100000x128.Idx → EReal} {ST ST' : S160x128.Idx → EReal} {GA BA : S3x128.Idx → EReal}
  {xa : S100000x16.Idx → EReal} {xwr xwn : S128x128.Idx → EReal} {xwe : S16x128.Idx → EReal} {xb : S1x128.Idx → EReal}
  {hsl : S3x128.Slices ![L.val, 0] S1x128} {WS : FVec Ideal S3x128x128 .f32 → FVec Ideal S128x128 .f32}
  {ES : FVec Ideal S3x16x128 .f32 → FVec Ideal S16x128 .f32} {VS : FVec Ideal S3x128 .f32 → FVec Ideal S128 .f32}
  (hs : ∀ e : Fin 600000, 0 ≤ (EI m c (ix2 0 e)).toInt ∧ (EI m c (ix2 0 e)).toInt < 100000)

-- One of the layer's two forms F (aggregate or message), at member L of the weight stacks.
def lay (F : (Fin 100000 → Fin 128 → EReal) → (Fin 600000 → Fin 100000) → (Fin 600000 → Int) → (Fin 600000 → Fin 16 → EReal)
      → (Fin 128 → Fin 128 → EReal) → (Fin 128 → Fin 128 → EReal) → (Fin 16 → Fin 128 → EReal) → (Fin 128 → EReal)
      → Fin 100000 → Fin 128 → EReal) (Hin : S100000x128.Idx → EReal) : Fin 100000 → Fin 128 → EReal :=
  F (fun i k => Hin (ix2 i k)) (fun e => ⟨(EI m c (ix2 0 e)).toInt.toNat, by have := hs e; omega⟩) (fun e => (EI m c (ix2 1 e)).toInt)
    (fun e k => A2 m c (ix2 e k)) (fun k j => A9 m c (ix3 L k j)) (fun k j => A11 m c (ix3 L k j)) (fun k j => A12 m c (ix3 L k j))
    fun j => A10 m c (ix2 L j)

def gF (j : Fin 128) : EReal := A13 m c (ix2 L j)
def beF (j : Fin 128) : EReal := A14 m c (ix2 L j)

variable (ho : O = reluT (bnT X' ST' GA BA L.val hsl)) (hG : GA = A13 m c) (hB : BA = A14 m c) (hX' : X' = X) (hST' : ST' = ST)
  (hX : ∀ (i : Fin 100000) (j : Fin 128), X (ix2 i j)
    = ((∑ k : Fin 128, xh (ix2 i k) * xwr (ix2 k j) + ∑ k : Fin 128, xg (ix2 i k) * xwn (ix2 k j))
        + ∑ k : Fin 16, xa (ix2 i k) * xwe (ix2 k j)) + xb (ix2 0 j))
  (hST : ∀ (t : Fin 20) (q : Fin 8) (j : Fin 128), ST (ix2 ⟨8 * t.val + q.val, by omega⟩ j)
    = if q.val = 0 then ∑ r : Fin 5000, X (ix2 ⟨5000 * t.val + r.val, by omega⟩ j)
      else if q.val = 1 then ∑ r : Fin 5000, X (ix2 ⟨5000 * t.val + r.val, by omega⟩ j) * X (ix2 ⟨5000 * t.val + r.val, by omega⟩ j)
      else 0)
  (hh : xh = Hin)
  (hg : ∀ (i : Fin 100000) (k : Fin 128), xg (ix2 i k) = seg (fun e => (EI m c (ix2 1 e)).toInt)
    (fun e k => Hin (ix2 (⟨(EI m c (ix2 0 e)).toInt.toNat, by have := hs e; omega⟩ : Fin 100000) k)) i k)
  (ha : ∀ (i : Fin 100000) (k : Fin 16), xa (ix2 i k) = seg (fun e => (EI m c (ix2 1 e)).toInt) (fun e k => A2 m c (ix2 e k)) i k)
  (hwr : ∀ k j : Fin 128, xwr (ix2 k j) = A9 m c (ix3 L k j)) (hwn : ∀ k j : Fin 128, xwn (ix2 k j) = A11 m c (ix3 L k j))
  (hwe : ∀ (k : Fin 16) (j : Fin 128), xwe (ix2 k j) = A12 m c (ix3 L k j)) (hb : ∀ j : Fin 128, xb (ix2 0 j) = A10 m c (ix2 L j))
  (hWS : ∀ w (k j : Fin 128), WS w (ix2 k j) = w (ix3 L k j)) (hES : ∀ w (k : Fin 16) (j : Fin 128), ES w (ix2 k j) = w (ix3 L k j))
  (hVS : ∀ v (j : Fin 128), VS v (ix1 j) = v (ix2 L j))
  (hR : R = (let h1 := H1 Hin (SRC (EI m c)) (DST (EI m c)) (A2 m c) (WS (A9 m c)) (WS (A11 m c)) (ES (A12 m c)) (VS (A10 m c))
    TAIL h1 (MU h1) (VAR h1) (VS (A13 m c)) (VS (A14 m c))))
  (hpre : Cert.Pre_KernelIdeal m) (hH : ∀ (i : Fin 100000) (k : Fin 128), ∃ r : ℝ, Hin (ix2 i k) = (r : EReal))

include hST in
-- Rows 8t and 8t + 1 of ST hold block t's column sums of X and of its squares: the mean from the block sums.
theorem mu_eq (j : Fin 128) : mu ST j = muT (fun i j => X (ix2 i j)) rowF Nw j :=
  congrArg (fun s => Ideal.div (0 + s) Nw) (Finset.sum_congr rfl fun t _ => (hST t 0 j).trans (if_pos rfl))

include hST in
theorem var_eq (j : Fin 128) : var ST j = varT (fun i j => X (ix2 i j)) rowF Nw j :=
  congrArg₂ (fun s u => max (Ideal.div (0 + s) Nw - u * u) 0)
    (Finset.sum_congr rfl fun t _ => (hST t 1 j).trans ((if_neg (by decide)).trans (if_pos rfl))) (mu_eq hST j)

include ho hG hB hX' hST' hST in
-- O is X normalised with the statistics taken block by block.
theorem out_eq (i : Fin 100000) (j : Fin 128) :
    O (ix2 i j) = outT (fun i j => X (ix2 i j)) rowF Nw EPS (gF m c L) (beF m c L) i j := by
  subst ho hG hB hX' hST'
  rw [reluT_apply, bnT_apply _ _ _ _ L.val _ L.isLt]
  exact congrArg₂ (fun u v => max ((((X' (ix2 i j) - u) * Ideal.rsqrt (v + EPS)) * A13 m c (ix2 L j)) + A14 m c (ix2 L j)) 0)
    (mu_eq hST j) (var_eq hST j)

include hX hh hg ha hwr hwn hwe hb in
-- X is the aggregate form.
theorem x_eq : (fun i j => X (ix2 i j)) = lay m c L hs h1K Hin := by
  subst hh
  funext i j
  simp only [hX, hg, ha, hwr, hwn, hwe, hb]
  rfl

include hWS hES hVS hR in
-- R is the message form normalised with whole-column statistics.
theorem ref_eq (i : Fin 100000) (j : Fin 128) :
    R (ix2 i j) = outE (lay m c L hs h1R Hin) Nw EPS (gF m c L) (beF m c L) i j := by
  have hsrc : ∀ e : Fin 600000, 0 ≤ (SRC (EI m c) (ix1 e)).toInt ∧ (SRC (EI m c) (ix1 e)).toInt < 100000 := fun e => by
    rw [SRC_apply]; exact hs e
  subst hR
  simp only [TAIL_apply, MU_apply, VAR_apply, H1_apply _ _ _ _ _ _ _ _ hsrc, SRC_apply, DST_apply, hWS, hES, hVS]
  rfl

include ho hG hB hX' hST' hX hST hh hg ha hwr hwn hwe hb hR hWS hES hVS hpre hH in
-- The two forms agree on real entries, and the block statistics are the whole-column ones.
theorem value : O = R := by
  funext idx
  obtain ⟨i, j, rfl⟩ : ∃ (i : Fin 100000) (j : Fin 128), idx = ix2 i j := ⟨idx 0, idx 1, eq_ix2 idx⟩
  rw [out_eq m c L ho hG hB hX' hST' hST, ref_eq m c L hs hWS hES hVS hR, x_eq m c L hs hX hh hg ha hwr hwn hwe hb]
  exact layer_eq _ _ _ _ _ _ _ _ rowF _ _ _ _ hH (fun _ _ => PreFacts.real_arg2 (hpre c) _) (fun _ _ => PreFacts.real_arg9 (hpre c) _)
    (fun _ _ => PreFacts.real_arg11 (hpre c) _) (fun _ _ => PreFacts.real_arg12 (hpre c) _) (fun _ => PreFacts.real_arg10 (hpre c) _)
    rowF_val (by decide) (by decide) ofBits_N i j

include hs hR hWS hES hVS hpre hH in
theorem real (hv : O = R) (i : Fin 100000) (j : Fin 128) : ∃ r : ℝ, O (ix2 i j) = (r : EReal) := by
  rw [hv, ref_eq m c L hs hWS hES hVS hR]
  exact layer_real _ _ _ _ _ _ _ _ _ _ _ _ hH (fun _ _ => PreFacts.real_arg2 (hpre c) _) (fun _ _ => PreFacts.real_arg9 (hpre c) _)
    (fun _ _ => PreFacts.real_arg11 (hpre c) _) (fun _ _ => PreFacts.real_arg12 (hpre c) _) (fun _ => PreFacts.real_arg10 (hpre c) _)
    (by decide) ofBits_N ofBits_eps (fun _ => PreFacts.real_arg13 (hpre c) _) (fun _ => PreFacts.real_arg14 (hpre c) _) i j

end Cert.KernelIdeal.Hand.LayerGen

end
-- ==== Proof.KLayer1.lean ====
import proofs.«425797_j7249904796358_2_alg».proof.Proof.KRegion1
import proofs.«425797_j7249904796358_2_alg».proof.Proof.KHostOut1
import proofs.«425797_j7249904796358_2_alg».proof.Proof.KHostArgs
import proofs.«425797_j7249904796358_2_alg».proof.Proof.KHostIn1
import proofs.«425797_j7249904796358_2_alg».proof.Proof.KLayerGen

noncomputable section

namespace Cert.KernelIdeal.Hand.L1

open Idealize.ShloMosaic Idealize.ShloMosaic.TcCoe Idealize.ShloMosaic.ValueIdx Idealize.SL.Sem
open Cert.KernelIdeal Cert.KernelIdeal.Gen Cert.Stage LayerGen

variable (m : (ℓ : Loc nD τ sig) → Buf (Elt Ideal) ℓ) (ρ : Dev nD → PrngReg) (c : Dev nD)
  (hs : ∀ e : Fin 600000, 0 ≤ (EI m c (ix2 0 e)).toInt ∧ (EI m c (ix2 0 e)).toInt < 100000) (hpre : Cert.Pre_KernelIdeal m)
  (hH : ∀ (i : Fin 100000) (k : Fin 128), ∃ r : ℝ, (W2 (F := Ideal) m ρ c (Proc.devRef .tc main_v5) : S100000x128.Idx → EReal) (ix2 i k) = (r : EReal))
include hs hpre hH

theorem layer_value :
    W8 (F := Ideal) m ρ c (Proc.devRef .tc main_v57)
      = Cert.Stage.LAYER0 (W2 (F := Ideal) m ρ c (Proc.devRef .tc main_v5)) (m ((c : Thread nD τ).loc main_arg1)) (m ((c : Thread nD τ).loc main_arg2))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) :=
  value m c 0 hs (Out1.out_eq m ρ c) (Args.W6_arg13 m ρ c) (Args.W6_arg14 m ρ c) (W6_arr (F := Ideal) m ρ c 7)
    (W6_arr (F := Ideal) m ρ c 8) (R1.h1_apply m ρ c) (R1.stats_apply m ρ c) (In1.h_carry m ρ c) (In1.g_apply m ρ c hs)
    (In1.eatt_apply m ρ c) (In1.wr_apply m ρ c) (In1.wn_apply m ρ c) (In1.we_apply m ρ c) (In1.b_apply m ρ c)
    (fun w => At2.stack3_apply 0 w _ _) (fun w => At2.stack3_apply 0 w _ _) (fun v => At2.stack2_apply 0 v _ _) rfl hpre hH

theorem layer_real (i : Fin 100000) (j : Fin 128) :
    ∃ r : ℝ, (W8 (F := Ideal) m ρ c (Proc.devRef .tc main_v57) : S100000x128.Idx → EReal) (ix2 i j) = (r : EReal) :=
  real m c 0 hs (fun w => At2.stack3_apply 0 w _ _) (fun w => At2.stack3_apply 0 w _ _) (fun v => At2.stack2_apply 0 v _ _) rfl hpre hH (layer_value m ρ c hs hpre hH) i j

end Cert.KernelIdeal.Hand.L1

end
-- ==== Proof.KRegion2.lean ====
import proofs.«425797_j7249904796358_2_alg».proof.Proof.Gen.KernelIdeal.Frame
import proofs.«425797_j7249904796358_2_alg».proof.Proof.KTile
import proofs.«425797_j7249904796358_2_alg».proof.Proof.KBlock

noncomputable section

open Idealize.ShloMosaic Idealize.ShloMosaic.TcCoe Idealize.SL.Sem
open Idealize.ShloMosaic.Pipeline (Dat)
open Idealize.ShloMosaic.ValueIdx

namespace Cert.KernelIdeal.Hand.R2
open Cert.KernelIdeal Cert.KernelIdeal.Gen Cert.KernelIdeal.Hand.Tile

section Pieces
variable {F : FTy → Type} [FloatOps F] (c : Dev nD) (i : grid2.Coords)
  (a1 : Memref sig .tc .vmem S5000x128 .f32) (h1 : a1.IsWhole) (a2 : Memref sig .tc .vmem S5000x128 .f32) (h2 : a2.IsWhole)
  (a3 : Memref sig .tc .vmem S5000x16 .f32) (h3 : a3.IsWhole) (a4 : Memref sig .tc .vmem S128x128 .f32) (h4 : a4.IsWhole)
  (a5 : Memref sig .tc .vmem S128x128 .f32) (h5 : a5.IsWhole) (a6 : Memref sig .tc .vmem S16x128 .f32) (h6 : a6.IsWhole)
  (a7 : Memref sig .tc .vmem S1x128 .f32) (h7 : a7.IsWhole) (a8 : Memref sig .tc .vmem S5000x128 .f32) (h8 : a8.IsWhole)
  (a9 : Memref sig .tc .vmem S8x128 .f32) (h9 : a9.IsWhole)
  (x0 x1 : Vec F S5000x128 .f32) (x2 : Vec F S5000x16 .f32) (x3 x4 : Vec F S128x128 .f32) (x5 : Vec F S16x128 .f32) (x6 : Vec F S1x128 .f32)

theorem out7 : out2_A_7 c i a1 h1 a2 h2 a3 h3 a4 h4 a5 h5 a6 h6 a7 h7 a8 h8 a9 h9 x0 x1 x2 x3 x4 x5 x6 = k2_pay1 x0 x1 x2 x3 x4 x5 x6 := by
  unfold out2_A_7
  rw [View.read_writes_eq_canon _ _ _ (cover2_A_7 c i a1 h1 a2 h2 a3 h3 a4 h4 a5 h5 a6 h6 a7 h7 a8 h8 a9 h9 x0 x1 x2 x3 x4 x5 x6)]
  unfold kernelRun2_A
  dsimp only
  rw [View.canon_unit_zero hz]
  simp only [View.readAt_eq_ld, h1.read_unread, h2.read_unread, h3.read_unread, h4.read_unread, h5.read_unread, h6.read_unread, h7.read_unread,
    View.ld_unit_zero (S := S5000x128) hz, View.ld_unit_zero (S := S5000x16) hz, View.ld_unit_zero (S := S128x128) hz,
    View.ld_unit_zero (S := S16x128) hz, View.ld_unit_zero (S := S1x128) hz]

theorem out8 (q : Fin 8) (j : Fin 128) :
    out2_A_8 c i a1 h1 a2 h2 a3 h3 a4 h4 a5 h5 a6 h6 a7 h7 a8 h8 a9 h9 x0 x1 x2 x3 x4 x5 x6 (ix2 q j)
      = if q.val = 0 then k2_pay2 x0 x1 x2 x3 x4 x5 x6 (ix2 0 j)
        else if q.val = 1 then k2_pay3 x0 x1 x2 x3 x4 x5 x6 (ix2 0 j)
        else (k2_pay4 (F := F)) (ix2 q j) := by
  unfold out2_A_8
  rw [View.read_writes_eq_canon _ _ _ (cover2_A_8 c i a1 h1 a2 h2 a3 h3 a4 h4 a5 h5 a6 h6 a7 h7 a8 h8 a9 h9 x0 x1 x2 x3 x4 x5 x6)]
  unfold kernelRun2_A
  dsimp only
  sl_unfold_words
  simp only [View.readAt_eq_ld, h1.read_unread, h2.read_unread, h3.read_unread, h4.read_unread, h5.read_unread, h6.read_unread, h7.read_unread,
    View.ld_unit_zero (S := S5000x128) hz, View.ld_unit_zero (S := S5000x16) hz, View.ld_unit_zero (S := S128x128) hz,
    View.ld_unit_zero (S := S16x128) hz, View.ld_unit_zero (S := S1x128) hz]
  exact canon_rows (Val := Elt F) (k2_pay3 x0 x1 x2 x3 x4 x5 x6) (k2_pay2 x0 x1 x2 x3 x4 x5 x6) (k2_pay4 (F := F)) q j

end Pieces

section Blocks
variable (V : (c : Dev nD) → (b : Ref sig .tc) → Buf (Elt Ideal) ((c : Thread nD τ).loc b)) (c : Dev nD)

abbrev arrs : Arrs := ⟨V c (Pipeline.arrRef spec2 0), V c (Pipeline.arrRef spec2 1), V c (Pipeline.arrRef spec2 2), V c (Pipeline.arrRef spec2 3),
  V c (Pipeline.arrRef spec2 4), V c (Pipeline.arrRef spec2 5), V c (Pipeline.arrRef spec2 6)⟩

abbrev bh (t : Fin cfg2.N) : FVec Ideal S5000x128 .f32 := iblk2 V c 0 t
abbrev bg (t : Fin cfg2.N) : FVec Ideal S5000x128 .f32 := iblk2 V c 1 t
abbrev ba (t : Fin cfg2.N) : FVec Ideal S5000x16 .f32 := iblk2 V c 2 t
abbrev bwr (t : Fin cfg2.N) : FVec Ideal S128x128 .f32 := iblk2 V c 3 t
abbrev bwn (t : Fin cfg2.N) : FVec Ideal S128x128 .f32 := iblk2 V c 4 t
abbrev bwe (t : Fin cfg2.N) : FVec Ideal S16x128 .f32 := iblk2 V c 5 t
abbrev bb (t : Fin cfg2.N) : FVec Ideal S1x128 .f32 := iblk2 V c 6 t

theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0)
    ∧ (win2_8.index t (0 : Fin 2) = t.val ∧ win2_8.index t (1 : Fin 2) = 0) :=
  (by decide +kernel : ∀ t : Fin grid2.N, _)

theorem bh_apply (t : Fin cfg2.N) (p : Fin 5000) (k : Fin 128) :
    bh V c t (ix2 p k) = (arrs V c).h (ix2 (rowOf (t.cast N_2) p) k) :=
  congrArg (arrs V c).h (Shape.idx_ext₂
    (at_tile 5000 p.val (idx_facts t).1.1)
    (at_zero 128 k.val (idx_facts t).1.2))

theorem bg_apply (t : Fin cfg2.N) (p : Fin 5000) (k : Fin 128) :
    bg V c t (ix2 p k) = (arrs V c).g (ix2 (rowOf (t.cast N_2) p) k) :=
  congrArg (arrs V c).g (Shape.idx_ext₂
    (at_tile 5000 p.val (idx_facts t).2.1.1)
    (at_zero 128 k.val (idx_facts t).2.1.2))

theorem ba_apply (t : Fin cfg2.N) (p : Fin 5000) (k : Fin 16) :
    ba V c t (ix2 p k) = (arrs V c).a (ix2 (rowOf (t.cast N_2) p) k) :=
  congrArg (arrs V c).a (Shape.idx_ext₂
    (at_tile 5000 p.val (idx_facts t).2.2.1.1)
    (at_zero 16 k.val (idx_facts t).2.2.1.2))

theorem bwr_eq (t : Fin cfg2.N) : bwr V c t = (arrs V c).wr :=
  funext fun y => congrArg (arrs V c).wr (Shape.idx_ext₂
    (at_zero 128 (y 0).val (idx_facts t).2.2.2.1.1)
    (at_zero 128 (y 1).val (idx_facts t).2.2.2.1.2))

theorem bwn_eq (t : Fin cfg2.N) : bwn V c t = (arrs V c).wn :=
  funext fun y => congrArg (arrs V c).wn (Shape.idx_ext₂
    (at_zero 128 (y 0).val (idx_facts t).2.2.2.2.1.1)
    (at_zero 128 (y 1).val (idx_facts t).2.2.2.2.1.2))

theorem bwe_eq (t : Fin cfg2.N) : bwe V c t = (arrs V c).we :=
  funext fun y => congrArg (arrs V c).we (Shape.idx_ext₂
    (at_zero 16 (y 0).val (idx_facts t).2.2.2.2.2.1.1)
    (at_zero 128 (y 1).val (idx_facts t).2.2.2.2.2.1.2))

theorem bb_eq (t : Fin cfg2.N) : bb V c t = (arrs V c).b :=
  funext fun y => congrArg (arrs V c).b (Shape.idx_ext₂
    (at_zero 1 (y 0).val (idx_facts t).2.2.2.2.2.2.1.1)
    (at_zero 128 (y 1).val (idx_facts t).2.2.2.2.2.2.1.2))

theorem outs7_eq (t : Fin cfg2.N) : (outsAt2 V c t).1 = k1_pay1 (F := Ideal) (bh V c t) (bg V c t) (ba V c t) (bwr V c t) (bwn V c t) (bwe V c t) (bb V c t) := by
  unfold outsAt2; dsimp only
  exact out7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (iblk2 V c 6 t)

theorem outs8_apply (t : Fin cfg2.N) (q : Fin 8) (j : Fin 128) :
    (outsAt2 V c t).2 (ix2 q j)
      = if q.val = 0 then k1_pay2 (F := Ideal) (bh V c t) (bg V c t) (ba V c t) (bwr V c t) (bwn V c t) (bwe V c t) (bb V c t) (ix2 0 j)
        else if q.val = 1 then k1_pay3 (F := Ideal) (bh V c t) (bg V c t) (ba V c t) (bwr V c t) (bwn V c t) (bwe V c t) (bb V c t) (ix2 0 j)
        else (k1_pay4 (F := Ideal)) (ix2 q j) := by
  unfold outsAt2; dsimp only
  exact out8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (iblk2 V c 6 t) q j

end Blocks

section Arrays
variable (V : (c : Dev nD) → (b : Ref sig .tc) → Buf (Elt Ideal) ((c : Thread nD τ).loc b)) (c : Dev nD)

theorem flushed7_eq (t : Fin cfg2.N) :
    (dat2 V c).flushed 7 t = ((cfg2.win 7).blk t).view.read (Elt Ideal) (preactArr (arrs V c)) := by
  show (cfg2.win 7).cut (grid2.coords t) ((dat2 V c).after 7 t) = _
  rw [after2_7, outs7_eq]
  funext y
  obtain ⟨p, q, rfl⟩ : ∃ (p : Fin 5000) (q : Fin 128), y = ix2 p q := ⟨y 0, y 1, eq_ix2 y⟩
  refine (tile_apply (arrs V c) (t.cast N_2) (bh_apply V c t) (bg_apply V c t) (ba_apply V c t) (bwr_eq V c t) (bwn_eq V c t) (bwe_eq V c t) (bb_eq V c t) p q).trans ?_
  show _ = preactArr (arrs V c) (((cfg2.win 7).blk t).view.emb (ix2 p q))
  exact (preactArr_at _ _ (t.cast N_2) p q (at_tile 5000 p.val (idx_facts t).2.2.2.2.2.2.2.1.1) (at_zero 128 q.val (idx_facts t).2.2.2.2.2.2.2.1.2)).symm

theorem cover7 (i : S100000x128.Idx) :
    ∃ t : Fin cfg2.N, (cfg2.win 7).flush t = true ∧ i ∈ ((cfg2.win 7).blk t).view.set := by
  have hi0 : (i 0).val < 100000 := (i 0).isLt
  have ht : (i 0).val / 5000 < cfg2.N := by have hN : cfg2.N = 20 := N_2; omega
  refine ⟨⟨_, ht⟩, flush2_7 _, ?_⟩
  show i ∈ ((View.whole main_v71_0).slice (win2_7.rect ⟨(i 0).val / 5000, ht⟩)).set
  rw [View.set_slice_whole, Rect.mem_set_unit]
  exact forall_fin2 (div_block 5000 (i 0).val (by decide) (idx_facts ⟨_, ht⟩).2.2.2.2.2.2.2.1.1) (zero_block 128 (i 1).val (i 1).isLt (idx_facts ⟨_, ht⟩).2.2.2.2.2.2.2.1.2)

theorem final7 : (dat2 V c).arrAt 7 cfg2.N = preactArr (arrs V c) :=
  (dat2 V c).arrAt_eq_of_cover 7 (preactArr (arrs V c)) (fun t _ => flushed7_eq V c t) (cover7)

theorem flushed8_eq (t : Fin cfg2.N) :
    (dat2 V c).flushed 8 t = ((cfg2.win 8).blk t).view.read (Elt Ideal) (statArr (arrs V c)) := by
  show (cfg2.win 8).cut (grid2.coords t) ((dat2 V c).after 8 t) = _
  rw [after2_8]
  funext y
  obtain ⟨q, j, rfl⟩ : ∃ (q : Fin 8) (j : Fin 128), y = ix2 q j := ⟨y 0, y 1, eq_ix2 y⟩
  refine (outs8_apply V c t q j).trans ((stat_apply (arrs V c) (t.cast N_2) (bh_apply V c t) (bg_apply V c t) (ba_apply V c t) (bwr_eq V c t) (bwn_eq V c t) (bwe_eq V c t) (bb_eq V c t) q j).trans ?_)
  show _ = statArr (arrs V c) (((cfg2.win 8).blk t).view.emb (ix2 q j))
  exact (statArr_at _ _ (t.cast N_2) q j (at_tile 8 q.val (idx_facts t).2.2.2.2.2.2.2.2.1) (at_zero 128 j.val (idx_facts t).2.2.2.2.2.2.2.2.2)).symm

theorem cover8 (i : S160x128.Idx) :
    ∃ t : Fin cfg2.N, (cfg2.win 8).flush t = true ∧ i ∈ ((cfg2.win 8).blk t).view.set := by
  have hi0 : (i 0).val < 160 := (i 0).isLt
  have ht : (i 0).val / 8 < cfg2.N := by have hN : cfg2.N = 20 := N_2; omega
  refine ⟨⟨_, ht⟩, flush2_8 _, ?_⟩
  show i ∈ ((View.whole main_v71_1).slice (win2_8.rect ⟨(i 0).val / 8, ht⟩)).set
  rw [View.set_slice_whole, Rect.mem_set_unit]
  exact forall_fin2 (div_block 8 (i 0).val (by decide) (idx_facts ⟨_, ht⟩).2.2.2.2.2.2.2.2.1) (zero_block 128 (i 1).val (i 1).isLt (idx_facts ⟨_, ht⟩).2.2.2.2.2.2.2.2.2)

theorem final8 : (dat2 V c).arrAt 8 cfg2.N = statArr (arrs V c) :=
  (dat2 V c).arrAt_eq_of_cover 8 (statArr (arrs V c)) (fun t _ => flushed8_eq V c t) (cover8)

end Arrays

section Run
variable (m : (ℓ : Loc nD τ sig) → Buf (Elt Ideal) ℓ) (ρ : Dev nD → PrngReg) (c : Dev nD)

abbrev xh : FVec Ideal S100000x128 .f32 := V10 (F := Ideal) m ρ c (Pipeline.arrRef spec2 0)
abbrev xg : FVec Ideal S100000x128 .f32 := V10 (F := Ideal) m ρ c (Pipeline.arrRef spec2 1)
abbrev xa : FVec Ideal S100000x16 .f32 := V10 (F := Ideal) m ρ c (Pipeline.arrRef spec2 2)
abbrev xwr : FVec Ideal S128x128 .f32 := V10 (F := Ideal) m ρ c (Pipeline.arrRef spec2 3)
abbrev xwn : FVec Ideal S128x128 .f32 := V10 (F := Ideal) m ρ c (Pipeline.arrRef spec2 4)
abbrev xwe : FVec Ideal S16x128 .f32 := V10 (F := Ideal) m ρ c (Pipeline.arrRef spec2 5)
abbrev xb : FVec Ideal S1x128 .f32 := V10 (F := Ideal) m ρ c (Pipeline.arrRef spec2 6)

abbrev H1 : S100000x128.Idx → EReal := ((dat2 (V10 (F := Ideal) m ρ) c).arrAt 7 cfg2.N : S100000x128.Idx → EReal)

theorem h1_apply (i : Fin 100000) (j : Fin 128) :
    ((dat2 (V10 (F := Ideal) m ρ) c).arrAt 7 cfg2.N : S100000x128.Idx → EReal) (ix2 i j)
      = ((∑ k : Fin 128, xh m ρ c (ix2 i k) * xwr m ρ c (ix2 k j) + ∑ k : Fin 128, xg m ρ c (ix2 i k) * xwn m ρ c (ix2 k j))
          + ∑ k : Fin 16, xa m ρ c (ix2 i k) * xwe m ρ c (ix2 k j)) + xb m ρ c (ix2 0 j) :=
  by rw [final7]; unfold preactArr preact; dsimp only [arrs]

theorem stats_apply (t : Fin 20) (q : Fin 8) (j : Fin 128) :
    ((dat2 (V10 (F := Ideal) m ρ) c).arrAt 8 cfg2.N : S160x128.Idx → EReal) (ix2 ⟨8 * t.val + q.val, by omega⟩ j)
      = if q.val = 0 then ∑ r : Fin 5000, H1 m ρ c (ix2 ⟨5000 * t.val + r.val, by omega⟩ j)
        else if q.val = 1 then ∑ r : Fin 5000, H1 m ρ c (ix2 ⟨5000 * t.val + r.val, by omega⟩ j) * H1 m ρ c (ix2 ⟨5000 * t.val + r.val, by omega⟩ j)
        else 0 := by
  rw [show H1 m ρ c = preactArr (arrs (V10 (F := Ideal) m ρ) c) from final7 _ c]
  exact (congrFun (final8 (V10 (F := Ideal) m ρ) c) _).trans (statArr_at _ _ t q j rfl rfl)

end Run

end Cert.KernelIdeal.Hand.R2
-- ==== Proof.KHostOut2.lean ====
import proofs.«425797_j7249904796358_2_alg».proof.Proof.Gen.KernelIdeal.Frame
import proofs.«425797_j7249904796358_2_alg».proof.Proof.KHostLib

noncomputable section

namespace Cert.KernelIdeal.Hand.Out2

open Idealize.ShloMosaic
open Cert.KernelIdeal Cert.KernelIdeal.Gen

variable (m : (ℓ : Loc nD τ sig) → Buf (Elt Ideal) ℓ) (ρ : Dev nD → PrngReg) (c : Dev nD)

theorem out_eq :
    W13 (F := Ideal) m ρ c (Proc.devRef .tc main_v106)
      = HostLib.reluT (HostLib.bnT (W11 (F := Ideal) m ρ c (Proc.devRef .tc main_v71_0)) (W11 (F := Ideal) m ρ c (Proc.devRef .tc main_v71_1))
          (W11 (F := Ideal) m ρ c (Proc.devRef .tc main_arg13)) (W11 (F := Ideal) m ρ c (Proc.devRef .tc main_arg14)) 1
          slices_S3x128_S1x128_1_0) := by
  show StableHlo.after hostOps3_1 (StableHlo.after hostOps3 (W11 (F := Ideal) m ρ c)) (Proc.devRef .tc main_v106) = _
  after_results_simp
  rfl

end Cert.KernelIdeal.Hand.Out2
-- ==== Proof.KHostIn2.lean ====
import proofs.«425797_j7249904796358_2_alg».proof.Proof.Gen.KernelIdeal.Frame
import proofs.«425797_j7249904796358_2_alg».proof.Proof.LibScatterSum
import proofs.«425797_j7249904796358_2_alg».proof.Proof.LibGatherRows
import proofs.«425797_j7249904796358_2_alg».proof.Proof.LibTakeFill
import proofs.«425797_j7249904796358_2_alg».proof.Proof.LayerSpec
import Idealize.ShloMosaic.Lib.ValueIdx
import Idealize.ShloMosaic.Lib.ValueLayout
import Idealize.ShloMosaic.Lib.IdealHost
import proofs.«425797_j7249904796358_2_alg».proof.Proof.KHostIn1

set_option maxRecDepth 16384

noncomputable section

namespace Cert.KernelIdeal.Hand.In2

open Cert.KernelIdeal Cert.KernelIdeal.Gen Cert.KernelIdeal.Hand Cert.KernelIdeal.Hand.Args
open Idealize.ShloMosaic Idealize.ShloMosaic.TcCoe Idealize.ShloMosaic.ValueIdx Idealize.ShloMosaic.TakeFill
open Cert.KernelIdeal.Hand.In1 (EI dI EA)

section AnyContents
variable (V : Valuation τ sig (Elt Ideal))

theorem take_V
    (hs : ∀ n : Fin 600000, 0 ≤ ((V (Proc.devRef .tc main_v1) : S600000.Idx → BitVec 32) (ix1 n)).toInt
      ∧ ((V (Proc.devRef .tc main_v1) : S600000.Idx → BitVec 32) (ix1 n)).toInt < ((100000 : Nat) : Int))
    (e : Fin 600000) (k : Fin 128) :
    (StableHlo.after hostOps2_2 V (Proc.devRef .tc main_v58) : S600000x128.Idx → EReal) (ix2 e k)
      = (V (Proc.devRef .tc main_v57) : S100000x128.Idx → EReal)
          (ix2 (⟨((V (Proc.devRef .tc main_v1) : S600000.Idx → BitVec 32) (ix1 e)).toInt.toNat,
            by have := hs e; omega⟩ : Fin 100000) k) := by
  have hcast : ∀ v : (Proc.devRef (τ := τ) .tc main_v58).ty.Contents (Elt Ideal),
      (v : S600000x128.Idx → EReal)
        = (StableHlo.TRef.of main_v58 : StableHlo.TRef sig ⟨S600000x128, .f32⟩).ofBuf v := fun _ => rfl
  refine Eq.trans (congrFun (hcast _) (ix2 e k)) ?_
  after_results_simp
  simp only [ofBuf_toBuf]
  have hP : 0 < 100000 := by omega
  have hcM : (99999#32 : BitVec 32).toInt = ((100000 : Nat) : Int) - 1 := by decide
  have key := take_fill_apply (P := 100000) (C := 128) (N := 600000) hP
    gather_S100000x128_S600000x1_S600000x128_1_0_n_n_0_1_1128 rfl rfl rfl rfl rfl rfl
    bcast_S_S600000 bcast_S600000_S600000x1_0 bcast_S_S600000x1 bcast_S1_S1x1_1 bcast_S1x1_S600000x1_0_1
    reducesTo_S600000x1_S600000_d1 h_S_ bcast_S600000_S600000x128_0 100000#32 99999#32 hcM
    (V (Proc.devRef .tc main_v1)) (V (Proc.devRef .tc main_v57))
    (broadcastInDim S600000x128 ![] bcast_S_S600000x128 (constant (F := Ideal) S_ FTy.f32 2143289344#32)) hs e k
  have hsrc : (StableHlo.TRef.of main_v1 : StableHlo.TRef sig ⟨S600000, .i32⟩).ofBuf (V (Proc.devRef .tc main_v1))
      = (V (Proc.devRef .tc main_v1) : S600000.Idx → BitVec 32) := rfl
  have hx : (StableHlo.TRef.of main_v57 : StableHlo.TRef sig ⟨S100000x128, .f32⟩).ofBuf (V (Proc.devRef .tc main_v57))
      = (V (Proc.devRef .tc main_v57) : S100000x128.Idx → EReal) := rfl
  rw [hsrc, hx]
  exact key

theorem g_V (i : Fin 100000) (k : Fin 128) :
    (StableHlo.after hostOps2_3 V (Proc.devRef .tc main_v61) : S100000x128.Idx → EReal) (ix2 i k)
      = Cert.LayerSpec.seg (fun e : Fin 600000 => ((V (Proc.devRef .tc main_v3) : S600000.Idx → BitVec 32) (ix1 e)).toInt)
          (fun e k => (V (Proc.devRef .tc main_v58) : S600000x128.Idx → EReal) (ix2 e k)) i k := by
  after_results
  unfold Cert.LayerSpec.seg Cert.LayerSpec.into
  exact scatter_zero_rows_apply (P := 100000) (C := 128) (N := 600000)
    scatter_S100000x128_S600000x1_S600000x128_1_0_0_1 rfl rfl rfl rfl bcast_S_S100000x128 bcast_S600000_S600000x1_0
    (V (Proc.devRef .tc main_v3)) (V (Proc.devRef .tc main_v58)) i k

theorem wr_V (k j : Fin 128) :
    (StableHlo.after hostOps2_3 V (Proc.devRef .tc main_v63) : S128x128.Idx → EReal) (ix2 k j)
      = (V (Proc.devRef .tc main_arg9) : S3x128x128.Idx → EReal) (ix3 1 k j) := by
  after_results
  exact member3_apply 1 _ slices_S3x128x128_S1x128x128_1_0_0 shapeCasts_S1x128x128_S128x128 1 rfl k j

theorem wn_V (k j : Fin 128) :
    (StableHlo.after hostOps2_3 V (Proc.devRef .tc main_v65) : S128x128.Idx → EReal) (ix2 k j)
      = (V (Proc.devRef .tc main_arg11) : S3x128x128.Idx → EReal) (ix3 1 k j) := by
  after_results
  exact member3_apply 1 _ slices_S3x128x128_S1x128x128_1_0_0 shapeCasts_S1x128x128_S128x128 1 rfl k j

theorem we_V (k : Fin 16) (j : Fin 128) :
    (StableHlo.after hostOps2_3 V (Proc.devRef .tc main_v67) : S16x128.Idx → EReal) (ix2 k j)
      = (V (Proc.devRef .tc main_arg12) : S3x16x128.Idx → EReal) (ix3 1 k j) := by
  after_results
  exact member3_apply 1 _ slices_S3x16x128_S1x16x128_1_0_0 shapeCasts_S1x16x128_S16x128 1 rfl k j

theorem b_V (j : Fin 128) :
    (StableHlo.after hostOps2_3 V (Proc.devRef .tc main_v70) : S1x128.Idx → EReal) (ix2 0 j)
      = (V (Proc.devRef .tc main_arg10) : S3x128.Idx → EReal) (ix2 1 j) := by
  after_results
  exact member2_row_apply 1 _ slices_S3x128_S1x128_1_0 shapeCasts_S1x128_S128 shapeCasts_S128_S1x128 1 rfl 0 j

end AnyContents

section Run
variable (m : (ℓ : Loc nD τ sig) → Buf (Elt Ideal) ℓ) (ρ : Dev nD → PrngReg) (c : Dev nD)

abbrev H : S100000x128.Idx → EReal := W8 (F := Ideal) m ρ c (Proc.devRef .tc main_v57)

-- The edge-feature sums are read, never written, by the previous layer's kernel and by the host in between.
theorem v8_carry : W10 (F := Ideal) m ρ c (Proc.devRef .tc main_v8) = W5 (F := Ideal) m ρ c (Proc.devRef .tc main_v8) :=
  calc W10 (F := Ideal) m ρ c (Proc.devRef .tc main_v8)
    _ = W9 (F := Ideal) m ρ c (Proc.devRef .tc main_v8) := by carry_host hostOps2_3
    _ = W8 (F := Ideal) m ρ c (Proc.devRef .tc main_v8) := by carry_host hostOps2_2
    _ = W7 (F := Ideal) m ρ c (Proc.devRef .tc main_v8) := by carry_host hostOps2_1
    _ = W6 (F := Ideal) m ρ c (Proc.devRef .tc main_v8) := by carry_host hostOps2
    _ = W5 (F := Ideal) m ρ c (Proc.devRef .tc main_v8) := (W6_arr m ρ c 2).trans (((dat1 (V5 m ρ) c).arrAt_in 2 rfl _).trans (A_eq1 (V5 m ρ) c 2))

theorem h_carry : W10 (F := Ideal) m ρ c (Proc.devRef .tc main_v57) = W8 (F := Ideal) m ρ c (Proc.devRef .tc main_v57) :=
  calc W10 (F := Ideal) m ρ c (Proc.devRef .tc main_v57)
    _ = W9 (F := Ideal) m ρ c (Proc.devRef .tc main_v57) := by carry_host hostOps2_3
    _ = W8 (F := Ideal) m ρ c (Proc.devRef .tc main_v57) := by carry_host hostOps2_2

theorem eatt_apply (i : Fin 100000) (k : Fin 16) :
    (W10 (F := Ideal) m ρ c (Proc.devRef .tc main_v8) : S100000x16.Idx → EReal) (ix2 i k)
      = Cert.LayerSpec.seg (dI m c) (fun e k => EA m c (ix2 e k)) i k := by
  rw [v8_carry m ρ c]; exact In1.eatt_apply m ρ c i k

theorem g_apply (hs : ∀ e : Fin 600000, 0 ≤ (EI m c (ix2 0 e)).toInt ∧ (EI m c (ix2 0 e)).toInt < 100000)
    (i : Fin 100000) (k : Fin 128) :
    (W10 (F := Ideal) m ρ c (Proc.devRef .tc main_v61) : S100000x128.Idx → EReal) (ix2 i k)
      = Cert.LayerSpec.seg (dI m c)
          (fun e k => H m ρ c (ix2 (⟨(EI m c (ix2 0 e)).toInt.toNat, by have := hs e; omega⟩ : Fin 100000) k)) i k := by
  have hsrc : ∀ e : Fin 600000, (W8 (F := Ideal) m ρ c (Proc.devRef .tc main_v1) : S600000.Idx → BitVec 32) (ix1 e) = EI m c (ix2 0 e) :=
    fun e => by rw [k8 m ρ c main_v1 (by decide)]; exact In1.src_W1 m ρ c e
  have hsb : ∀ n : Fin 600000,
      0 ≤ ((W8 (F := Ideal) m ρ c (Proc.devRef .tc main_v1) : S600000.Idx → BitVec 32) (ix1 n)).toInt
        ∧ ((W8 (F := Ideal) m ρ c (Proc.devRef .tc main_v1) : S600000.Idx → BitVec 32) (ix1 n)).toInt < ((100000 : Nat) : Int) :=
    fun n => by rw [hsrc n]; have := hs n; omega
  show (StableHlo.after hostOps2_3 (W9 (F := Ideal) m ρ c) (Proc.devRef .tc main_v61) : S100000x128.Idx → EReal) (ix2 i k) = _
  rw [g_V]
  refine seg_congr (fun e => congrArg BitVec.toInt (by rw [k9 m ρ c main_v3 (by decide)]; exact In1.dst_W1 m ρ c e)) (fun e k => ?_) i k
  show (StableHlo.after hostOps2_2 (W8 (F := Ideal) m ρ c) (Proc.devRef .tc main_v58) : S600000x128.Idx → EReal) (ix2 e k) = _
  rw [take_V (W8 (F := Ideal) m ρ c) hsb e k]
  exact read_row_congr _ _ _ _ _ (congrArg (fun w : BitVec 32 => w.toInt.toNat) (hsrc e)) k

theorem wr_apply (k j : Fin 128) :
    (W10 (F := Ideal) m ρ c (Proc.devRef .tc main_v63) : S128x128.Idx → EReal) (ix2 k j)
      = (m ((c : Thread nD τ).loc main_arg9) : S3x128x128.Idx → EReal) (ix3 1 k j) := by
  show (StableHlo.after hostOps2_3 (W9 (F := Ideal) m ρ c) (Proc.devRef .tc main_v63) : S128x128.Idx → EReal) (ix2 k j) = _
  rw [wr_V, (k9 m ρ c main_arg9 (by decide)).trans (arg_W1 m ρ c _ (by decide))]

theorem wn_apply (k j : Fin 128) :
    (W10 (F := Ideal) m ρ c (Proc.devRef .tc main_v65) : S128x128.Idx → EReal) (ix2 k j)
      = (m ((c : Thread nD τ).loc main_arg11) : S3x128x128.Idx → EReal) (ix3 1 k j) := by
  show (StableHlo.after hostOps2_3 (W9 (F := Ideal) m ρ c) (Proc.devRef .tc main_v65) : S128x128.Idx → EReal) (ix2 k j) = _
  rw [wn_V, (k9 m ρ c main_arg11 (by decide)).trans (arg_W1 m ρ c _ (by decide))]

theorem we_apply (k : Fin 16) (j : Fin 128) :
    (W10 (F := Ideal) m ρ c (Proc.devRef .tc main_v67) : S16x128.Idx → EReal) (ix2 k j)
      = (m ((c : Thread nD τ).loc main_arg12) : S3x16x128.Idx → EReal) (ix3 1 k j) := by
  show (StableHlo.after hostOps2_3 (W9 (F := Ideal) m ρ c) (Proc.devRef .tc main_v67) : S16x128.Idx → EReal) (ix2 k j) = _
  rw [we_V, (k9 m ρ c main_arg12 (by decide)).trans (arg_W1 m ρ c _ (by decide))]

theorem b_apply (j : Fin 128) :
    (W10 (F := Ideal) m ρ c (Proc.devRef .tc main_v70) : S1x128.Idx → EReal) (ix2 0 j)
      = (m ((c : Thread nD τ).loc main_arg10) : S3x128.Idx → EReal) (ix2 1 j) := by
  show (StableHlo.after hostOps2_3 (W9 (F := Ideal) m ρ c) (Proc.devRef .tc main_v70) : S1x128.Idx → EReal) (ix2 0 j) = _
  rw [b_V, (k9 m ρ c main_arg10 (by decide)).trans (arg_W1 m ρ c _ (by decide))]

end Run

end Cert.KernelIdeal.Hand.In2
-- ==== Proof.KLayer2.lean ====
import proofs.«425797_j7249904796358_2_alg».proof.Proof.KRegion2
import proofs.«425797_j7249904796358_2_alg».proof.Proof.KHostOut2
import proofs.«425797_j7249904796358_2_alg».proof.Proof.KHostArgs
import proofs.«425797_j7249904796358_2_alg».proof.Proof.KHostIn2
import proofs.«425797_j7249904796358_2_alg».proof.Proof.KLayerGen

noncomputable section

namespace Cert.KernelIdeal.Hand.L2

open Idealize.ShloMosaic Idealize.ShloMosaic.TcCoe Idealize.ShloMosaic.ValueIdx Idealize.SL.Sem
open Cert.KernelIdeal Cert.KernelIdeal.Gen Cert.Stage LayerGen

variable (m : (ℓ : Loc nD τ sig) → Buf (Elt Ideal) ℓ) (ρ : Dev nD → PrngReg) (c : Dev nD)
  (hs : ∀ e : Fin 600000, 0 ≤ (EI m c (ix2 0 e)).toInt ∧ (EI m c (ix2 0 e)).toInt < 100000) (hpre : Cert.Pre_KernelIdeal m)
  (hH : ∀ (i : Fin 100000) (k : Fin 128), ∃ r : ℝ, (W8 (F := Ideal) m ρ c (Proc.devRef .tc main_v57) : S100000x128.Idx → EReal) (ix2 i k) = (r : EReal))
include hs hpre hH

theorem layer_value :
    W13 (F := Ideal) m ρ c (Proc.devRef .tc main_v106)
      = Cert.Stage.LAYER1 (W8 (F := Ideal) m ρ c (Proc.devRef .tc main_v57)) (m ((c : Thread nD τ).loc main_arg1)) (m ((c : Thread nD τ).loc main_arg2))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) :=
  value m c 1 hs (Out2.out_eq m ρ c) (Args.W11_arg13 m ρ c) (Args.W11_arg14 m ρ c) (W11_arr (F := Ideal) m ρ c 7)
    (W11_arr (F := Ideal) m ρ c 8) (R2.h1_apply m ρ c) (R2.stats_apply m ρ c) (In2.h_carry m ρ c) (In2.g_apply m ρ c hs)
    (In2.eatt_apply m ρ c) (In2.wr_apply m ρ c) (In2.wn_apply m ρ c) (In2.we_apply m ρ c) (In2.b_apply m ρ c)
    (fun w => At2.stack3_apply 1 w _ _) (fun w => At2.stack3_apply 1 w _ _) (fun v => At2.stack2_apply 1 v _ _) rfl hpre hH

theorem layer_real (i : Fin 100000) (j : Fin 128) :
    ∃ r : ℝ, (W13 (F := Ideal) m ρ c (Proc.devRef .tc main_v106) : S100000x128.Idx → EReal) (ix2 i j) = (r : EReal) :=
  real m c 1 hs (fun w => At2.stack3_apply 1 w _ _) (fun w => At2.stack3_apply 1 w _ _) (fun v => At2.stack2_apply 1 v _ _) rfl hpre hH (layer_value m ρ c hs hpre hH) i j

end Cert.KernelIdeal.Hand.L2

end
-- ==== Proof.KRegion3.lean ====
import proofs.«425797_j7249904796358_2_alg».proof.Proof.Gen.KernelIdeal.Frame
import proofs.«425797_j7249904796358_2_alg».proof.Proof.KTile
import proofs.«425797_j7249904796358_2_alg».proof.Proof.KBlock

noncomputable section

open Idealize.ShloMosaic Idealize.ShloMosaic.TcCoe Idealize.SL.Sem
open Idealize.ShloMosaic.Pipeline (Dat)
open Idealize.ShloMosaic.ValueIdx

namespace Cert.KernelIdeal.Hand.R3
open Cert.KernelIdeal Cert.KernelIdeal.Gen Cert.KernelIdeal.Hand.Tile

section Pieces
variable {F : FTy → Type} [FloatOps F] (c : Dev nD) (i : grid3.Coords)
  (a1 : Memref sig .tc .vmem S5000x128 .f32) (h1 : a1.IsWhole) (a2 : Memref sig .tc .vmem S5000x128 .f32) (h2 : a2.IsWhole)
  (a3 : Memref sig .tc .vmem S5000x16 .f32) (h3 : a3.IsWhole) (a4 : Memref sig .tc .vmem S128x128 .f32) (h4 : a4.IsWhole)
  (a5 : Memref sig .tc .vmem S128x128 .f32) (h5 : a5.IsWhole) (a6 : Memref sig .tc .vmem S16x128 .f32) (h6 : a6.IsWhole)
  (a7 : Memref sig .tc .vmem S1x128 .f32) (h7 : a7.IsWhole) (a8 : Memref sig .tc .vmem S5000x128 .f32) (h8 : a8.IsWhole)
  (a9 : Memref sig .tc .vmem S8x128 .f32) (h9 : a9.IsWhole)
  (x0 x1 : Vec F S5000x128 .f32) (x2 : Vec F S5000x16 .f32) (x3 x4 : Vec F S128x128 .f32) (x5 : Vec F S16x128 .f32) (x6 : Vec F S1x128 .f32)

theorem out7 : out3_A_7 c i a1 h1 a2 h2 a3 h3 a4 h4 a5 h5 a6 h6 a7 h7 a8 h8 a9 h9 x0 x1 x2 x3 x4 x5 x6 = k3_pay1 x0 x1 x2 x3 x4 x5 x6 := by
  unfold out3_A_7
  rw [View.read_writes_eq_canon _ _ _ (cover3_A_7 c i a1 h1 a2 h2 a3 h3 a4 h4 a5 h5 a6 h6 a7 h7 a8 h8 a9 h9 x0 x1 x2 x3 x4 x5 x6)]
  unfold kernelRun3_A
  dsimp only
  rw [View.canon_unit_zero hz]
  simp only [View.readAt_eq_ld, h1.read_unread, h2.read_unread, h3.read_unread, h4.read_unread, h5.read_unread, h6.read_unread, h7.read_unread,
    View.ld_unit_zero (S := S5000x128) hz, View.ld_unit_zero (S := S5000x16) hz, View.ld_unit_zero (S := S128x128) hz,
    View.ld_unit_zero (S := S16x128) hz, View.ld_unit_zero (S := S1x128) hz]

theorem out8 (q : Fin 8) (j : Fin 128) :
    out3_A_8 c i a1 h1 a2 h2 a3 h3 a4 h4 a5 h5 a6 h6 a7 h7 a8 h8 a9 h9 x0 x1 x2 x3 x4 x5 x6 (ix2 q j)
      = if q.val = 0 then k3_pay2 x0 x1 x2 x3 x4 x5 x6 (ix2 0 j)
        else if q.val = 1 then k3_pay3 x0 x1 x2 x3 x4 x5 x6 (ix2 0 j)
        else (k3_pay4 (F := F)) (ix2 q j) := by
  unfold out3_A_8
  rw [View.read_writes_eq_canon _ _ _ (cover3_A_8 c i a1 h1 a2 h2 a3 h3 a4 h4 a5 h5 a6 h6 a7 h7 a8 h8 a9 h9 x0 x1 x2 x3 x4 x5 x6)]
  unfold kernelRun3_A
  dsimp only
  sl_unfold_words
  simp only [View.readAt_eq_ld, h1.read_unread, h2.read_unread, h3.read_unread, h4.read_unread, h5.read_unread, h6.read_unread, h7.read_unread,
    View.ld_unit_zero (S := S5000x128) hz, View.ld_unit_zero (S := S5000x16) hz, View.ld_unit_zero (S := S128x128) hz,
    View.ld_unit_zero (S := S16x128) hz, View.ld_unit_zero (S := S1x128) hz]
  exact canon_rows (Val := Elt F) (k3_pay3 x0 x1 x2 x3 x4 x5 x6) (k3_pay2 x0 x1 x2 x3 x4 x5 x6) (k3_pay4 (F := F)) q j

end Pieces

section Blocks
variable (V : (c : Dev nD) → (b : Ref sig .tc) → Buf (Elt Ideal) ((c : Thread nD τ).loc b)) (c : Dev nD)

abbrev arrs : Arrs := ⟨V c (Pipeline.arrRef spec3 0), V c (Pipeline.arrRef spec3 1), V c (Pipeline.arrRef spec3 2), V c (Pipeline.arrRef spec3 3),
  V c (Pipeline.arrRef spec3 4), V c (Pipeline.arrRef spec3 5), V c (Pipeline.arrRef spec3 6)⟩

abbrev bh (t : Fin cfg3.N) : FVec Ideal S5000x128 .f32 := iblk3 V c 0 t
abbrev bg (t : Fin cfg3.N) : FVec Ideal S5000x128 .f32 := iblk3 V c 1 t
abbrev ba (t : Fin cfg3.N) : FVec Ideal S5000x16 .f32 := iblk3 V c 2 t
abbrev bwr (t : Fin cfg3.N) : FVec Ideal S128x128 .f32 := iblk3 V c 3 t
abbrev bwn (t : Fin cfg3.N) : FVec Ideal S128x128 .f32 := iblk3 V c 4 t
abbrev bwe (t : Fin cfg3.N) : FVec Ideal S16x128 .f32 := iblk3 V c 5 t
abbrev bb (t : Fin cfg3.N) : FVec Ideal S1x128 .f32 := iblk3 V c 6 t

theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0)
    ∧ (win3_8.index t (0 : Fin 2) = t.val ∧ win3_8.index t (1 : Fin 2) = 0) :=
  (by decide +kernel : ∀ t : Fin grid3.N, _)

theorem bh_apply (t : Fin cfg3.N) (p : Fin 5000) (k : Fin 128) :
    bh V c t (ix2 p k) = (arrs V c).h (ix2 (rowOf (t.cast N_3) p) k) :=
  congrArg (arrs V c).h (Shape.idx_ext₂
    (at_tile 5000 p.val (idx_facts t).1.1)
    (at_zero 128 k.val (idx_facts t).1.2))

theorem bg_apply (t : Fin cfg3.N) (p : Fin 5000) (k : Fin 128) :
    bg V c t (ix2 p k) = (arrs V c).g (ix2 (rowOf (t.cast N_3) p) k) :=
  congrArg (arrs V c).g (Shape.idx_ext₂
    (at_tile 5000 p.val (idx_facts t).2.1.1)
    (at_zero 128 k.val (idx_facts t).2.1.2))

theorem ba_apply (t : Fin cfg3.N) (p : Fin 5000) (k : Fin 16) :
    ba V c t (ix2 p k) = (arrs V c).a (ix2 (rowOf (t.cast N_3) p) k) :=
  congrArg (arrs V c).a (Shape.idx_ext₂
    (at_tile 5000 p.val (idx_facts t).2.2.1.1)
    (at_zero 16 k.val (idx_facts t).2.2.1.2))

theorem bwr_eq (t : Fin cfg3.N) : bwr V c t = (arrs V c).wr :=
  funext fun y => congrArg (arrs V c).wr (Shape.idx_ext₂
    (at_zero 128 (y 0).val (idx_facts t).2.2.2.1.1)
    (at_zero 128 (y 1).val (idx_facts t).2.2.2.1.2))

theorem bwn_eq (t : Fin cfg3.N) : bwn V c t = (arrs V c).wn :=
  funext fun y => congrArg (arrs V c).wn (Shape.idx_ext₂
    (at_zero 128 (y 0).val (idx_facts t).2.2.2.2.1.1)
    (at_zero 128 (y 1).val (idx_facts t).2.2.2.2.1.2))

theorem bwe_eq (t : Fin cfg3.N) : bwe V c t = (arrs V c).we :=
  funext fun y => congrArg (arrs V c).we (Shape.idx_ext₂
    (at_zero 16 (y 0).val (idx_facts t).2.2.2.2.2.1.1)
    (at_zero 128 (y 1).val (idx_facts t).2.2.2.2.2.1.2))

theorem bb_eq (t : Fin cfg3.N) : bb V c t = (arrs V c).b :=
  funext fun y => congrArg (arrs V c).b (Shape.idx_ext₂
    (at_zero 1 (y 0).val (idx_facts t).2.2.2.2.2.2.1.1)
    (at_zero 128 (y 1).val (idx_facts t).2.2.2.2.2.2.1.2))

theorem outs7_eq (t : Fin cfg3.N) : (outsAt3 V c t).1 = k1_pay1 (F := Ideal) (bh V c t) (bg V c t) (ba V c t) (bwr V c t) (bwn V c t) (bwe V c t) (bb V c t) := by
  unfold outsAt3; dsimp only
  exact out7 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (iblk3 V c 0 t) (iblk3 V c 1 t) (iblk3 V c 2 t) (iblk3 V c 3 t) (iblk3 V c 4 t) (iblk3 V c 5 t) (iblk3 V c 6 t)

theorem outs8_apply (t : Fin cfg3.N) (q : Fin 8) (j : Fin 128) :
    (outsAt3 V c t).2 (ix2 q j)
      = if q.val = 0 then k1_pay2 (F := Ideal) (bh V c t) (bg V c t) (ba V c t) (bwr V c t) (bwn V c t) (bwe V c t) (bb V c t) (ix2 0 j)
        else if q.val = 1 then k1_pay3 (F := Ideal) (bh V c t) (bg V c t) (ba V c t) (bwr V c t) (bwn V c t) (bwe V c t) (bb V c t) (ix2 0 j)
        else (k1_pay4 (F := Ideal)) (ix2 q j) := by
  unfold outsAt3; dsimp only
  exact out8 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (iblk3 V c 0 t) (iblk3 V c 1 t) (iblk3 V c 2 t) (iblk3 V c 3 t) (iblk3 V c 4 t) (iblk3 V c 5 t) (iblk3 V c 6 t) q j

end Blocks

section Arrays
variable (V : (c : Dev nD) → (b : Ref sig .tc) → Buf (Elt Ideal) ((c : Thread nD τ).loc b)) (c : Dev nD)

theorem flushed7_eq (t : Fin cfg3.N) :
    (dat3 V c).flushed 7 t = ((cfg3.win 7).blk t).view.read (Elt Ideal) (preactArr (arrs V c)) := by
  show (cfg3.win 7).cut (grid3.coords t) ((dat3 V c).after 7 t) = _
  rw [after3_7, outs7_eq]
  funext y
  obtain ⟨p, q, rfl⟩ : ∃ (p : Fin 5000) (q : Fin 128), y = ix2 p q := ⟨y 0, y 1, eq_ix2 y⟩
  refine (tile_apply (arrs V c) (t.cast N_3) (bh_apply V c t) (bg_apply V c t) (ba_apply V c t) (bwr_eq V c t) (bwn_eq V c t) (bwe_eq V c t) (bb_eq V c t) p q).trans ?_
  show _ = preactArr (arrs V c) (((cfg3.win 7).blk t).view.emb (ix2 p q))
  exact (preactArr_at _ _ (t.cast N_3) p q (at_tile 5000 p.val (idx_facts t).2.2.2.2.2.2.2.1.1) (at_zero 128 q.val (idx_facts t).2.2.2.2.2.2.2.1.2)).symm

theorem cover7 (i : S100000x128.Idx) :
    ∃ t : Fin cfg3.N, (cfg3.win 7).flush t = true ∧ i ∈ ((cfg3.win 7).blk t).view.set := by
  have hi0 : (i 0).val < 100000 := (i 0).isLt
  have ht : (i 0).val / 5000 < cfg3.N := by have hN : cfg3.N = 20 := N_3; omega
  refine ⟨⟨_, ht⟩, flush3_7 _, ?_⟩
  show i ∈ ((View.whole main_v120_0).slice (win3_7.rect ⟨(i 0).val / 5000, ht⟩)).set
  rw [View.set_slice_whole, Rect.mem_set_unit]
  exact forall_fin2 (div_block 5000 (i 0).val (by decide) (idx_facts ⟨_, ht⟩).2.2.2.2.2.2.2.1.1) (zero_block 128 (i 1).val (i 1).isLt (idx_facts ⟨_, ht⟩).2.2.2.2.2.2.2.1.2)

theorem final7 : (dat3 V c).arrAt 7 cfg3.N = preactArr (arrs V c) :=
  (dat3 V c).arrAt_eq_of_cover 7 (preactArr (arrs V c)) (fun t _ => flushed7_eq V c t) (cover7)

theorem flushed8_eq (t : Fin cfg3.N) :
    (dat3 V c).flushed 8 t = ((cfg3.win 8).blk t).view.read (Elt Ideal) (statArr (arrs V c)) := by
  show (cfg3.win 8).cut (grid3.coords t) ((dat3 V c).after 8 t) = _
  rw [after3_8]
  funext y
  obtain ⟨q, j, rfl⟩ : ∃ (q : Fin 8) (j : Fin 128), y = ix2 q j := ⟨y 0, y 1, eq_ix2 y⟩
  refine (outs8_apply V c t q j).trans ((stat_apply (arrs V c) (t.cast N_3) (bh_apply V c t) (bg_apply V c t) (ba_apply V c t) (bwr_eq V c t) (bwn_eq V c t) (bwe_eq V c t) (bb_eq V c t) q j).trans ?_)
  show _ = statArr (arrs V c) (((cfg3.win 8).blk t).view.emb (ix2 q j))
  exact (statArr_at _ _ (t.cast N_3) q j (at_tile 8 q.val (idx_facts t).2.2.2.2.2.2.2.2.1) (at_zero 128 j.val (idx_facts t).2.2.2.2.2.2.2.2.2)).symm

theorem cover8 (i : S160x128.Idx) :
    ∃ t : Fin cfg3.N, (cfg3.win 8).flush t = true ∧ i ∈ ((cfg3.win 8).blk t).view.set := by
  have hi0 : (i 0).val < 160 := (i 0).isLt
  have ht : (i 0).val / 8 < cfg3.N := by have hN : cfg3.N = 20 := N_3; omega
  refine ⟨⟨_, ht⟩, flush3_8 _, ?_⟩
  show i ∈ ((View.whole main_v120_1).slice (win3_8.rect ⟨(i 0).val / 8, ht⟩)).set
  rw [View.set_slice_whole, Rect.mem_set_unit]
  exact forall_fin2 (div_block 8 (i 0).val (by decide) (idx_facts ⟨_, ht⟩).2.2.2.2.2.2.2.2.1) (zero_block 128 (i 1).val (i 1).isLt (idx_facts ⟨_, ht⟩).2.2.2.2.2.2.2.2.2)

theorem final8 : (dat3 V c).arrAt 8 cfg3.N = statArr (arrs V c) :=
  (dat3 V c).arrAt_eq_of_cover 8 (statArr (arrs V c)) (fun t _ => flushed8_eq V c t) (cover8)

end Arrays

section Run
variable (m : (ℓ : Loc nD τ sig) → Buf (Elt Ideal) ℓ) (ρ : Dev nD → PrngReg) (c : Dev nD)

abbrev xh : FVec Ideal S100000x128 .f32 := V15 (F := Ideal) m ρ c (Pipeline.arrRef spec3 0)
abbrev xg : FVec Ideal S100000x128 .f32 := V15 (F := Ideal) m ρ c (Pipeline.arrRef spec3 1)
abbrev xa : FVec Ideal S100000x16 .f32 := V15 (F := Ideal) m ρ c (Pipeline.arrRef spec3 2)
abbrev xwr : FVec Ideal S128x128 .f32 := V15 (F := Ideal) m ρ c (Pipeline.arrRef spec3 3)
abbrev xwn : FVec Ideal S128x128 .f32 := V15 (F := Ideal) m ρ c (Pipeline.arrRef spec3 4)
abbrev xwe : FVec Ideal S16x128 .f32 := V15 (F := Ideal) m ρ c (Pipeline.arrRef spec3 5)
abbrev xb : FVec Ideal S1x128 .f32 := V15 (F := Ideal) m ρ c (Pipeline.arrRef spec3 6)

abbrev H1 : S100000x128.Idx → EReal := ((dat3 (V15 (F := Ideal) m ρ) c).arrAt 7 cfg3.N : S100000x128.Idx → EReal)

theorem h1_apply (i : Fin 100000) (j : Fin 128) :
    ((dat3 (V15 (F := Ideal) m ρ) c).arrAt 7 cfg3.N : S100000x128.Idx → EReal) (ix2 i j)
      = ((∑ k : Fin 128, xh m ρ c (ix2 i k) * xwr m ρ c (ix2 k j) + ∑ k : Fin 128, xg m ρ c (ix2 i k) * xwn m ρ c (ix2 k j))
          + ∑ k : Fin 16, xa m ρ c (ix2 i k) * xwe m ρ c (ix2 k j)) + xb m ρ c (ix2 0 j) :=
  by rw [final7]; unfold preactArr preact; dsimp only [arrs]

theorem stats_apply (t : Fin 20) (q : Fin 8) (j : Fin 128) :
    ((dat3 (V15 (F := Ideal) m ρ) c).arrAt 8 cfg3.N : S160x128.Idx → EReal) (ix2 ⟨8 * t.val + q.val, by omega⟩ j)
      = if q.val = 0 then ∑ r : Fin 5000, H1 m ρ c (ix2 ⟨5000 * t.val + r.val, by omega⟩ j)
        else if q.val = 1 then ∑ r : Fin 5000, H1 m ρ c (ix2 ⟨5000 * t.val + r.val, by omega⟩ j) * H1 m ρ c (ix2 ⟨5000 * t.val + r.val, by omega⟩ j)
        else 0 := by
  rw [show H1 m ρ c = preactArr (arrs (V15 (F := Ideal) m ρ) c) from final7 _ c]
  exact (congrFun (final8 (V15 (F := Ideal) m ρ) c) _).trans (statArr_at _ _ t q j rfl rfl)

end Run

end Cert.KernelIdeal.Hand.R3
-- ==== Proof.KHostOut3.lean ====
import proofs.«425797_j7249904796358_2_alg».proof.Proof.Gen.KernelIdeal.Frame
import proofs.«425797_j7249904796358_2_alg».proof.Proof.KHostLib

noncomputable section

namespace Cert.KernelIdeal.Hand.Out3

open Idealize.ShloMosaic
open Cert.KernelIdeal Cert.KernelIdeal.Gen

variable (m : (ℓ : Loc nD τ sig) → Buf (Elt Ideal) ℓ) (ρ : Dev nD → PrngReg) (c : Dev nD)

theorem out_eq :
    W18 (F := Ideal) m ρ c (Proc.devRef .tc main_v155)
      = HostLib.reluT (HostLib.bnT (W16 (F := Ideal) m ρ c (Proc.devRef .tc main_v120_0)) (W16 (F := Ideal) m ρ c (Proc.devRef .tc main_v120_1))
          (W16 (F := Ideal) m ρ c (Proc.devRef .tc main_arg13)) (W16 (F := Ideal) m ρ c (Proc.devRef .tc main_arg14)) 2
          slices_S3x128_S1x128_2_0) := by
  show StableHlo.after hostOps4_1 (StableHlo.after hostOps4 (W16 (F := Ideal) m ρ c)) (Proc.devRef .tc main_v155) = _
  after_results_simp
  rfl

end Cert.KernelIdeal.Hand.Out3
-- ==== Proof.KHostIn3.lean ====
import proofs.«425797_j7249904796358_2_alg».proof.Proof.Gen.KernelIdeal.Frame
import proofs.«425797_j7249904796358_2_alg».proof.Proof.LibScatterSum
import proofs.«425797_j7249904796358_2_alg».proof.Proof.LibGatherRows
import proofs.«425797_j7249904796358_2_alg».proof.Proof.LibTakeFill
import proofs.«425797_j7249904796358_2_alg».proof.Proof.LayerSpec
import Idealize.ShloMosaic.Lib.ValueIdx
import Idealize.ShloMosaic.Lib.ValueLayout
import Idealize.ShloMosaic.Lib.IdealHost
import proofs.«425797_j7249904796358_2_alg».proof.Proof.KHostIn1
import proofs.«425797_j7249904796358_2_alg».proof.Proof.KHostIn2

set_option maxRecDepth 16384

noncomputable section

namespace Cert.KernelIdeal.Hand.In3

open Cert.KernelIdeal Cert.KernelIdeal.Gen Cert.KernelIdeal.Hand Cert.KernelIdeal.Hand.Args
open Idealize.ShloMosaic Idealize.ShloMosaic.TcCoe Idealize.ShloMosaic.ValueIdx Idealize.ShloMosaic.TakeFill
open Cert.KernelIdeal.Hand.In1 (EI dI EA)

section AnyContents
variable (V : Valuation τ sig (Elt Ideal))

theorem take_V
    (hs : ∀ n : Fin 600000, 0 ≤ ((V (Proc.devRef .tc main_v1) : S600000.Idx → BitVec 32) (ix1 n)).toInt
      ∧ ((V (Proc.devRef .tc main_v1) : S600000.Idx → BitVec 32) (ix1 n)).toInt < ((100000 : Nat) : Int))
    (e : Fin 600000) (k : Fin 128) :
    (StableHlo.after hostOps3_2 V (Proc.devRef .tc main_v107) : S600000x128.Idx → EReal) (ix2 e k)
      = (V (Proc.devRef .tc main_v106) : S100000x128.Idx → EReal)
          (ix2 (⟨((V (Proc.devRef .tc main_v1) : S600000.Idx → BitVec 32) (ix1 e)).toInt.toNat,
            by have := hs e; omega⟩ : Fin 100000) k) := by
  have hcast : ∀ v : (Proc.devRef (τ := τ) .tc main_v107).ty.Contents (Elt Ideal),
      (v : S600000x128.Idx → EReal)
        = (StableHlo.TRef.of main_v107 : StableHlo.TRef sig ⟨S600000x128, .f32⟩).ofBuf v := fun _ => rfl
  refine Eq.trans (congrFun (hcast _) (ix2 e k)) ?_
  after_results_simp
  simp only [ofBuf_toBuf]
  have hP : 0 < 100000 := by omega
  have hcM : (99999#32 : BitVec 32).toInt = ((100000 : Nat) : Int) - 1 := by decide
  have key := take_fill_apply (P := 100000) (C := 128) (N := 600000) hP
    gather_S100000x128_S600000x1_S600000x128_1_0_n_n_0_1_1128 rfl rfl rfl rfl rfl rfl
    bcast_S_S600000 bcast_S600000_S600000x1_0 bcast_S_S600000x1 bcast_S1_S1x1_1 bcast_S1x1_S600000x1_0_1
    reducesTo_S600000x1_S600000_d1 h_S_ bcast_S600000_S600000x128_0 100000#32 99999#32 hcM
    (V (Proc.devRef .tc main_v1)) (V (Proc.devRef .tc main_v106))
    (broadcastInDim S600000x128 ![] bcast_S_S600000x128 (constant (F := Ideal) S_ FTy.f32 2143289344#32)) hs e k
  have hsrc : (StableHlo.TRef.of main_v1 : StableHlo.TRef sig ⟨S600000, .i32⟩).ofBuf (V (Proc.devRef .tc main_v1))
      = (V (Proc.devRef .tc main_v1) : S600000.Idx → BitVec 32) := rfl
  have hx : (StableHlo.TRef.of main_v106 : StableHlo.TRef sig ⟨S100000x128, .f32⟩).ofBuf (V (Proc.devRef .tc main_v106))
      = (V (Proc.devRef .tc main_v106) : S100000x128.Idx → EReal) := rfl
  rw [hsrc, hx]
  exact key

theorem g_V (i : Fin 100000) (k : Fin 128) :
    (StableHlo.after hostOps3_3 V (Proc.devRef .tc main_v110) : S100000x128.Idx → EReal) (ix2 i k)
      = Cert.LayerSpec.seg (fun e : Fin 600000 => ((V (Proc.devRef .tc main_v3) : S600000.Idx → BitVec 32) (ix1 e)).toInt)
          (fun e k => (V (Proc.devRef .tc main_v107) : S600000x128.Idx → EReal) (ix2 e k)) i k := by
  after_results
  unfold Cert.LayerSpec.seg Cert.LayerSpec.into
  exact scatter_zero_rows_apply (P := 100000) (C := 128) (N := 600000)
    scatter_S100000x128_S600000x1_S600000x128_1_0_0_1 rfl rfl rfl rfl bcast_S_S100000x128 bcast_S600000_S600000x1_0
    (V (Proc.devRef .tc main_v3)) (V (Proc.devRef .tc main_v107)) i k

theorem wr_V (k j : Fin 128) :
    (StableHlo.after hostOps3_3 V (Proc.devRef .tc main_v112) : S128x128.Idx → EReal) (ix2 k j)
      = (V (Proc.devRef .tc main_arg9) : S3x128x128.Idx → EReal) (ix3 2 k j) := by
  after_results
  exact member3_apply 2 _ slices_S3x128x128_S1x128x128_2_0_0 shapeCasts_S1x128x128_S128x128 2 rfl k j

theorem wn_V (k j : Fin 128) :
    (StableHlo.after hostOps3_3 V (Proc.devRef .tc main_v114) : S128x128.Idx → EReal) (ix2 k j)
      = (V (Proc.devRef .tc main_arg11) : S3x128x128.Idx → EReal) (ix3 2 k j) := by
  after_results
  exact member3_apply 2 _ slices_S3x128x128_S1x128x128_2_0_0 shapeCasts_S1x128x128_S128x128 2 rfl k j

theorem we_V (k : Fin 16) (j : Fin 128) :
    (StableHlo.after hostOps3_3 V (Proc.devRef .tc main_v116) : S16x128.Idx → EReal) (ix2 k j)
      = (V (Proc.devRef .tc main_arg12) : S3x16x128.Idx → EReal) (ix3 2 k j) := by
  after_results
  exact member3_apply 2 _ slices_S3x16x128_S1x16x128_2_0_0 shapeCasts_S1x16x128_S16x128 2 rfl k j

theorem b_V (j : Fin 128) :
    (StableHlo.after hostOps3_3 V (Proc.devRef .tc main_v119) : S1x128.Idx → EReal) (ix2 0 j)
      = (V (Proc.devRef .tc main_arg10) : S3x128.Idx → EReal) (ix2 2 j) := by
  after_results
  exact member2_row_apply 2 _ slices_S3x128_S1x128_2_0 shapeCasts_S1x128_S128 shapeCasts_S128_S1x128 2 rfl 0 j

end AnyContents

section Run
variable (m : (ℓ : Loc nD τ sig) → Buf (Elt Ideal) ℓ) (ρ : Dev nD → PrngReg) (c : Dev nD)

abbrev H : S100000x128.Idx → EReal := W13 (F := Ideal) m ρ c (Proc.devRef .tc main_v106)

-- The edge-feature sums are read, never written, by the previous layer's kernel and by the host in between.
theorem v8_carry : W15 (F := Ideal) m ρ c (Proc.devRef .tc main_v8) = W10 (F := Ideal) m ρ c (Proc.devRef .tc main_v8) :=
  calc W15 (F := Ideal) m ρ c (Proc.devRef .tc main_v8)
    _ = W14 (F := Ideal) m ρ c (Proc.devRef .tc main_v8) := by carry_host hostOps3_3
    _ = W13 (F := Ideal) m ρ c (Proc.devRef .tc main_v8) := by carry_host hostOps3_2
    _ = W12 (F := Ideal) m ρ c (Proc.devRef .tc main_v8) := by carry_host hostOps3_1
    _ = W11 (F := Ideal) m ρ c (Proc.devRef .tc main_v8) := by carry_host hostOps3
    _ = W10 (F := Ideal) m ρ c (Proc.devRef .tc main_v8) := (W11_arr m ρ c 2).trans (((dat2 (V10 m ρ) c).arrAt_in 2 rfl _).trans (A_eq2 (V10 m ρ) c 2))

theorem h_carry : W15 (F := Ideal) m ρ c (Proc.devRef .tc main_v106) = W13 (F := Ideal) m ρ c (Proc.devRef .tc main_v106) :=
  calc W15 (F := Ideal) m ρ c (Proc.devRef .tc main_v106)
    _ = W14 (F := Ideal) m ρ c (Proc.devRef .tc main_v106) := by carry_host hostOps3_3
    _ = W13 (F := Ideal) m ρ c (Proc.devRef .tc main_v106) := by carry_host hostOps3_2

theorem eatt_apply (i : Fin 100000) (k : Fin 16) :
    (W15 (F := Ideal) m ρ c (Proc.devRef .tc main_v8) : S100000x16.Idx → EReal) (ix2 i k)
      = Cert.LayerSpec.seg (dI m c) (fun e k => EA m c (ix2 e k)) i k := by
  rw [v8_carry m ρ c]; exact In2.eatt_apply m ρ c i k

theorem g_apply (hs : ∀ e : Fin 600000, 0 ≤ (EI m c (ix2 0 e)).toInt ∧ (EI m c (ix2 0 e)).toInt < 100000)
    (i : Fin 100000) (k : Fin 128) :
    (W15 (F := Ideal) m ρ c (Proc.devRef .tc main_v110) : S100000x128.Idx → EReal) (ix2 i k)
      = Cert.LayerSpec.seg (dI m c)
          (fun e k => H m ρ c (ix2 (⟨(EI m c (ix2 0 e)).toInt.toNat, by have := hs e; omega⟩ : Fin 100000) k)) i k := by
  have hsrc : ∀ e : Fin 600000, (W13 (F := Ideal) m ρ c (Proc.devRef .tc main_v1) : S600000.Idx → BitVec 32) (ix1 e) = EI m c (ix2 0 e) :=
    fun e => by rw [k13 m ρ c main_v1 (by decide)]; exact In1.src_W1 m ρ c e
  have hsb : ∀ n : Fin 600000,
      0 ≤ ((W13 (F := Ideal) m ρ c (Proc.devRef .tc main_v1) : S600000.Idx → BitVec 32) (ix1 n)).toInt
        ∧ ((W13 (F := Ideal) m ρ c (Proc.devRef .tc main_v1) : S600000.Idx → BitVec 32) (ix1 n)).toInt < ((100000 : Nat) : Int) :=
    fun n => by rw [hsrc n]; have := hs n; omega
  show (StableHlo.after hostOps3_3 (W14 (F := Ideal) m ρ c) (Proc.devRef .tc main_v110) : S100000x128.Idx → EReal) (ix2 i k) = _
  rw [g_V]
  refine seg_congr (fun e => congrArg BitVec.toInt (by rw [k14 m ρ c main_v3 (by decide)]; exact In1.dst_W1 m ρ c e)) (fun e k => ?_) i k
  show (StableHlo.after hostOps3_2 (W13 (F := Ideal) m ρ c) (Proc.devRef .tc main_v107) : S600000x128.Idx → EReal) (ix2 e k) = _
  rw [take_V (W13 (F := Ideal) m ρ c) hsb e k]
  exact read_row_congr _ _ _ _ _ (congrArg (fun w : BitVec 32 => w.toInt.toNat) (hsrc e)) k

theorem wr_apply (k j : Fin 128) :
    (W15 (F := Ideal) m ρ c (Proc.devRef .tc main_v112) : S128x128.Idx → EReal) (ix2 k j)
      = (m ((c : Thread nD τ).loc main_arg9) : S3x128x128.Idx → EReal) (ix3 2 k j) := by
  show (StableHlo.after hostOps3_3 (W14 (F := Ideal) m ρ c) (Proc.devRef .tc main_v112) : S128x128.Idx → EReal) (ix2 k j) = _
  rw [wr_V, (k14 m ρ c main_arg9 (by decide)).trans (arg_W1 m ρ c _ (by decide))]

theorem wn_apply (k j : Fin 128) :
    (W15 (F := Ideal) m ρ c (Proc.devRef .tc main_v114) : S128x128.Idx → EReal) (ix2 k j)
      = (m ((c : Thread nD τ).loc main_arg11) : S3x128x128.Idx → EReal) (ix3 2 k j) := by
  show (StableHlo.after hostOps3_3 (W14 (F := Ideal) m ρ c) (Proc.devRef .tc main_v114) : S128x128.Idx → EReal) (ix2 k j) = _
  rw [wn_V, (k14 m ρ c main_arg11 (by decide)).trans (arg_W1 m ρ c _ (by decide))]

theorem we_apply (k : Fin 16) (j : Fin 128) :
    (W15 (F := Ideal) m ρ c (Proc.devRef .tc main_v116) : S16x128.Idx → EReal) (ix2 k j)
      = (m ((c : Thread nD τ).loc main_arg12) : S3x16x128.Idx → EReal) (ix3 2 k j) := by
  show (StableHlo.after hostOps3_3 (W14 (F := Ideal) m ρ c) (Proc.devRef .tc main_v116) : S16x128.Idx → EReal) (ix2 k j) = _
  rw [we_V, (k14 m ρ c main_arg12 (by decide)).trans (arg_W1 m ρ c _ (by decide))]

theorem b_apply (j : Fin 128) :
    (W15 (F := Ideal) m ρ c (Proc.devRef .tc main_v119) : S1x128.Idx → EReal) (ix2 0 j)
      = (m ((c : Thread nD τ).loc main_arg10) : S3x128.Idx → EReal) (ix2 2 j) := by
  show (StableHlo.after hostOps3_3 (W14 (F := Ideal) m ρ c) (Proc.devRef .tc main_v119) : S1x128.Idx → EReal) (ix2 0 j) = _
  rw [b_V, (k14 m ρ c main_arg10 (by decide)).trans (arg_W1 m ρ c _ (by decide))]

end Run

end Cert.KernelIdeal.Hand.In3
-- ==== Proof.KLayer3.lean ====
import proofs.«425797_j7249904796358_2_alg».proof.Proof.KRegion3
import proofs.«425797_j7249904796358_2_alg».proof.Proof.KHostOut3
import proofs.«425797_j7249904796358_2_alg».proof.Proof.KHostArgs
import proofs.«425797_j7249904796358_2_alg».proof.Proof.KHostIn3
import proofs.«425797_j7249904796358_2_alg».proof.Proof.KLayerGen

noncomputable section

namespace Cert.KernelIdeal.Hand.L3

open Idealize.ShloMosaic Idealize.ShloMosaic.TcCoe Idealize.ShloMosaic.ValueIdx Idealize.SL.Sem
open Cert.KernelIdeal Cert.KernelIdeal.Gen Cert.Stage LayerGen

variable (m : (ℓ : Loc nD τ sig) → Buf (Elt Ideal) ℓ) (ρ : Dev nD → PrngReg) (c : Dev nD)
  (hs : ∀ e : Fin 600000, 0 ≤ (EI m c (ix2 0 e)).toInt ∧ (EI m c (ix2 0 e)).toInt < 100000) (hpre : Cert.Pre_KernelIdeal m)
  (hH : ∀ (i : Fin 100000) (k : Fin 128), ∃ r : ℝ, (W13 (F := Ideal) m ρ c (Proc.devRef .tc main_v106) : S100000x128.Idx → EReal) (ix2 i k) = (r : EReal))
include hs hpre hH

theorem layer_value :
    W18 (F := Ideal) m ρ c (Proc.devRef .tc main_v155)
      = Cert.Stage.LAYER2 (W13 (F := Ideal) m ρ c (Proc.devRef .tc main_v106)) (m ((c : Thread nD τ).loc main_arg1)) (m ((c : Thread nD τ).loc main_arg2))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) :=
  value m c 2 hs (Out3.out_eq m ρ c) (Args.W16_arg13 m ρ c) (Args.W16_arg14 m ρ c) (W16_arr (F := Ideal) m ρ c 7)
    (W16_arr (F := Ideal) m ρ c 8) (R3.h1_apply m ρ c) (R3.stats_apply m ρ c) (In3.h_carry m ρ c) (In3.g_apply m ρ c hs)
    (In3.eatt_apply m ρ c) (In3.wr_apply m ρ c) (In3.wn_apply m ρ c) (In3.we_apply m ρ c) (In3.b_apply m ρ c)
    (fun w => At2.stack3_apply 2 w _ _) (fun w => At2.stack3_apply 2 w _ _) (fun v => At2.stack2_apply 2 v _ _) rfl hpre hH

theorem layer_real (i : Fin 100000) (j : Fin 128) :
    ∃ r : ℝ, (W18 (F := Ideal) m ρ c (Proc.devRef .tc main_v155) : S100000x128.Idx → EReal) (ix2 i j) = (r : EReal) :=
  real m c 2 hs (fun w => At2.stack3_apply 2 w _ _) (fun w => At2.stack3_apply 2 w _ _) (fun v => At2.stack2_apply 2 v _ _) rfl hpre hH (layer_value m ρ c hs hpre hH) i j

end Cert.KernelIdeal.Hand.L3

end
-- ==== Proof.KValue.lean ====
import proofs.«425797_j7249904796358_2_alg».proof.Proof.Gen.KernelIdeal.Frame
import proofs.«425797_j7249904796358_2_alg».proof.Proof.Gen.ReferenceIdeal
import proofs.«425797_j7249904796358_2_alg».proof.Proof.Gen.Pre_finite_inputs
import proofs.«425797_j7249904796358_2_alg».proof.Defs
import proofs.«425797_j7249904796358_2_alg».proof.Proof.Stage
import proofs.«425797_j7249904796358_2_alg».proof.Proof.StageApply
import proofs.«425797_j7249904796358_2_alg».proof.Proof.KEnc
import proofs.«425797_j7249904796358_2_alg».proof.Proof.KMlp
import proofs.«425797_j7249904796358_2_alg».proof.Proof.KPool
import proofs.«425797_j7249904796358_2_alg».proof.Proof.KLayer1
import proofs.«425797_j7249904796358_2_alg».proof.Proof.KLayer2
import proofs.«425797_j7249904796358_2_alg».proof.Proof.KLayer3
import proofs.«425797_j7249904796358_2_alg».proof.Proof.PreFacts
import proofs.«425797_j7249904796358_2_alg».proof.Proof.LayerConsts
import Idealize.ShloMosaic.Lib.ValueIdx

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

theorem enc_value :
    W2 (F := Ideal) m ρ c (Proc.devRef .tc main_v5)
      = Cert.Stage.ENC (m ((c : Thread nD τ).loc main_arg0)) (m ((c : Thread nD τ).loc main_arg7)) (m ((c : Thread nD τ).loc main_arg8)) := by
  show encOut m ρ c = _
  funext idx
  obtain ⟨i, j, rfl⟩ : ∃ (i : Fin 100000) (j : Fin 128), idx = ix2 i j := ⟨idx 0, idx 1, eq_ix2 idx⟩
  exact (enc_apply m ρ c i j).trans (Cert.Stage.ENC_apply _ _ _ i j).symm

theorem enc_real (hpre : Cert.Pre_KernelIdeal m) (i : Fin 100000) (j : Fin 128) :
    ∃ r : ℝ, encOut m ρ c (ix2 i j) = (r : EReal) := by
  rw [enc_apply m ρ c i j]
  exact Cert.LayerSpec.real_dot_add _ _ _ (fun k => Cert.PreFacts.real_arg0 (hpre c) _) (fun k => Cert.PreFacts.real_arg7 (hpre c) _)
    (Cert.PreFacts.real_arg8 (hpre c) _)

theorem mlp_value :
    W22 (F := Ideal) m ρ c (Proc.devRef .tc main_v191)
      = Cert.Stage.MLP (W21 (F := Ideal) m ρ c (Proc.devRef .tc main_v188)) (m ((c : Thread nD τ).loc main_arg15))
          (m ((c : Thread nD τ).loc main_arg16)) (m ((c : Thread nD τ).loc main_arg17)) (m ((c : Thread nD τ).loc main_arg18)) := by
  show mlpOut m ρ c = _
  funext idx
  obtain ⟨i, j, rfl⟩ : ∃ (i : Fin 512) (j : Fin 10), idx = ix2 i j := ⟨idx 0, idx 1, eq_ix2 idx⟩
  exact (mlp_apply m ρ c i j).trans (Cert.Stage.MLP_apply _ _ _ _ _ i j).symm

theorem kernel_value (hpre : Cert.Pre_KernelIdeal m) :
    W22 (F := Ideal) m ρ c (Proc.devRef .tc main_v191)
      = Cert.Stage.OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  have hs := Cert.PreFacts.src_range (hpre c)
  have r0 := enc_real m ρ c hpre
  have e1 := L1.layer_value m ρ c hs hpre r0
  have r1 := L1.layer_real m ρ c hs hpre r0
  have e2 := L2.layer_value m ρ c hs hpre r1
  have r2 := L2.layer_real m ρ c hs hpre r1
  have e3 := L3.layer_value m ρ c hs hpre r2
  unfold Cert.Stage.OUT
  rw [mlp_value m ρ c, pool_value m ρ c, e3, e2, e1, enc_value m ρ c]

end Cert.KernelIdeal.Hand

end
-- ==== Proof.lean ====
import proofs.«425797_j7249904796358_2_alg».proof.Defs
import proofs.«425797_j7249904796358_2_alg».proof.Proof.Gen.Kernel
import proofs.«425797_j7249904796358_2_alg».proof.Proof.Gen.Kernel.Frame
import proofs.«425797_j7249904796358_2_alg».proof.Proof.Gen.KernelIdeal
import proofs.«425797_j7249904796358_2_alg».proof.Proof.Gen.KernelIdeal.Frame
import proofs.«425797_j7249904796358_2_alg».proof.Proof.Gen.ReferenceIdeal
import proofs.«425797_j7249904796358_2_alg».proof.Proof.Gen.Pre_finite_inputs
import proofs.«425797_j7249904796358_2_alg».proof.Proof.KRun
import proofs.«425797_j7249904796358_2_alg».proof.Proof.RefRun
import proofs.«425797_j7249904796358_2_alg».proof.Proof.RefValue
import proofs.«425797_j7249904796358_2_alg».proof.Proof.KValue

noncomputable section

namespace Cert.Proof

open Idealize.ShloMosaic Idealize.ShloMosaic.TcCoe Idealize.SL.Sem

-- Both programs end at one function of the arguments (kernel_value, ref_value), and the two memories agree on the arguments.
theorem algebraic : Cert.algebraic_KernelIdeal_ReferenceIdeal := by
  intro m ρ m' ρ' hpre hagree
  refine ⟨fun c => Cert.KernelIdeal.Gen.W22 (F := Ideal) m ρ c (Proc.devRef .tc Cert.KernelIdeal.main_v191), Cert.KernelIdeal.Gen.run_named (F := Ideal) m ρ, ?_⟩
  refine (θ_run (Cert.ReferenceIdeal.defs (F := Ideal)) _ _).mono (fun r h c => ⟨?_, (h c).2⟩) (Cert.ReferenceIdeal.Hand.run_args (F := Ideal) m' ρ')
  obtain ⟨g0, g1, g2, g3, g4, g5, g6, g7, g8, g9, g10, g11, g12, g13, g14, g15, g16, g17, g18⟩ := hagree c
  refine (h c).1.trans ?_
  rw [Cert.RefValue.ref_value]
  show _ = Cert.KernelIdeal.Gen.W22 (F := Ideal) m ρ c (Proc.devRef .tc Cert.KernelIdeal.main_v191)
  rw [Cert.KernelIdeal.Hand.kernel_value m ρ c hpre, ← g0, ← g1, ← g2, ← g3, ← g4, ← g5, ← g6, ← g7, ← g8, ← g9, ← g10, ← g11, ← g12, ← g13, ← g14, ← g15, ← g16, ← g17, ← g18]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run _ _ _).mono (fun _ h c => (h c).2) (Cert.ReferenceIdeal.Hand.run_args (F := Ideal) m ρ),
  trivial,
  algebraic⟩

end Cert.Proof

end
